-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_42" .f32 0x3CC30C31#32 ((1 / 42 : ℝ) : EReal)
  ∧ IdealRules.named_const.Statement Cert.KernelIdeal.κ "inv_60" .f32 0x3C888889#32 ((1 / 60 : ℝ) : EReal)
  ∧ IdealRules.named_const.Statement Cert.KernelIdeal.κ "inv_20" .f32 0x3D4CCCCD#32 ((1 / 20 : ℝ) : EReal)
  ∧ IdealRules.named_const.Statement Cert.KernelIdeal.κ "inv_63" .f32 0x3C820821#32 ((1 / 63 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131073x3x21 : Shape := ⟨3, ![131073, 3, 21]⟩
abbrev S131072x2x21 : Shape := ⟨3, ![131072, 2, 21]⟩
abbrev S131072x3x3 : Shape := ⟨3, ![131072, 3, 3]⟩
abbrev S131072x3x1 : Shape := ⟨3, ![131072, 3, 1]⟩
abbrev S131072x3x20 : Shape := ⟨3, ![131072, 3, 20]⟩
abbrev S20 : Shape := ⟨1, ![20]⟩
abbrev S20x2 : Shape := ⟨2, ![20, 2]⟩
abbrev S_ : Shape := ⟨0, ![]⟩

class Facts : Prop where
  bcast_S_S131073x3x21 : S_.BroadcastsInDim S131073x3x21 (![] : Fin 0 → Fin S131073x3x21.rank)
  reducesTo_S131073x3x21_S_d0_1_2 : S131073x3x21.ReducesTo [0, 1, 2] S_
  h_S_ : 0 < S_.numel
  bcast_S_S131072x2x21 : S_.BroadcastsInDim S131072x2x21 (![] : Fin 0 → Fin S131072x2x21.rank)
  reducesTo_S131072x2x21_S_d0_1_2 : S131072x2x21.ReducesTo [0, 1, 2] S_
  bcast_S_S131072x3x3 : S_.BroadcastsInDim S131072x3x3 (![] : Fin 0 → Fin S131072x3x3.rank)
  reducesTo_S131072x3x3_S_d0_1_2 : S131072x3x3.ReducesTo [0, 1, 2] S_
  bcast_S_S131072x3x1 : S_.BroadcastsInDim S131072x3x1 (![] : Fin 0 → Fin S131072x3x1.rank)
  reducesTo_S131072x3x1_S_d0_1_2 : S131072x3x1.ReducesTo [0, 1, 2] S_
  bcast_S_S131072x3x20 : S_.BroadcastsInDim S131072x3x20 (![] : Fin 0 → Fin S131072x3x20.rank)
  reducesTo_S131072x3x20_S_d0_1_2 : S131072x3x20.ReducesTo [0, 1, 2] S_
  bcast_S_S20 : S_.BroadcastsInDim S20 (![] : Fin 0 → Fin S20.rank)
  reducesTo_S20_S_d0 : S20.ReducesTo [0] S_
  bcast_S_S20x2 : S_.BroadcastsInDim S20x2 (![] : Fin 0 → Fin S20x2.rank)
  reducesTo_S20x2_S_d0_1 : S20x2.ReducesTo [0, 1] S_

variable [Facts]

def fn_part2 {F : FTy → Type} [FloatOps F] (main_arg7 : IVec S20x2 32) (main_v28 : IVec S_ 1) (main_v33 : IVec S20x2 1) : IVec S_ 1 :=
  let main_c_12 : IVec S_ 1 := constantI S_ 1 1#1
  let main_v34 : IVec S_ 1 := (fun x v => Host.reduce IntOp.andi x v reducesTo_S20x2_S_d0_1 h_S_) main_v33 main_c_12
  let main_v35 : IVec S_ 1 := andi main_v28 main_v34
  let main_c_13 : IVec S_ 32 := constantI S_ 32 0#32
  let main_v36 : IVec S20x2 32 := broadcastInDim S20x2 ![] bcast_S_S20x2 main_c_13
  let main_v37 : IVec S20x2 1 := cmpi .sge main_arg7 main_v36
  let main_c_14 : IVec S_ 32 := constantI S_ 32 21#32
  let main_v38 : IVec S20x2 32 := broadcastInDim S20x2 ![] bcast_S_S20x2 main_c_14
  let main_v39 : IVec S20x2 1 := cmpi .slt main_arg7 main_v38
  let main_v40 : IVec S20x2 1 := andi main_v37 main_v39
  let main_c_15 : IVec S_ 1 := constantI S_ 1 1#1
  let main_v41 : IVec S_ 1 := (fun x v => Host.reduce IntOp.andi x v reducesTo_S20x2_S_d0_1 h_S_) main_v40 main_c_15
  let main_v42 : IVec S_ 1 := andi main_v35 main_v41
  main_v42

def fn_part1 {F : FTy → Type} [FloatOps F] (main_arg4 : FVec F S131072x3x20 .f32) (main_arg5 : FVec F S20 .f32) (main_arg6 : IVec S20x2 32) (main_arg7 : IVec S20x2 32) (main_v13 : IVec S_ 1) (main_v16 : IVec S131072x3x1 1) : IVec S_ 1 :=
  let main_c_5 : IVec S_ 1 := constantI S_ 1 1#1
  let main_v17 : IVec S_ 1 := (fun x v => Host.reduce IntOp.andi x v reducesTo_S131072x3x1_S_d0_1_2 h_S_) main_v16 main_c_5
  let main_v18 : IVec S_ 1 := andi main_v13 main_v17
  let main_v19 : FVec F S131072x3x20 .f32 := Host.absf main_arg4
  let main_cst_6 : FVec F S_ .f32 := constant S_ .f32 0x7F800000#32
  let main_v20 : FVec F S131072x3x20 .f32 := broadcastInDim S131072x3x20 ![] bcast_S_S131072x3x20 main_cst_6
  let main_v21 : IVec S131072x3x20 1 := cmpf .olt main_v19 main_v20
  let main_c_7 : IVec S_ 1 := constantI S_ 1 1#1
  let main_v22 : IVec S_ 1 := (fun x v => Host.reduce IntOp.andi x v reducesTo_S131072x3x20_S_d0_1_2 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_c_10 : IVec S_ 32 := constantI S_ 32 0#32
  let main_v29 : IVec S20x2 32 := broadcastInDim S20x2 ![] bcast_S_S20x2 main_c_10
  let main_v30 : IVec S20x2 1 := cmpi .sge main_arg6 main_v29
  let main_c_11 : IVec S_ 32 := constantI S_ 32 21#32
  let main_v31 : IVec S20x2 32 := broadcastInDim S20x2 ![] bcast_S_S20x2 main_c_11
  let main_v32 : IVec S20x2 1 := cmpi .slt main_arg6 main_v31
  let main_v33 : IVec S20x2 1 := andi main_v30 main_v32
  fn_part2 (F := F) main_arg7 main_v28 main_v33

def fn {F : FTy → Type} [FloatOps F] (main_arg0 : FVec F S131073x3x21 .f32) (main_arg1 : FVec F S131072x2x21 .f32) (main_arg2 : FVec F S131072x3x3 .f32) (main_arg3 : FVec F S131072x3x1 .f32) (main_arg4 : FVec F S131072x3x20 .f32) (main_arg5 : FVec F S20 .f32) (main_arg6 : IVec S20x2 32) (main_arg7 : IVec S20x2 32) : IVec S_ 1 :=
  let main_v0 : FVec F S131073x3x21 .f32 := Host.absf main_arg0
  let main_cst : FVec F S_ .f32 := constant S_ .f32 0x7F800000#32
  let main_v1 : FVec F S131073x3x21 .f32 := broadcastInDim S131073x3x21 ![] bcast_S_S131073x3x21 main_cst
  let main_v2 : IVec S131073x3x21 1 := cmpf .olt main_v0 main_v1
  let main_c : IVec S_ 1 := constantI S_ 1 1#1
  let main_v3 : IVec S_ 1 := (fun x v => Host.reduce IntOp.andi x v reducesTo_S131073x3x21_S_d0_1_2 h_S_) main_v2 main_c
  let main_v4 : FVec F S131072x2x21 .f32 := Host.absf main_arg1
  let main_cst_0 : FVec F S_ .f32 := constant S_ .f32 0x7F800000#32
  let main_v5 : FVec F S131072x2x21 .f32 := broadcastInDim S131072x2x21 ![] bcast_S_S131072x2x21 main_cst_0
  let main_v6 : IVec S131072x2x21 1 := cmpf .olt main_v4 main_v5
  let main_c_1 : IVec S_ 1 := constantI S_ 1 1#1
  let main_v7 : IVec S_ 1 := (fun x v => Host.reduce IntOp.andi x v reducesTo_S131072x2x21_S_d0_1_2 h_S_) main_v6 main_c_1
  let main_v8 : IVec S_ 1 := andi main_v3 main_v7
  let main_v9 : FVec F S131072x3x3 .f32 := Host.absf main_arg2
  let main_cst_2 : FVec F S_ .f32 := constant S_ .f32 0x7F800000#32
  let main_v10 : FVec F S131072x3x3 .f32 := broadcastInDim S131072x3x3 ![] bcast_S_S131072x3x3 main_cst_2
  let main_v11 : IVec S131072x3x3 1 := cmpf .olt main_v9 main_v10
  let main_c_3 : IVec S_ 1 := constantI S_ 1 1#1
  let main_v12 : IVec S_ 1 := (fun x v => Host.reduce IntOp.andi x v reducesTo_S131072x3x3_S_d0_1_2 h_S_) main_v11 main_c_3
  let main_v13 : IVec S_ 1 := andi main_v8 main_v12
  let main_v14 : FVec F S131072x3x1 .f32 := Host.absf main_arg3
  let main_cst_4 : FVec F S_ .f32 := constant S_ .f32 0x7F800000#32
  let main_v15 : FVec F S131072x3x1 .f32 := broadcastInDim S131072x3x1 ![] bcast_S_S131072x3x1 main_cst_4
  let main_v16 : IVec S131072x3x1 1 := cmpf .olt main_v14 main_v15
  fn_part1 (F := F) main_arg4 main_arg5 main_arg6 main_arg7 main_v13 main_v16
-- ==== Kernel.lean ====
abbrev S131073x3x21 : Shape := ⟨3, ![131073, 3, 21]⟩
abbrev S131072x2x21 : Shape := ⟨3, ![131072, 2, 21]⟩
abbrev S131072x3x3 : Shape := ⟨3, ![131072, 3, 3]⟩
abbrev S131072x3x1 : Shape := ⟨3, ![131072, 3, 1]⟩
abbrev S131072x3x20 : Shape := ⟨3, ![131072, 3, 20]⟩
abbrev S20 : Shape := ⟨1, ![20]⟩
abbrev S20x2 : Shape := ⟨2, ![20, 2]⟩
abbrev S131072x3x21 : Shape := ⟨3, ![131072, 3, 21]⟩
abbrev S131072x63 : Shape := ⟨2, ![131072, 63]⟩
abbrev S1x3x21 : Shape := ⟨3, ![1, 3, 21]⟩
abbrev S2x3x21 : Shape := ⟨3, ![2, 3, 21]⟩
abbrev S131071x3x21 : Shape := ⟨3, ![131071, 3, 21]⟩
abbrev S131072x42 : Shape := ⟨2, ![131072, 42]⟩
abbrev S131072x9 : Shape := ⟨2, ![131072, 9]⟩
abbrev S131072x3 : Shape := ⟨2, ![131072, 3]⟩
abbrev S131072x60 : Shape := ⟨2, ![131072, 60]⟩
abbrev S20x1 : Shape := ⟨2, ![20, 1]⟩
abbrev S1x21 : Shape := ⟨2, ![1, 21]⟩
abbrev S20x21 : Shape := ⟨2, ![20, 21]⟩
abbrev S21x20 : Shape := ⟨2, ![21, 20]⟩
abbrev S21x80 : Shape := ⟨2, ![21, 80]⟩
abbrev S1x20 : Shape := ⟨2, ![1, 20]⟩
abbrev S256x128 : Shape := ⟨2, ![256, 128]⟩
abbrev S4096x63 : Shape := ⟨2, ![4096, 63]⟩
abbrev S4096x42 : Shape := ⟨2, ![4096, 42]⟩
abbrev S4096x9 : Shape := ⟨2, ![4096, 9]⟩
abbrev S4096x3 : Shape := ⟨2, ![4096, 3]⟩
abbrev S4096x60 : Shape := ⟨2, ![4096, 60]⟩
abbrev S8x128 : Shape := ⟨2, ![8, 128]⟩
abbrev S1x1 : Shape := ⟨2, ![1, 1]⟩
abbrev S256x63 : Shape := ⟨2, ![256, 63]⟩
abbrev S256x42 : Shape := ⟨2, ![256, 42]⟩
abbrev S256x9 : Shape := ⟨2, ![256, 9]⟩
abbrev S256x3 : Shape := ⟨2, ![256, 3]⟩
abbrev S256x60 : Shape := ⟨2, ![256, 60]⟩
abbrev S256x1 : Shape := ⟨2, ![256, 1]⟩
abbrev S256x21 : Shape := ⟨2, ![256, 21]⟩
abbrev S256 : Shape := ⟨1, ![256]⟩
abbrev S1 : Shape := ⟨1, ![1]⟩
abbrev S256x80 : Shape := ⟨2, ![256, 80]⟩
abbrev S256x20 : Shape := ⟨2, ![256, 20]⟩
abbrev S_ : Shape := ⟨0, ![]⟩

abbrev nBuf : Space → Nat
  | .hbm => 65
  | .vmem => 18
  | .smem => 0
  | _ => 0

abbrev bufTy : (tb : Table) → Fin (tcTables nBuf tb) → BufTy
  | .hbm, ⟨0, _⟩ => ⟨S131073x3x21, .f32⟩
  | .hbm, ⟨1, _⟩ => ⟨S131072x2x21, .f32⟩
  | .hbm, ⟨2, _⟩ => ⟨S131072x3x3, .f32⟩
  | .hbm, ⟨3, _⟩ => ⟨S131072x3x1, .f32⟩
  | .hbm, ⟨4, _⟩ => ⟨S131072x3x20, .f32⟩
  | .hbm, ⟨5, _⟩ => ⟨S20, .f32⟩
  | .hbm, ⟨6, _⟩ => ⟨S20x2, .i32⟩
  | .hbm, ⟨7, _⟩ => ⟨S20x2, .i32⟩
  | .hbm, ⟨8, _⟩ => ⟨S131072x3x21, .f32⟩
  | .hbm, ⟨9, _⟩ => ⟨S131072x63, .f32⟩
  | .hbm, ⟨10, _⟩ => ⟨S1x3x21, .f32⟩
  | .hbm, ⟨11, _⟩ => ⟨S131072x3x21, .f32⟩
  | .hbm, ⟨12, _⟩ => ⟨S131073x3x21, .f32⟩
  | .hbm, ⟨13, _⟩ => ⟨S131072x3x21, .f32⟩
  | .hbm, ⟨14, _⟩ => ⟨S131072x63, .f32⟩
  | .hbm, ⟨15, _⟩ => ⟨S2x3x21, .f32⟩
  | .hbm, ⟨16, _⟩ => ⟨S131071x3x21, .f32⟩
  | .hbm, ⟨17, _⟩ => ⟨S131073x3x21, .f32⟩
  | .hbm, ⟨18, _⟩ => ⟨S131072x3x21, .f32⟩
  | .hbm, ⟨19, _⟩ => ⟨S131072x63, .f32⟩
  | .hbm, ⟨20, _⟩ => ⟨S131072x42, .f32⟩
  | .hbm, ⟨21, _⟩ => ⟨S131072x9, .f32⟩
  | .hbm, ⟨22, _⟩ => ⟨S131072x3, .f32⟩
  | .hbm, ⟨23, _⟩ => ⟨S131072x60, .f32⟩
  | .hbm, ⟨24, _⟩ => ⟨S20x1, .i32⟩
  | .hbm, ⟨25, _⟩ => ⟨S20, .i32⟩
  | .hbm, ⟨26, _⟩ => ⟨S20x1, .i32⟩
  | .hbm, ⟨27, _⟩ => ⟨S1x21, .i32⟩
  | .hbm, ⟨28, _⟩ => ⟨S20x21, .i32⟩
  | .hbm, ⟨29, _⟩ => ⟨S20x21, .i32⟩
  | .hbm, ⟨30, _⟩ => ⟨S20x21, .i1⟩
  | .hbm, ⟨31, _⟩ => ⟨S20x21, .f32⟩
  | .hbm, ⟨32, _⟩ => ⟨S21x20, .f32⟩
  | .hbm, ⟨33, _⟩ => ⟨S20x1, .i32⟩
  | .hbm, ⟨34, _⟩ => ⟨S20, .i32⟩
  | .hbm, ⟨35, _⟩ => ⟨S20x1, .i32⟩
  | .hbm, ⟨36, _⟩ => ⟨S1x21, .i32⟩
  | .hbm, ⟨37, _⟩ => ⟨S20x21, .i32⟩
  | .hbm, ⟨38, _⟩ => ⟨S20x21, .i32⟩
  | .hbm, ⟨39, _⟩ => ⟨S20x21, .i1⟩
  | .hbm, ⟨40, _⟩ => ⟨S20x21, .f32⟩
  | .hbm, ⟨41, _⟩ => ⟨S21x20, .f32⟩
  | .hbm, ⟨42, _⟩ => ⟨S20x1, .i32⟩
  | .hbm, ⟨43, _⟩ => ⟨S20, .i32⟩
  | .hbm, ⟨44, _⟩ => ⟨S20x1, .i32⟩
  | .hbm, ⟨45, _⟩ => ⟨S1x21, .i32⟩
  | .hbm, ⟨46, _⟩ => ⟨S20x21, .i32⟩
  | .hbm, ⟨47, _⟩ => ⟨S20x21, .i32⟩
  | .hbm, ⟨48, _⟩ => ⟨S20x21, .i1⟩
  | .hbm, ⟨49, _⟩ => ⟨S20x21, .f32⟩
  | .hbm, ⟨50, _⟩ => ⟨S21x20, .f32⟩
  | .hbm, ⟨51, _⟩ => ⟨S20x1, .i32⟩
  | .hbm, ⟨52, _⟩ => ⟨S20, .i32⟩
  | .hbm, ⟨53, _⟩ => ⟨S20x1, .i32⟩
  | .hbm, ⟨54, _⟩ => ⟨S1x21, .i32⟩
  | .hbm, ⟨55, _⟩ => ⟨S20x21, .i32⟩
  | .hbm, ⟨56, _⟩ => ⟨S20x21, .i32⟩
  | .hbm, ⟨57, _⟩ => ⟨S20x21, .i1⟩
  | .hbm, ⟨58, _⟩ => ⟨S20x21, .f32⟩
  | .hbm, ⟨59, _⟩ => ⟨S21x20, .f32⟩
  | .hbm, ⟨60, _⟩ => ⟨S21x80, .f32⟩
  | .hbm, ⟨61, _⟩ => ⟨S1x20, .f32⟩
  | .hbm, ⟨62, _⟩ => ⟨S256x128, .f32⟩
  | .hbm, ⟨63, _⟩ => ⟨S_, .f32⟩
  | .hbm, ⟨64, _⟩ => ⟨S_, .f32⟩
  | .local _ .vmem, ⟨0, _⟩ => ⟨S4096x63, .f32⟩
  | .local _ .vmem, ⟨1, _⟩ => ⟨S4096x63, .f32⟩
  | .local _ .vmem, ⟨2, _⟩ => ⟨S4096x63, .f32⟩
  | .local _ .vmem, ⟨3, _⟩ => ⟨S4096x63, .f32⟩
  | .local _ .vmem, ⟨4, _⟩ => ⟨S4096x63, .f32⟩
  | .local _ .vmem, ⟨5, _⟩ => ⟨S4096x63, .f32⟩
  | .local _ .vmem, ⟨6, _⟩ => ⟨S4096x42, .f32⟩
  | .local _ .vmem, ⟨7, _⟩ => ⟨S4096x42, .f32⟩
  | .local _ .vmem, ⟨8, _⟩ => ⟨S4096x9, .f32⟩
  | .local _ .vmem, ⟨9, _⟩ => ⟨S4096x9, .f32⟩
  | .local _ .vmem, ⟨10, _⟩ => ⟨S4096x3, .f32⟩
  | .local _ .vmem, ⟨11, _⟩ => ⟨S4096x3, .f32⟩
  | .local _ .vmem, ⟨12, _⟩ => ⟨S4096x60, .f32⟩
  | .local _ .vmem, ⟨13, _⟩ => ⟨S4096x60, .f32⟩
  | .local _ .vmem, ⟨14, _⟩ => ⟨S21x80, .f32⟩
  | .local _ .vmem, ⟨15, _⟩ => ⟨S1x20, .f32⟩
  | .local _ .vmem, ⟨16, _⟩ => ⟨S8x128, .f32⟩
  | .local _ .vmem, ⟨17, _⟩ => ⟨S8x128, .f32⟩
  | _, _ => ⟨S131073x3x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst : Ref sig .tc := ⟨.hbm, 63, rfl⟩
abbrev main_v31 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  v31
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  let v32 : BitVec 32 := v31
  let v33 : Index := Scalar.indexCast v32
  let c0_13 : Index := 0#32
  ![v33.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  let v32 : BitVec 32 := v31
  let v42 : Index := Scalar.indexCast v32
  let c0_16 : Index := 0#32
  ![v42.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  let v32 : BitVec 32 := v31
  let v45 : Index := Scalar.indexCast v32
  let c0_17 : Index := 0#32
  ![v45.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  let v32 : BitVec 32 := v31
  let v48 : Index := Scalar.indexCast v32
  let c0_18 : Index := 0#32
  ![v48.toNat, 0]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v31 : BitVec 32 := Scalar.muli arg11 c256_i32
  let v32 : BitVec 32 := v31
  let v51 : Index := Scalar.indexCast v32
  let c0_19 : Index := 0#32
  ![v51.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x63 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x42 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x60 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S21x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S131073x3x21_S131072x3x21_0_0_0 : S131073x3x21.Slices ![0, 0, 0] S131072x3x21
  shapeCasts_S131072x3x21_S131072x63 : S131072x3x21.ShapeCasts S131072x63
  slices_S131073x3x21_S1x3x21_131072_0_0 : S131073x3x21.Slices ![131072, 0, 0] S1x3x21
  concatenates_S1x3x21_S131072x3x21_S131073x3x21_d0 : Shape.Concatenates [S1x3x21, S131072x3x21] S131073x3x21 0
  slices_S131073x3x21_S2x3x21_131071_0_0 : S131073x3x21.Slices ![131071, 0, 0] S2x3x21
  slices_S131073x3x21_S131071x3x21_0_0_0 : S131073x3x21.Slices ![0, 0, 0] S131071x3x21
  concatenates_S2x3x21_S131071x3x21_S131073x3x21_d0 : Shape.Concatenates [S2x3x21, S131071x3x21] S131073x3x21 0
  shapeCasts_S131072x2x21_S131072x42 : S131072x2x21.ShapeCasts S131072x42
  shapeCasts_S131072x3x3_S131072x9 : S131072x3x3.ShapeCasts S131072x9
  shapeCasts_S131072x3x1_S131072x3 : S131072x3x1.ShapeCasts S131072x3
  shapeCasts_S131072x3x20_S131072x60 : S131072x3x20.ShapeCasts S131072x60
  slices_S20x2_S20x1_0_0 : S20x2.Slices ![0, 0] S20x1
  shapeCasts_S20x1_S20 : S20x1.ShapeCasts S20
  bcast_S20_S20x1_0 : S20.BroadcastsInDim S20x1 (![0] : Fin 1 → Fin S20x1.rank)
  bcast_S20x1_S20x21_0_1 : S20x1.BroadcastsInDim S20x21 (![0, 1] : Fin 2 → Fin S20x21.rank)
  bcast_S1x21_S20x21_0_1 : S1x21.BroadcastsInDim S20x21 (![0, 1] : Fin 2 → Fin S20x21.rank)
  transposes_S20x21_S21x20_1_0 : S20x21.Transposes [1, 0] S21x20
  slices_S20x2_S20x1_0_1 : S20x2.Slices ![0, 1] S20x1
  concatenates_S21x20_S21x20_S21x20_S21x20_S21x80_d1 : Shape.Concatenates [S21x20, S21x20, S21x20, S21x20] S21x80 1
  shapeCasts_S20_S1x20 : S20.ShapeCasts S1x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S21x80_S21x80_0_0 : ∀ a, (![0, 0] : Fin 2 → Nat) a + S21x80.size a ≤ S21x80.size a
  h_S21x80 : 0 < S21x80.numel
  shapeCasts_S21x80_S21x80 : S21x80.ShapeCasts S21x80
  h_S256x63 : 0 < S256x63.numel
  shapeCasts_S256x63_S256x63 : S256x63.ShapeCasts S256x63
  h_S256x42 : 0 < S256x42.numel
  shapeCasts_S256x42_S256x42 : S256x42.ShapeCasts S256x42
  h_S256x9 : 0 < S256x9.numel
  shapeCasts_S256x9_S256x9 : S256x9.ShapeCasts S256x9
  h_S256x3 : 0 < S256x3.numel
  shapeCasts_S256x3_S256x3 : S256x3.ShapeCasts S256x3
  h_S256x60 : 0 < S256x60.numel
  shapeCasts_S256x60_S256x60 : S256x60.ShapeCasts S256x60
  iota_S256x1_d0_w32 : S256x1.Iotas .tc 32 [0]
  natLt_1_32 : 1 < 32
  slices_S256x63_o0_0_S256x21 : S256x63.Slices ![0, 0] S256x21
  slices_S256x63_o0_21_S256x21 : S256x63.Slices ![0, 21] S256x21
  slices_S256x63_o0_42_S256x21 : S256x63.Slices ![0, 42] S256x21
  slices_S256x3_o0_0_S256x1 : S256x3.Slices ![0, 0] S256x1
  slices_S256x3_o0_1_S256x1 : S256x3.Slices ![0, 1] S256x1
  slices_S256x3_o0_2_S256x1 : S256x3.Slices ![0, 2] S256x1
  broadcasts_S256x1_S256x21 : S256x1.Broadcasts S256x21
  slices_S256x9_o0_0_S256x1 : S256x9.Slices ![0, 0] S256x1
  slices_S256x9_o0_1_S256x1 : S256x9.Slices ![0, 1] S256x1
  slices_S256x9_o0_2_S256x1 : S256x9.Slices ![0, 2] S256x1
  slices_S256x9_o0_3_S256x1 : S256x9.Slices ![0, 3] S256x1
  slices_S256x9_o0_4_S256x1 : S256x9.Slices ![0, 4] S256x1
  slices_S256x9_o0_5_S256x1 : S256x9.Slices ![0, 5] S256x1
  slices_S256x9_o0_6_S256x1 : S256x9.Slices ![0, 6] S256x1
  slices_S256x9_o0_7_S256x1 : S256x9.Slices ![0, 7] S256x1
  slices_S256x9_o0_8_S256x1 : S256x9.Slices ![0, 8] S256x1
  slices_S256x42_o0_0_S256x21 : S256x42.Slices ![0, 0] S256x21
  slices_S256x42_o0_21_S256x21 : S256x42.Slices ![0, 21] S256x21
  reduces_S256x21_S256 : S256x21.Reduces [1] S256
  shapeCasts_S256_S256x1 : S256.ShapeCasts S256x1
  reduces_S256x1_S1 : S256x1.Reduces [0] S1
  shapeCasts_S1_S1x1 : S1.ShapeCasts S1x1
  slices_S256x80_o0_0_S256x20 : S256x80.Slices ![0, 0] S256x20
  slices_S256x80_o0_20_S256x20 : S256x80.Slices ![0, 20] S256x20
  slices_S256x80_o0_40_S256x20 : S256x80.Slices ![0, 40] S256x20
  slices_S256x80_o0_60_S256x20 : S256x80.Slices ![0, 60] S256x20
  slices_S256x60_o0_0_S256x20 : S256x60.Slices ![0, 0] S256x20
  slices_S256x60_o0_20_S256x20 : S256x60.Slices ![0, 20] S256x20
  slices_S256x60_o0_40_S256x20 : S256x60.Slices ![0, 40] S256x20
  reduces_S256x20_S256 : S256x20.Reduces [1] S256
  broadcasts_S1x20_S256x20 : S1x20.Broadcasts S256x20
  reduces_S256x63_S256 : S256x63.Reduces [1] S256
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  h_S_ : 0 < S_.numel
  dot_S256x21_S21x80_S256x80_1_0_0_1_n_n_wf : DotDims.WF S256x21 S21x80 S256x80 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x63.size a ≤ S4096x63.size a
  k0_off2_inb : ∀ k0_t1 : Fin k0_t1_loop.trips, ∀ a, (k0_off2 k0_t1) a + S256x42.size a ≤ S4096x42.size a
  k0_off3_inb : ∀ k0_t1 : Fin k0_t1_loop.trips, ∀ a, (k0_off3 k0_t1) a + S256x9.size a ≤ S4096x9.size a
  k0_off4_inb : ∀ k0_t1 : Fin k0_t1_loop.trips, ∀ a, (k0_off4 k0_t1) a + S256x3.size a ≤ S4096x3.size a
  k0_off5_inb : ∀ k0_t1 : Fin k0_t1_loop.trips, ∀ a, (k0_off5 k0_t1) a + S256x60.size a ≤ S4096x60.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x63.size a ≤ S131072x63.size a
  hwx0_0 : ∀ i : grid0.Coords, EltTy.bits .f32 = 32 ∨ (Rect.block (s := S131072x63) S4096x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x63.size a ≤ S131072x63.size a
  hwx0_1 : ∀ i : grid0.Coords, EltTy.bits .f32 = 32 ∨ (Rect.block (s := S131072x63) S4096x63.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x63.size a ≤ S131072x63.size a
  hwx0_2 : ∀ i : grid0.Coords, EltTy.bits .f32 = 32 ∨ (Rect.block (s := S131072x63) S4096x63.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x42.size a ≤ S131072x42.size a
  hwx0_3 : ∀ i : grid0.Coords, EltTy.bits .f32 = 32 ∨ (Rect.block (s := S131072x42) S4096x42.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x9.size a ≤ S131072x9.size a
  hwx0_4 : ∀ i : grid0.Coords, EltTy.bits .f32 = 32 ∨ (Rect.block (s := S131072x9) S4096x9.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x3.size a ≤ S131072x3.size a
  hwx0_5 : ∀ i : grid0.Coords, EltTy.bits .f32 = 32 ∨ (Rect.block (s := S131072x3) S4096x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x60.size a ≤ S131072x60.size a
  hwx0_6 : ∀ i : grid0.Coords, EltTy.bits .f32 = 32 ∨ (Rect.block (s := S131072x60) S4096x60.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S21x80.size a ≤ S21x80.size a
  hwx0_7 : ∀ i : grid0.Coords, EltTy.bits .f32 = 32 ∨ (Rect.block (s := S21x80) S21x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S256x128.size a
  hwx0_9 : ∀ i : grid0.Coords, EltTy.bits .f32 = 32 ∨ (Rect.block (s := S256x128) S8x128.size (cc0_transform_9 i) (hinb0_9 i)).WholeWords (EltTy.packing .f32)

variable [Facts₀]

def dot_S256x21_S21x80_S256x80_1_0_0_1_n_n : DotDims S256x21 S21x80 S256x80 where
  lhsContracting := [1]
  rhsContracting := [0]
  lhsNonContracting := [0]
  rhsNonContracting := [1]
  lhsBatch := []
  rhsBatch := []
  wf := dot_S256x21_S21x80_S256x80_1_0_0_1_n_n_wf

abbrev win0_0 : Pipeline.Window sig grid0 :=
  Pipeline.Window.ofSpec (Memref.whole main_v1) S4096x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x63.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x42.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4096x9.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4096x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S4096x60.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28) S21x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131073x3x21 : Shape := ⟨3, ![131073, 3, 21]⟩
abbrev S131072x2x21 : Shape := ⟨3, ![131072, 2, 21]⟩
abbrev S131072x3x3 : Shape := ⟨3, ![131072, 3, 3]⟩
abbrev S131072x3x1 : Shape := ⟨3, ![131072, 3, 1]⟩
abbrev S131072x3x20 : Shape := ⟨3, ![131072, 3, 20]⟩
abbrev S20 : Shape := ⟨1, ![20]⟩
abbrev S20x2 : Shape := ⟨2, ![20, 2]⟩
abbrev S131072x3x21 : Shape := ⟨3, ![131072, 3, 21]⟩
abbrev S131072 : Shape := ⟨1, ![131072]⟩
abbrev S_ : Shape := ⟨0, ![]⟩
abbrev S131072x1x21 : Shape := ⟨3, ![131072, 1, 21]⟩
abbrev S131072x21 : Shape := ⟨2, ![131072, 21]⟩
abbrev S20x1 : Shape := ⟨2, ![20, 1]⟩
abbrev S131072x20 : Shape := ⟨2, ![131072, 20]⟩
abbrev S131072x1x20 : Shape := ⟨3, ![131072, 1, 20]⟩
abbrev S131072x1 : Shape := ⟨2, ![131072, 1]⟩
abbrev S1x20 : Shape := ⟨2, ![1, 20]⟩

abbrev nBuf : Space → Nat
  | .hbm => 221
  | .vmem => 0
  | .smem => 0
  | _ => 0

abbrev hbmTy0_0 (i : Nat) : BufTy := match i % 128 with
  | 0 => ⟨S131073x3x21, .f32⟩
  | 1 => ⟨S131072x2x21, .f32⟩
  | 2 => ⟨S131072x3x3, .f32⟩
  | 3 => ⟨S131072x3x1, .f32⟩
  | 4 => ⟨S131072x3x20, .f32⟩
  | 5 => ⟨S20, .f32⟩
  | 6 => ⟨S20x2, .i32⟩
  | 7 => ⟨S20x2, .i32⟩
  | 8 => ⟨S131072x3x21, .f32⟩
  | 9 => ⟨S131072, .i32⟩
  | 10 => ⟨S_, .i32⟩
  | 11 => ⟨S131072, .i32⟩
  | 12 => ⟨S131072, .i1⟩
  | 13 => ⟨S131072, .f32⟩
  | 14 => ⟨S131072x3x21, .f32⟩
  | 15 => ⟨S131072x3x21, .f32⟩
  | 16 => ⟨S131072x3x21, .f32⟩
  | 17 => ⟨S131072x1x21, .f32⟩
  | 18 => ⟨S131072x21, .f32⟩
  | 19 => ⟨S131072x1x21, .f32⟩
  | 20 => ⟨S131072x21, .f32⟩
  | 21 => ⟨S_, .f32⟩
  | 22 => ⟨S131072x21, .f32⟩
  | 23 => ⟨S131072x21, .f32⟩
  | 24 => ⟨S131072x21, .f32⟩
  | 25 => ⟨S_, .f32⟩
  | 26 => ⟨S131072x21, .f32⟩
  | 27 => ⟨S131072x21, .f32⟩
  | 28 => ⟨S131072x1x21, .f32⟩
  | 29 => ⟨S131072x21, .f32⟩
  | 30 => ⟨S_, .f32⟩
  | 31 => ⟨S131072x21, .f32⟩
  | 32 => ⟨S131072x21, .f32⟩
  | 33 => ⟨S131072x21, .f32⟩
  | 34 => ⟨S_, .f32⟩
  | 35 => ⟨S131072x21, .f32⟩
  | 36 => ⟨S131072x21, .f32⟩
  | 37 => ⟨S131072x1x21, .f32⟩
  | 38 => ⟨S131072x1x21, .f32⟩
  | 39 => ⟨S131072x2x21, .f32⟩
  | 40 => ⟨S131072x2x21, .f32⟩
  | 41 => ⟨S131072x2x21, .f32⟩
  | 42 => ⟨S_, .f32⟩
  | 43 => ⟨S131072, .f32⟩
  | 44 => ⟨S_, .f32⟩
  | 45 => ⟨S131072, .f32⟩
  | 46 => ⟨S131072, .f32⟩
  | 47 => ⟨S131072, .f32⟩
  | 48 => ⟨S_, .f32⟩
  | 49 => ⟨S_, .f32⟩
  | 50 => ⟨S20x1, .i32⟩
  | 51 => ⟨S20, .i32⟩
  | 52 => ⟨S_, .i32⟩
  | 53 => ⟨S20, .i32⟩
  | 54 => ⟨S20, .i1⟩
  | 55 => ⟨S_, .i32⟩
  | 56 => ⟨S20, .i32⟩
  | 57 => ⟨S20, .i32⟩
  | 58 => ⟨S20, .i32⟩
  | 59 => ⟨S20x1, .i32⟩
  | 60 => ⟨S131072x3x20, .f32⟩
  | 61 => ⟨S20x1, .i32⟩
  | 62 => ⟨S20, .i32⟩
  | 63 => ⟨S_, .i32⟩
  | 64 => ⟨S20, .i32⟩
  | 65 => ⟨S20, .i1⟩
  | 66 => ⟨S_, .i32⟩
  | 67 => ⟨S20, .i32⟩
  | 68 => ⟨S20, .i32⟩
  | 69 => ⟨S20, .i32⟩
  | 70 => ⟨S20x1, .i32⟩
  | 71 => ⟨S131072x3x20, .f32⟩
  | 72 => ⟨S131072x3x20, .f32⟩
  | 73 => ⟨S131072x3x20, .f32⟩
  | 74 => ⟨S_, .f32⟩
  | 75 => ⟨S131072x20, .f32⟩
  | 76 => ⟨S131072x1x20, .f32⟩
  | 77 => ⟨S131072x1x20, .f32⟩
  | 78 => ⟨S_, .f32⟩
  | 79 => ⟨S131072x1x20, .f32⟩
  | 80 => ⟨S131072x1x20, .f32⟩
  | 81 => ⟨S131072x3x20, .f32⟩
  | 82 => ⟨S131072x3x20, .f32⟩
  | 83 => ⟨S131072x3x20, .f32⟩
  | 84 => ⟨S131072x3x20, .f32⟩
  | 85 => ⟨S_, .f32⟩
  | 86 => ⟨S131072, .f32⟩
  | 87 => ⟨S_, .f32⟩
  | 88 => ⟨S131072, .f32⟩
  | 89 => ⟨S131072, .f32⟩
  | 90 => ⟨S131072, .f32⟩
  | 91 => ⟨S_, .f32⟩
  | 92 => ⟨S_, .f32⟩
  | 93 => ⟨S131072, .i32⟩
  | 94 => ⟨S_, .i32⟩
  | 95 => ⟨S131072, .i32⟩
  | 96 => ⟨S131072, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i1⟩
  | 111 => ⟨S_, .i32⟩
  | 112 => ⟨S_, .i1⟩
  | 113 => ⟨S131072, .i1⟩
  | 114 => ⟨S131072, .i1⟩
  | 115 => ⟨S131072, .i1⟩
  | 116 => ⟨S131072, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x3x21, .f32⟩
  | _ => ⟨S131073x3x21, .f32⟩

abbrev hbmTy0_1 (i : Nat) : BufTy := match i % 128 with
  | 0 => ⟨S_, .i32⟩
  | 1 => ⟨S131072, .i32⟩
  | 2 => ⟨S131072, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i1⟩
  | 17 => ⟨S_, .i32⟩
  | 18 => ⟨S_, .i1⟩
  | 19 => ⟨S131072, .i1⟩
  | 20 => ⟨S131072, .i1⟩
  | 21 => ⟨S131072, .i1⟩
  | 22 => ⟨S131072, .i32⟩
  | 23 => ⟨S131072, .i32⟩
  | 24 => ⟨S131072, .i32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S131072x3x21, .f32⟩
  | 34 => ⟨S131072x3x21, .f32⟩
  | 35 => ⟨S131072x3x21, .f32⟩
  | 36 => ⟨S131072x3x21, .f32⟩
  | 37 => ⟨S131072x3x21, .f32⟩
  | 38 => ⟨S_, .f32⟩
  | 39 => ⟨S131072, .f32⟩
  | 40 => ⟨S_, .f32⟩
  | 41 => ⟨S131072, .f32⟩
  | 42 => ⟨S131072, .f32⟩
  | 43 => ⟨S_, .f32⟩
  | 44 => ⟨S_, .f32⟩
  | 45 => ⟨S20x1, .i32⟩
  | 46 => ⟨S20, .i32⟩
  | 47 => ⟨S_, .i32⟩
  | 48 => ⟨S20, .i32⟩
  | 49 => ⟨S20, .i1⟩
  | 50 => ⟨S_, .i32⟩
  | 51 => ⟨S20, .i32⟩
  | 52 => ⟨S20, .i32⟩
  | 53 => ⟨S20, .i32⟩
  | 54 => ⟨S20x1, .i32⟩
  | 55 => ⟨S131072x3x20, .f32⟩
  | 56 => ⟨S20x1, .i32⟩
  | 57 => ⟨S20, .i32⟩
  | 58 => ⟨S_, .i32⟩
  | 59 => ⟨S20, .i32⟩
  | 60 => ⟨S20, .i1⟩
  | 61 => ⟨S_, .i32⟩
  | 62 => ⟨S20, .i32⟩
  | 63 => ⟨S20, .i32⟩
  | 64 => ⟨S20, .i32⟩
  | 65 => ⟨S20x1, .i32⟩
  | 66 => ⟨S131072x3x20, .f32⟩
  | 67 => ⟨S131072x3x20, .f32⟩
  | 68 => ⟨S131072x3x20, .f32⟩
  | 69 => ⟨S_, .f32⟩
  | 70 => ⟨S131072x20, .f32⟩
  | 71 => ⟨S1x20, .f32⟩
  | 72 => ⟨S131072x20, .f32⟩
  | 73 => ⟨S131072x20, .f32⟩
  | 74 => ⟨S131072x20, .f32⟩
  | 75 => ⟨S_, .f32⟩
  | 76 => ⟨S131072, .f32⟩
  | 77 => ⟨S_, .f32⟩
  | 78 => ⟨S131072, .f32⟩
  | 79 => ⟨S131072, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | _ => ⟨S131073x3x21, .f32⟩

abbrev hbmTy (i : Nat) : BufTy := match i / 128 with
  | 0 => hbmTy0_0 i
  | 1 => hbmTy0_1 i
  | _ => ⟨S131073x3x21, .f32⟩

abbrev bufTy : (tb : Table) → Fin (tcTables nBuf tb) → BufTy
  | .hbm, ⟨i, _⟩ => hbmTy i
  | _, _ => ⟨S131073x3x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_v0 : Ref sig .tc := ⟨.hbm, 73, rfl⟩
abbrev main_call0_cst : Ref sig .tc := ⟨.hbm, 74, rfl⟩
abbrev main_call0_v1 : Ref sig .tc := ⟨.hbm, 75, rfl⟩
abbrev main_call0_v2 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_c_1 : Ref sig .tc := ⟨.hbm, 105, rfl⟩
abbrev main_call1_v5 : Ref sig .tc := ⟨.hbm, 106, rfl⟩
abbrev main_call1_v6 : Ref sig .tc := ⟨.hbm, 107, rfl⟩
abbrev main_call1_c_2 : Ref sig .tc := ⟨.hbm, 108, rfl⟩
abbrev main_call1_v7 : Ref sig .tc := ⟨.hbm, 109, rfl⟩
abbrev main_call1_v8 : Ref sig .tc := ⟨.hbm, 110, rfl⟩
abbrev main_call1_c_3 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_v68 : Ref sig .tc := ⟨.hbm, 118, rfl⟩
abbrev main_c_16 : Ref sig .tc := ⟨.hbm, 119, rfl⟩
abbrev main_v69 : Ref sig .tc := ⟨.hbm, 120, rfl⟩
abbrev main_v70 : Ref sig .tc := ⟨.hbm, 121, rfl⟩
abbrev main_c_17 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_18 : Ref sig .tc := ⟨.hbm, 128, rfl⟩
abbrev main_v76 : Ref sig .tc := ⟨.hbm, 129, rfl⟩
abbrev main_v77 : Ref sig .tc := ⟨.hbm, 130, rfl⟩
abbrev main_c_19 : Ref sig .tc := ⟨.hbm, 131, rfl⟩
abbrev main_call2_v0 : Ref sig .tc := ⟨.hbm, 132, rfl⟩
abbrev main_call2_c : Ref sig .tc := ⟨.hbm, 133, rfl⟩
abbrev main_call2_v1 : Ref sig .tc := ⟨.hbm, 134, rfl⟩
abbrev main_call2_c_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_c_1 : Ref sig .tc := ⟨.hbm, 139, rfl⟩
abbrev main_call2_v5 : Ref sig .tc := ⟨.hbm, 140, rfl⟩
abbrev main_call2_v6 : Ref sig .tc := ⟨.hbm, 141, rfl⟩
abbrev main_call2_c_2 : Ref sig .tc := ⟨.hbm, 142, rfl⟩
abbrev main_call2_v7 : Ref sig .tc := ⟨.hbm, 143, rfl⟩
abbrev main_call2_v8 : Ref sig .tc := ⟨.hbm, 144, rfl⟩
abbrev main_call2_c_3 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_v12 : Ref sig .tc := ⟨.hbm, 149, rfl⟩
abbrev main_call2_v13 : Ref sig .tc := ⟨.hbm, 150, rfl⟩
abbrev main_call2_v14 : Ref sig .tc := ⟨.hbm, 151, rfl⟩
abbrev main_v78 : Ref sig .tc := ⟨.hbm, 152, rfl⟩
abbrev main_c_20 : Ref sig .tc := ⟨.hbm, 153, rfl⟩
abbrev main_v79 : Ref sig .tc := ⟨.hbm, 154, rfl⟩
abbrev main_v80 : Ref sig .tc := ⟨.hbm, 155, rfl⟩
abbrev main_c_21 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_22 : Ref sig .tc := ⟨.hbm, 166, rfl⟩
abbrev main_v90 : Ref sig .tc := ⟨.hbm, 167, rfl⟩
abbrev main_cst_23 : Ref sig .tc := ⟨.hbm, 168, rfl⟩
abbrev main_v91 : Ref sig .tc := ⟨.hbm, 169, rfl⟩
abbrev main_v92 : Ref sig .tc := ⟨.hbm, 170, rfl⟩
abbrev main_cst_24 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_c_25 : Ref sig .tc := ⟨.hbm, 175, rfl⟩
abbrev main_v96 : Ref sig .tc := ⟨.hbm, 176, rfl⟩
abbrev main_v97 : Ref sig .tc := ⟨.hbm, 177, rfl⟩
abbrev main_c_26 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_c_27 : Ref sig .tc := ⟨.hbm, 186, rfl⟩
abbrev main_v105 : Ref sig .tc := ⟨.hbm, 187, rfl⟩
abbrev main_v106 : Ref sig .tc := ⟨.hbm, 188, rfl⟩
abbrev main_c_28 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_29 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_cst_30 : Ref sig .tc := ⟨.hbm, 203, rfl⟩
abbrev main_v119 : Ref sig .tc := ⟨.hbm, 204, rfl⟩
abbrev main_cst_31 : Ref sig .tc := ⟨.hbm, 205, rfl⟩
abbrev main_v120 : Ref sig .tc := ⟨.hbm, 206, rfl⟩
abbrev main_v121 : Ref sig .tc := ⟨.hbm, 207, rfl⟩
abbrev main_cst_32 : Ref sig .tc := ⟨.hbm, 208, rfl⟩
abbrev main_v122 : Ref sig .tc := ⟨.hbm, 209, rfl⟩
abbrev main_cst_33 : Ref sig .tc := ⟨.hbm, 210, rfl⟩
abbrev main_v123 : Ref sig .tc := ⟨.hbm, 211, rfl⟩
abbrev main_cst_34 : Ref sig .tc := ⟨.hbm, 212, rfl⟩
abbrev main_v124 : Ref sig .tc := ⟨.hbm, 213, rfl⟩
abbrev main_v125 : Ref sig .tc := ⟨.hbm, 214, rfl⟩
abbrev main_cst_35 : Ref sig .tc := ⟨.hbm, 215, rfl⟩
abbrev main_v126 : Ref sig .tc := ⟨.hbm, 216, rfl⟩
abbrev main_v127 : Ref sig .tc := ⟨.hbm, 217, rfl⟩
abbrev main_cst_36 : Ref sig .tc := ⟨.hbm, 218, rfl⟩
abbrev main_v128 : Ref sig .tc := ⟨.hbm, 219, rfl⟩
abbrev main_v129 : Ref sig .tc := ⟨.hbm, 220, rfl⟩

abbrev nD : Nat := 1
abbrev τ : Topo := Topo.v7x

variable {F : FTy → Type} [FloatOps F]

class Facts₀ : Prop where
  slices_S131073x3x21_S131072x3x21_0_0_0 : S131073x3x21.Slices ![0, 0, 0] S131072x3x21
  bcast_S_S131072 : S_.BroadcastsInDim S131072 (![] : Fin 0 → Fin S131072.rank)
  bcast_S131072x3x1_S131072x3x21_0_1_2 : S131072x3x1.BroadcastsInDim S131072x3x21 (![0, 1, 2] : Fin 3 → Fin S131072x3x21.rank)
  slices_S131072x3x21_S131072x1x21_0_2_0 : S131072x3x21.Slices ![0, 2, 0] S131072x1x21
  shapeCasts_S131072x1x21_S131072x21 : S131072x1x21.ShapeCasts S131072x21
  slices_S131072x3x21_S131072x1x21_0_0_0 : S131072x3x21.Slices ![0, 0, 0] S131072x1x21
  bcast_S_S131072x21 : S_.BroadcastsInDim S131072x21 (![] : Fin 0 → Fin S131072x21.rank)
  slices_S131072x3x21_S131072x1x21_0_1_0 : S131072x3x21.Slices ![0, 1, 0] S131072x1x21
  bcast_S131072x21_S131072x1x21_0_2 : S131072x21.BroadcastsInDim S131072x1x21 (![0, 2] : Fin 2 → Fin S131072x1x21.rank)
  concatenates_S131072x1x21_S131072x1x21_S131072x2x21_d1 : Shape.Concatenates [S131072x1x21, S131072x1x21] S131072x2x21 1
  reducesTo_S131072x2x21_S131072_d1_2 : S131072x2x21.ReducesTo [1, 2] S131072
  h_S_ : 0 < S_.numel
  reducesTo_S131072_S_d0 : S131072.ReducesTo [0] S_
  slices_S20x2_S20x1_0_0 : S20x2.Slices ![0, 0] S20x1
  shapeCasts_S20x1_S20 : S20x1.ShapeCasts S20
  bcast_S_S20 : S_.BroadcastsInDim S20 (![] : Fin 0 → Fin S20.rank)
  bcast_S20_S20x1_0 : S20.BroadcastsInDim S20x1 (![0] : Fin 1 → Fin S20x1.rank)
  slices_S20x2_S20x1_0_1 : S20x2.Slices ![0, 1] S20x1
  reducesTo_S131072x3x20_S131072x20_d1 : S131072x3x20.ReducesTo [1] S131072x20
  bcast_S131072x20_S131072x1x20_0_2 : S131072x20.BroadcastsInDim S131072x1x20 (![0, 2] : Fin 2 → Fin S131072x1x20.rank)
  bcast_S_S131072x1x20 : S_.BroadcastsInDim S131072x1x20 (![] : Fin 0 → Fin S131072x1x20.rank)
  bcast_S131072x1x20_S131072x3x20_0_1_2 : S131072x1x20.BroadcastsInDim S131072x3x20 (![0, 1, 2] : Fin 3 → Fin S131072x3x20.rank)
  reducesTo_S131072x3x20_S131072_d1_2 : S131072x3x20.ReducesTo [1, 2] S131072
  bcast_S131072_S131072x1_0 : S131072.BroadcastsInDim S131072x1 (![0] : Fin 1 → Fin S131072x1.rank)
  reducesTo_S131072x3x21_S131072_d1_2 : S131072x3x21.ReducesTo [1, 2] S131072
  bcast_S20_S1x20_1 : S20.BroadcastsInDim S1x20 (![1] : Fin 1 → Fin S1x20.rank)
  bcast_S1x20_S131072x20_0_1 : S1x20.BroadcastsInDim S131072x20 (![0, 1] : Fin 2 → Fin S131072x20.rank)
  reducesTo_S131072x20_S131072_d1 : S131072x20.ReducesTo [1] S131072
  dot_S131072x3x3_S131072x3x21_S131072x3x21_1_1_2_2_0_0_wf : DotDims.WF S131072x3x3 S131072x3x21 S131072x3x21 [1] [1] [2] [2] [0] [0]
  gather_S131072x3x21_S20x1_S131072x3x20_01_2_n_n_2_1_13107231_wf : GatherDims.WF S131072x3x21 S20x1 S131072x3x20 [0, 1] [2] [] [2] [] 1 ![131072, 3, 1]
  gather_S131073x3x21_S131072x1_S131072x3x21_12_0_n_n_0_1_1321_wf : GatherDims.WF S131073x3x21 S131072x1 S131072x3x21 [1, 2] [0] [] [0] [] 1 ![1, 3, 21]

variable [Facts₀]

def dot_S131072x3x3_S131072x3x21_S131072x3x21_1_1_2_2_0_0 : DotDims S131072x3x3 S131072x3x21 S131072x3x21 where
  lhsContracting := [1]
  rhsContracting := [1]
  lhsNonContracting := [2]
  rhsNonContracting := [2]
  lhsBatch := [0]
  rhsBatch := [0]
  wf := dot_S131072x3x3_S131072x3x21_S131072x3x21_1_1_2_2_0_0_wf
def gather_S131072x3x21_S20x1_S131072x3x20_01_2_n_n_2_1_13107231 : GatherDims S131072x3x21 S20x1 S131072x3x20 where
  offsetDims := [0, 1]
  collapsedSliceDims := [2]
  operandBatchingDims := []
  startIndicesBatchingDims := []
  startIndexMap := [2]
  indexVectorDim := 1
  sliceSizes := ![131072, 3, 1]
  wf := gather_S131072x3x21_S20x1_S131072x3x20_01_2_n_n_2_1_13107231_wf
def gather_S131073x3x21_S131072x1_S131072x3x21_12_0_n_n_0_1_1321 : GatherDims S131073x3x21 S131072x1 S131072x3x21 where
  offsetDims := [1, 2]
  collapsedSliceDims := [0]
  operandBatchingDims := []
  startIndicesBatchingDims := []
  startIndexMap := [0]
  indexVectorDim := 1
  sliceSizes := ![1, 3, 21]
  wf := gather_S131073x3x21_S131072x1_S131072x3x21_12_0_n_n_0_1_1321_wf

class Facts : Prop extends Facts₀ where

variable [Facts]
-- ==== Proof.KDefsBits.lean ====
import proofs.«408326_j73830487818418_3_alg».proof.Proof.Gen.Kernel.Launch
import proofs.«408326_j73830487818418_3_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

abbrev pre : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

abbrev V0 (c : Dev nD) : Valuation τ sig (Elt F) := StableHlo.after (List.flatten (pre (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KTripBits.lean ====
import proofs.«408326_j73830487818418_3_alg».proof.Proof.Gen.Kernel.Skeleton

noncomputable section

namespace Cert.Kernel.Hand

open Idealize.ShloMosaic
open Cert.Kernel Cert.Kernel.Gen

variable {F : FTy → Type} [FloatOps F]

abbrev Acc (F : FTy → Type) [FloatOps F] : Type := FVec F S1x1 .f32 × FVec F S1x1 .f32 × FVec F S1x1 .f32 × FVec F S1x1 .f32

def tripF (v0 : BitVec 32) (BL : Vec F S1x20 .f32) (OH : Vec F S21x80 .f32) (k : Fin k0_t1_loop.trips)
    (v34 v37 v40 : Vec F S256x63 .f32) (v43 : Vec F S256x42 .f32) (v46 : Vec F S256x9 .f32)
    (v49 : Vec F S256x3 .f32) (v52 : Vec F S256x60 .f32) (acc : Acc F) : Acc F :=
  (k0_pay3 acc.1 (k0_pay29 (k0_pay11 v43) (k0_pay12 v46) (k0_pay15 (F := F) v0 0#32 1#32 k)
      (k0_pay19 v34 v49) (k0_pay20 v34 v49) (k0_pay21 v34 v49)
      (k0_pay22 v46) (k0_pay23 v46) (k0_pay24 v46) (k0_pay25 v46) (k0_pay26 v46) (k0_pay27 v46) (k0_pay28 v46)),
   k0_pay4 acc.2.1 (k0_pay36 (k0_pay1 OH) (k0_pay14 v52) (k0_pay15 (F := F) v0 0#32 1#32 k) (k0_pay16 v34) (k0_pay17 v34) (k0_pay18 v34)),
   k0_pay5 BL acc.2.2.1 (k0_pay31 (k0_pay1 OH) (k0_pay16 v34)) (k0_pay33 (k0_pay1 OH) (k0_pay17 v34)) (k0_pay35 (k0_pay1 OH) (k0_pay18 v34)),
   k0_pay6 acc.2.2.2 (k0_pay8 v34) (k0_pay9 v37) (k0_pay10 v40))

def acc0 : Acc F := (k0_pay2 (F := F), k0_pay2 (F := F), k0_pay2 (F := F), k0_pay2 (F := F))

end Cert.Kernel.Hand

end
-- ==== Proof.LibWrites.lean ====
import Idealize.ShloMosaic.Lib.StableHlo.Run

namespace Cert

open Idealize.ShloMosaic

variable {τ : Topo} {sig : RefSig}

/-- The device buffer of a listed reference, alone, lies in the list's set of device buffers: each operation's share of `StableHlo.after_of_writes_sub`. -/
theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert
-- ==== Proof.KFrameBits.lean ====
import proofs.«408326_j73830487818418_3_alg».proof.Proof.KDefsBits
import proofs.«408326_j73830487818418_3_alg».proof.Proof.KTripBits
import proofs.«408326_j73830487818418_3_alg».proof.Proof.LibWrites
import proofs.«408326_j73830487818418_3_alg».proof.Proof.Gen.Kernel.Loops
import proofs.«408326_j73830487818418_3_alg».proof.Proof.Gen.Kernel.Launch
import proofs.«408326_j73830487818418_3_alg».proof.Proof.Gen.Kernel.Points
import Idealize.ShloMosaic.Lib.Pipeline.FrameSuffix
import Idealize.ShloMosaic.Lib.Pipeline.FrameBody
import Idealize.ShloMosaic.Lib.Tactic
import Idealize.ShloMosaic.Lib.Exec
import Idealize.ShloMosaic.Lib.Ring
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is thirteen stretches of host operations, the region, and the closing sum of the output array. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; repeat' constructor) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl <;> rfl

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

abbrev Wpre : List (Ref sig .tc) :=
  [main_v0, main_v1, main_call0_v0, main_call0_v1, main_v2, main_v3, main_v4, main_call1_v0, main_call1_v1, main_v5, main_v6, main_v7,
   main_v8, main_v9, main_v10, main_v11, main_v12, main_v13, main_call2_v0, main_call2_v1, main_call2_v2, main_call2_v3, main_call2_v4, main_v14,
   main_v15, main_v16, main_v17, main_call3_v0, main_call3_v1, main_call3_v2, main_call3_v3, main_call3_v4, main_v18, main_v19, main_v20, main_v21,
   main_call4_v0, main_call4_v1, main_call4_v2, main_call4_v3, main_call4_v4, main_v22, main_v23, main_v24, main_v25,
   main_call5_v0, main_call5_v1, main_call5_v2, main_call5_v3, main_call5_v4, main_v26, main_v27, main_v28, main_v29]

theorem pre_writes : (List.flatten (pre (F := F))).Forall fun op =>
    op.writes ⊆ (Wpre.map (Proc.devRef (τ := τ) .tc)).toFinset := by
  repeat' apply And.intro
  all_goals exact wr (by decide)

/-- A buffer no host stretch before the region writes is found by the region as launched. -/
theorem V_arg (c : Dev nD) {b : Ref sig .tc} (hb : b ∉ Wpre) : V m c b = m ((c : Thread nD τ).loc b) :=
  StableHlo.after_of_writes_sub _ _ pre_writes hb

/-- A buffer outside the region that no host operation writes ends as launched. -/
theorem kept (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD)
    (b : Ref sig .tc) (hs : b.isScoped = false) (ha : ∀ w, Pipeline.arrRef spec0 w ≠ b)
    (h1 : b ≠ main_cst) (h2 : b ≠ main_v31) (hb : b ∉ Wpre) :
    r.2.mem ((c.tc : Thread nD τ).loc b) = m ((c.tc : Thread nD τ).loc b) := by
  refine ((h c).2 b (Pipeline.mem_restRefs_of b hs ha)).trans ?_
  unfold Pipeline.afterTail₀
  show StableHlo.after hostOps1 _ (Proc.devRef .tc b) = _
  simp only [StableHlo.after_cons, StableHlo.after_nil]
  rw [StableHlo.binary_result_ne (h := h2), StableHlo.nullary_result_ne (h := h1)]
  exact (Pipeline.withArrays_of_ne spec0 c _ _ b ha).trans (V_arg m c hb)

/-- The eight arguments hold in the state `r` what they held at launch. -/
abbrev KeptAt (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_args (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) : KeptAt m r c := by
  refine ⟨?_, ?_, ?_, ?_, ?_, ?_, ?_, ?_⟩ <;>
    exact kept m dats r h c _ rfl (by decide) (by decide) (by decide) (by decide)

set_option maxHeartbeats 4000000 in

/-- What the body's one store leaves in the output block, as a list of pieces, with the body's run: it only loads its nine inputs. -/
noncomputable def bodyRun (c : Dev nD) (i : grid0.Coords) (arg1 : Memref sig .tc .vmem S4096x63 .f32) (harg1 : arg1.IsWhole) (arg2 : Memref sig .tc .vmem S4096x63 .f32) (harg2 : arg2.IsWhole) (arg3 : Memref sig .tc .vmem S4096x63 .f32) (harg3 : arg3.IsWhole) (arg4 : Memref sig .tc .vmem S4096x42 .f32) (harg4 : arg4.IsWhole) (arg5 : Memref sig .tc .vmem S4096x9 .f32) (harg5 : arg5.IsWhole) (arg6 : Memref sig .tc .vmem S4096x3 .f32) (harg6 : arg6.IsWhole) (arg7 : Memref sig .tc .vmem S4096x60 .f32) (harg7 : arg7.IsWhole) (arg8 : Memref sig .tc .vmem S21x80 .f32) (harg8 : arg8.IsWhole) (arg9 : Memref sig .tc .vmem S1x20 .f32) (harg9 : arg9.IsWhole) (arg10 : Memref sig .tc .vmem S8x128 .f32) (harg10 : arg10.IsWhole)
    (x0 : Vec F S4096x63 .f32) (x1 : Vec F S4096x63 .f32) (x2 : Vec F S4096x63 .f32) (x3 : Vec F S4096x42 .f32) (x4 : Vec F S4096x9 .f32) (x5 : Vec F S4096x3 .f32) (x6 : Vec F S4096x60 .f32) (x7 : Vec F S21x80 .f32) (x8 : Vec F S1x20 .f32) :
    { L9 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__pose3d_loss_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__pose3d_loss_kernel_eq_skeleton]; unfold cc0__pose3d_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

abbrev ms0 (t : Fin cfg0.N) : Memref sig .tc .vmem S4096x63 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x63 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x63 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x42 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x9 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x3 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x60 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S21x80 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x20 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x128 .f32 := win0_9.stage (cfg0.slots t 9)
abbrev hs9 (t : Fin cfg0.N) : (ms9 t).IsWhole := hstage0_9 ((cfg0.slots t 9).cast nbuf0_9)

abbrev VO9 : View sig .tc .vmem S8x128 .f32 := (Memref.whole cc0_stg9_0 : Memref sig .tc .vmem S8x128 .f32).view

/-- The body's run at point t, its inputs holding their blocks. -/
abbrev runAt (c : Dev nD) (t : Fin cfg0.N) := bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (iblk m c 8 t)

/-- The run's one piece is a store over the whole 8×128 block, so the pieces cover it. -/
theorem cover9 (c : Dev nD) (t : Fin cfg0.N) (y : S8x128.Idx) : ∃ pc ∈ (runAt m c t).1, y ∈ pc.1.set :=
  View.cover_of_tiledL (runAt m c t).1 S8x128.size (by sl_kernel_rfl) y

/-- What the body leaves in the output block at point t: the run's pieces read back. -/
def out9 (c : Dev nD) (t : Fin cfg0.N) : Vec F S8x128 .f32 :=
  VO9.read (Elt F) (VO9.writes (Elt F) VO9.junk (runAt m c t).1)

/-- After the body at a point each input block is as it was found and the output block is out9. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ _ := Pipeline.ΦA spec0 c
  q _ := fullShare
  owed _ := 0

theorem A_eq (c : Dev nD) (w : Fin cfg0.W) : (dats m 0 c).A w = V m c (Pipeline.arrRef spec0 w) := rfl

theorem after9 (c : Dev nD) (t : Fin cfg0.N) : (dats m 0 c).after 9 t = out9 m c t := rfl

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  dsimp only [dats]
  unfold out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 m c t)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its eight arguments end as launched. -/
theorem frame : θ_run defs (onTc (τ := τ) (main (F := F))) ⟨m, fun _ => 0, ρ⟩ (fun r => ∀ c : Dev nD, KeptAt m r c) :=
  (θ_run defs _ _).mono (fun r h => kept_args m (dats m) r h) (run_main m ρ)

/-- The four partial sums after the sixteen trips at point t, from four zeros. -/
def accAt (c : Dev nD) (t : Fin cfg0.N) : Acc F :=
  st_k0_t1 (F := F) Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (Scalar.muli (BitVec.ofNat 32 ((grid0.coords t) 0).val) 4096#32)
    (View.readAt (Elt F) (ms8 t).view (Rect.unit (s := S1x20) ![0, 0] S1x20.size inb_S1x20_S1x20_0_0).toLoadRect ((hs8 t).unread (iblk m c 8 t)))
    (View.readAt (Elt F) (ms7 t).view (Rect.unit (s := S21x80) ![0, 0] S21x80.size inb_S21x80_S21x80_0_0).toLoadRect ((hs7 t).unread (iblk m c 7 t)))
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t))
    acc0 k0_t1_loop.trips

/-- The output block at point t is the final store's payload at those sums: the store covers the block. -/
theorem out9_eq (c : Dev nD) (t : Fin cfg0.N) :
    out9 m c t = k0_pay7 (accAt m c t).1 (accAt m c t).2.1 (accAt m c t).2.2.1 (accAt m c t).2.2.2 := by
  funext y
  unfold out9
  exact View.read_writes_cons_unit_of_mem VO9 _ inb_S8x128_S8x128_0_0 _ [] y y rfl
    (Fin.forall_fin_two.mpr ⟨(Nat.zero_add _).symm, (Nat.zero_add _).symm⟩)

end Cert.Kernel.Hand

end
-- ==== Proof.KDefs.lean ====
import proofs.«408326_j73830487818418_3_alg».proof.Proof.Gen.KernelIdeal.Launch
import proofs.«408326_j73830487818418_3_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]

variable (m : (ℓ : Loc nD τ sig) → Buf (Elt F) ℓ)

abbrev pre : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

abbrev V0 (c : Dev nD) : Valuation τ sig (Elt F) := StableHlo.after (List.flatten (pre (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KArray.lean ====
import proofs.«408326_j73830487818418_3_alg».proof.Proof.KDefs
import proofs.«408326_j73830487818418_3_alg».proof.Proof.Gen.KernelIdeal.Launch
import proofs.«408326_j73830487818418_3_alg».proof.Proof.Gen.KernelIdeal.Points
import Idealize.ShloMosaic.Lib.Pipeline.Value
import Idealize.ShloMosaic.Lib.Pipeline.FrameSuffix
import Idealize.ShloMosaic.Lib.ValueIdx
import Idealize.ShloMosaic.PureOps.Ideal.Laws
import Idealize.ShloMosaic.Lib.StableHlo.Run

noncomputable section

open scoped BigOperators

namespace Cert.KernelIdeal.Hand

open Idealize.ShloMosaic Idealize.ShloMosaic.TcCoe Idealize.ShloMosaic.ValueIdx
open Idealize.SL Idealize.SL.RA Idealize.SL.Sem
open Cert.KernelIdeal Cert.KernelIdeal.Gen
open Idealize.ShloMosaic.Pipeline (Dat)

variable (m : (ℓ : Loc nD τ sig) → Buf (Elt Ideal) ℓ)
variable {U' : Type} [URA U']
variable (dats : (p : Fin 1) → (c : Dev nD) → Dat τ (Elt Ideal) Unit ℕ U' ℕ (cfgs p) c)

theorem idx9 : ∀ t : Fin cfg0.N, win0_9.index t (0 : Fin 2) = t.val ∧ win0_9.index t (1 : Fin 2) = 0 :=
  (by decide +kernel : ∀ t : Fin grid0.N, _)

/-- The 256×128 array of partial sums: entry (8 t, 0) holds b t, every other entry is zero. -/
def sumsArr (b : Fin 32 → EReal) : Vec Ideal S256x128 .f32 :=
  fun i => if (i 0).val % 8 = 0 ∧ (i 1).val = 0 then b ⟨(i 0).val / 8 % 32, Nat.mod_lt _ (by decide)⟩ else 0

theorem flushed9_eq (c : Dev nD) (b : Fin 32 → EReal) (t : Fin cfg0.N) (o : Vec Ideal S8x128 .f32)
    (hafter : (dats 0 c).after 9 t = o)
    (h0 : o (ix2 0 0) = b ⟨t.val % 32, Nat.mod_lt _ (by decide)⟩) (hz : ∀ y : S8x128.Idx, y ≠ ix2 0 0 → o y = 0) :
    (dats 0 c).flushed 9 t = ((cfg0.win 9).blk t).view.read (Elt Ideal) (sumsArr b) := by
  show (cfg0.win 9).cut (grid0.coords t) ((dats 0 c).after 9 t) = _
  rw [hafter]
  funext y
  show o ((cfg0.win 9).xinj (grid0.coords t) y) = sumsArr b (((cfg0.win 9).blk t).view.emb y)
  obtain ⟨e0, e1⟩ := idx9 t
  have hy0 : (y 0).val < 8 := (y 0).isLt
  have hy1 : (y 1).val < 128 := (y 1).isLt
  have k0 : ((((cfg0.win 9).blk t).view.emb y) 0).val = t.val * 8 + (y 0).val := by
    show win0_9.index t (0 : Fin 2) * 8 + 1 * (y 0).val = _
    rw [e0]; omega
  have k1 : ((((cfg0.win 9).blk t).view.emb y) 1).val = (y 1).val := by
    show win0_9.index t (1 : Fin 2) * 128 + 1 * (y 1).val = _
    rw [e1]; omega
  unfold sumsArr
  by_cases hy : (y 0).val = 0 ∧ (y 1).val = 0
  · have hx : (cfg0.win 9).xinj (grid0.coords t) y = ix2 0 0 := by
      funext a; apply Fin.ext
      match a with
      | ⟨0, _⟩ => exact hy.1
      | ⟨1, _⟩ => exact hy.2
    rw [hx, h0, if_pos ⟨by rw [k0]; omega, by rw [k1]; exact hy.2⟩]
    congr 1; apply Fin.ext
    show t.val % 32 = _ / 8 % 32
    rw [k0]; omega
  · have hx : (cfg0.win 9).xinj (grid0.coords t) y ≠ ix2 0 0 := fun e =>
      hy ⟨congrArg (fun f : S8x128.Idx => (f 0).val) e, congrArg (fun f : S8x128.Idx => (f 1).val) e⟩
    rw [hz _ hx, if_neg]
    rintro ⟨a, b'⟩
    rw [k0] at a; rw [k1] at b'
    exact hy ⟨by omega, b'⟩

theorem mem_blk9 (t : Fin cfg0.N) (i : S256x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v30).slice (win0_9.rect t)).set ↔ _
  rw [View.set_slice_whole, Rect.mem_set_unit]
  exact Iff.rfl

theorem arr_cover9 (i : S256x128.Idx) : ∃ t : Fin cfg0.N, (cfg0.win 9).flush t = true ∧ i ∈ ((cfg0.win 9).blk t).view.set := by
  have hi0 : (i 0).val < 256 := (i 0).isLt
  have hi1 : (i 1).val < 128 := (i 1).isLt
  have hN : cfg0.N = 32 := N_0
  have ht : (i 0).val / 8 < cfg0.N := by rw [hN]; omega
  refine ⟨⟨(i 0).val / 8, ht⟩, flush0_9 _, ?_⟩
  rw [mem_blk9]
  obtain ⟨e0, e1⟩ := idx9 ⟨(i 0).val / 8, ht⟩
  intro a
  match a with
  | ⟨0, _⟩ =>
    show win0_9.index ⟨(i 0).val / 8, ht⟩ (0 : Fin 2) * 8 ≤ (i 0).val ∧ (i 0).val < win0_9.index ⟨(i 0).val / 8, ht⟩ (0 : Fin 2) * 8 + 8
    rw [e0]; show (i 0).val / 8 * 8 ≤ (i 0).val ∧ (i 0).val < (i 0).val / 8 * 8 + 8
    omega
  | ⟨1, _⟩ =>
    show win0_9.index ⟨(i 0).val / 8, ht⟩ (1 : Fin 2) * 128 ≤ (i 1).val ∧ (i 1).val < win0_9.index ⟨(i 0).val / 8, ht⟩ (1 : Fin 2) * 128 + 128
    rw [e1]; omega

theorem final9 (c : Dev nD) (b : Fin 32 → EReal) (o : Fin cfg0.N → Vec Ideal S8x128 .f32)
    (hafter : ∀ t, (dats 0 c).after 9 t = o t)
    (h0 : ∀ t : Fin cfg0.N, o t (ix2 0 0) = b ⟨t.val % 32, Nat.mod_lt _ (by decide)⟩)
    (hz : ∀ (t : Fin cfg0.N) (y : S8x128.Idx), y ≠ ix2 0 0 → o t y = 0) :
    (dats 0 c).arrAt 9 cfg0.N = sumsArr b :=
  (dats 0 c).arrAt_eq_of_cover 9 (sumsArr b) (fun t _ => flushed9_eq dats c b t (o t) (hafter t) (h0 t) (hz t)) arr_cover9

/-- Only the entries (8 t, 0) are non-zero, so the array's total is the sum of the b t. -/
theorem sum_sumsArr (b : Fin 32 → EReal) : ∑ i : S256x128.Idx, sumsArr b i = ∑ t : Fin 32, b t := by
  rw [sum_idx2]
  have inner : ∀ a : Fin 256, ∑ q : Fin 128, sumsArr b (ix2 a q)
      = if a.val % 8 = 0 then b ⟨a.val / 8 % 32, Nat.mod_lt _ (by decide)⟩ else 0 := by
    intro a
    rw [Finset.sum_eq_single_of_mem (0 : Fin 128) (Finset.mem_univ _)]
    · show (if a.val % 8 = 0 ∧ (0 : Fin 128).val = 0 then _ else 0) = _
      by_cases h : a.val % 8 = 0
      · rw [if_pos ⟨h, rfl⟩, if_pos h]
      · rw [if_neg (fun hh => h hh.1), if_neg h]
    · intro q _ hq
      show (if a.val % 8 = 0 ∧ q.val = 0 then _ else 0) = 0
      rw [if_neg]; rintro ⟨_, h⟩; exact hq (Fin.ext h)
  rw [Finset.sum_congr rfl fun a _ => inner a]
  rw [← Finset.sum_fiberwise Finset.univ (fun a : Fin 256 => (⟨a.val / 8, by have := a.isLt; omega⟩ : Fin 32))]
  refine Finset.sum_congr rfl fun t _ => ?_
  have ht : t.val < 32 := t.isLt
  rw [Finset.sum_eq_single_of_mem (⟨8 * t.val, by omega⟩ : Fin 256)]
  · rw [if_pos (show 8 * t.val % 8 = 0 by omega)]
    congr 1; apply Fin.ext
    show 8 * t.val / 8 % 32 = t.val
    omega
  · rw [Finset.mem_filter]
    refine ⟨Finset.mem_univ _, Fin.ext ?_⟩
    show 8 * t.val / 8 = t.val
    omega
  · intro a ha hne
    rw [Finset.mem_filter] at ha
    have h8 : a.val / 8 = t.val := congrArg Fin.val ha.2
    rw [if_neg]
    intro hm
    exact hne (Fin.ext (show a.val = 8 * t.val by omega))

theorem tail9 (c : Dev nD) (b : Fin 32 → EReal) (hfinal : (dats 0 c).arrAt 9 cfg0.N = sumsArr b) :
    Pipeline.afterTail₀ cfgs dats 0 (V0 m) [hostOps1] c main_v31 = fun _ => ∑ t : Fin 32, b t := by
  unfold Pipeline.afterTail₀
  show StableHlo.after hostOps1 _ (Proc.devRef .tc main_v31) = _
  after_results
  have harr : Pipeline.withArrays (cfgs 0).spec c (V0 m c) (fun w => (dats 0 c).arrAt w (cfgs 0).N) (Proc.devRef .tc main_v30) = sumsArr b :=
    (Pipeline.withArrays_arr spec0 launch0.win.arr_inj c _ _ 9).trans hfinal
  rw [harr]
  funext j
  show Ideal.hostReduceAdd reducesTo_S256x128_S_d0_1 (sumsArr b) (Ideal.ofBits .f32 0x00000000#32) j = _
  rw [Ideal.hostReduceAdd_total _ (fun a => a.elim0), Ideal.ofBits_zero_f32, zero_add, sum_sumsArr]

theorem v31_rest : main_v31 ∈ Pipeline.restRefs sig spec0 :=
  Pipeline.mem_restRefs_of main_v31 rfl (by decide)

theorem result_of_post (B : Dev nD → Fin 32 → EReal) (out9 : Dev nD → Fin cfg0.N → Vec Ideal S8x128 .f32)
    (hafter : ∀ c t, (dats 0 c).after 9 t = out9 c t)
    (h0 : ∀ c (t : Fin cfg0.N), out9 c t (ix2 0 0) = B c (Fin.cast N_0 t))
    (hz : ∀ c (t : Fin cfg0.N) (y : S8x128.Idx), y ≠ ix2 0 0 → out9 c t y = 0)
    (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_v31) = fun _ => ∑ t : Fin 32, B c t :=
  ((h c).2 main_v31 v31_rest).trans
    (tail9 m dats c (B c) (final9 dats c (B c) (out9 c) (hafter c)
      (fun t => (h0 c t).trans (congrArg (B c) (Fin.ext (Nat.mod_eq_of_lt (Fin.cast N_0 t).isLt).symm)))
      (hz c)))

theorem result_of_post_ite [inst : ∀ y : S8x128.Idx, Decidable (y = ix2 0 0)]
    (B : Dev nD → Fin 32 → EReal) (out9 : Dev nD → Fin cfg0.N → Vec Ideal S8x128 .f32)
    (hafter : ∀ c t, (dats 0 c).after 9 t = out9 c t)
    (hB : ∀ c (t : Fin cfg0.N), out9 c t = fun y => if y = ix2 0 0 then B c (Fin.cast N_0 t) else 0)
    (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_v31) = fun _ => ∑ t : Fin 32, B c t :=
  result_of_post m dats B out9 hafter
    (fun c t => by rw [hB c t]; exact if_pos rfl)
    (fun c t y hy => by rw [hB c t]; exact if_neg hy) r h c

end Cert.KernelIdeal.Hand
end
-- ==== Proof.KTrip.lean ====
import proofs.«408326_j73830487818418_3_alg».proof.Proof.Gen.KernelIdeal.Skeleton

noncomputable section

namespace Cert.KernelIdeal.Hand

open Idealize.ShloMosaic
open Cert.KernelIdeal Cert.KernelIdeal.Gen

variable {F : FTy → Type} [FloatOps F] [Named F]

abbrev Acc (F : FTy → Type) [FloatOps F] : Type := FVec F S1x1 .f32 × FVec F S1x1 .f32 × FVec F S1x1 .f32 × FVec F S1x1 .f32

def tripF (v0 : BitVec 32) (BL : Vec F S1x20 .f32) (OH : Vec F S21x80 .f32) (k : Fin k0_t1_loop.trips)
    (v34 v37 v40 : Vec F S256x63 .f32) (v43 : Vec F S256x42 .f32) (v46 : Vec F S256x9 .f32)
    (v49 : Vec F S256x3 .f32) (v52 : Vec F S256x60 .f32) (acc : Acc F) : Acc F :=
  (k0_pay3 acc.1 (k0_pay29 (k0_pay11 v43) (k0_pay12 v46) (k0_pay15 (F := F) v0 0#32 1#32 k)
      (k0_pay19 v34 v49) (k0_pay20 v34 v49) (k0_pay21 v34 v49)
      (k0_pay22 v46) (k0_pay23 v46) (k0_pay24 v46) (k0_pay25 v46) (k0_pay26 v46) (k0_pay27 v46) (k0_pay28 v46)),
   k0_pay4 acc.2.1 (k0_pay36 (k0_pay1 OH) (k0_pay14 v52) (k0_pay15 (F := F) v0 0#32 1#32 k) (k0_pay16 v34) (k0_pay17 v34) (k0_pay18 v34)),
   k0_pay5 BL acc.2.2.1 (k0_pay31 (k0_pay1 OH) (k0_pay16 v34)) (k0_pay33 (k0_pay1 OH) (k0_pay17 v34)) (k0_pay35 (k0_pay1 OH) (k0_pay18 v34)),
   k0_pay6 acc.2.2.2 (k0_pay8 v34) (k0_pay9 v37) (k0_pay10 v40))

def acc0 : Acc F := (k0_pay2 (F := F), k0_pay2 (F := F), k0_pay2 (F := F), k0_pay2 (F := F))

end Cert.KernelIdeal.Hand

end
-- ==== Proof.KFrame.lean ====
import proofs.«408326_j73830487818418_3_alg».proof.Proof.KDefs
import proofs.«408326_j73830487818418_3_alg».proof.Proof.KTrip
import proofs.«408326_j73830487818418_3_alg».proof.Proof.LibWrites
import proofs.«408326_j73830487818418_3_alg».proof.Proof.Gen.KernelIdeal.Loops
import proofs.«408326_j73830487818418_3_alg».proof.Proof.Gen.KernelIdeal.Launch
import proofs.«408326_j73830487818418_3_alg».proof.Proof.Gen.KernelIdeal.Points
import Idealize.ShloMosaic.Lib.Pipeline.FrameSuffix
import Idealize.ShloMosaic.Lib.Pipeline.FrameBody
import Idealize.ShloMosaic.Lib.Tactic
import Idealize.ShloMosaic.Lib.Exec
import Idealize.ShloMosaic.Lib.Ring
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program is thirteen stretches of host operations, the region, and the closing sum of the output array. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; repeat' constructor) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl <;> rfl

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

abbrev Wpre : List (Ref sig .tc) :=
  [main_v0, main_v1, main_call0_v0, main_call0_v1, main_v2, main_v3, main_v4, main_call1_v0, main_call1_v1, main_v5, main_v6, main_v7,
   main_v8, main_v9, main_v10, main_v11, main_v12, main_v13, main_call2_v0, main_call2_v1, main_call2_v2, main_call2_v3, main_call2_v4, main_v14,
   main_v15, main_v16, main_v17, main_call3_v0, main_call3_v1, main_call3_v2, main_call3_v3, main_call3_v4, main_v18, main_v19, main_v20, main_v21,
   main_call4_v0, main_call4_v1, main_call4_v2, main_call4_v3, main_call4_v4, main_v22, main_v23, main_v24, main_v25,
   main_call5_v0, main_call5_v1, main_call5_v2, main_call5_v3, main_call5_v4, main_v26, main_v27, main_v28, main_v29]

theorem pre_writes : (List.flatten (pre (F := F))).Forall fun op =>
    op.writes ⊆ (Wpre.map (Proc.devRef (τ := τ) .tc)).toFinset := by
  repeat' apply And.intro
  all_goals exact wr (by decide)

/-- A buffer no host stretch before the region writes is found by the region as launched. -/
theorem V_arg (c : Dev nD) {b : Ref sig .tc} (hb : b ∉ Wpre) : V m c b = m ((c : Thread nD τ).loc b) :=
  StableHlo.after_of_writes_sub _ _ pre_writes hb

/-- A buffer outside the region that no host operation writes ends as launched. -/
theorem kept (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD)
    (b : Ref sig .tc) (hs : b.isScoped = false) (ha : ∀ w, Pipeline.arrRef spec0 w ≠ b)
    (h1 : b ≠ main_cst) (h2 : b ≠ main_v31) (hb : b ∉ Wpre) :
    r.2.mem ((c.tc : Thread nD τ).loc b) = m ((c.tc : Thread nD τ).loc b) := by
  refine ((h c).2 b (Pipeline.mem_restRefs_of b hs ha)).trans ?_
  unfold Pipeline.afterTail₀
  show StableHlo.after hostOps1 _ (Proc.devRef .tc b) = _
  simp only [StableHlo.after_cons, StableHlo.after_nil]
  rw [StableHlo.binary_result_ne (h := h2), StableHlo.nullary_result_ne (h := h1)]
  exact (Pipeline.withArrays_of_ne spec0 c _ _ b ha).trans (V_arg m c hb)

/-- The eight arguments hold in the state `r` what they held at launch. -/
abbrev KeptAt (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_args (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) : KeptAt m r c := by
  refine ⟨?_, ?_, ?_, ?_, ?_, ?_, ?_, ?_⟩ <;>
    exact kept m dats r h c _ rfl (by decide) (by decide) (by decide) (by decide)

set_option maxHeartbeats 4000000 in

/-- What the body's one store leaves in the output block, as a list of pieces, with the body's run: it only loads its nine inputs. -/
noncomputable def bodyRun (c : Dev nD) (i : grid0.Coords) (arg1 : Memref sig .tc .vmem S4096x63 .f32) (harg1 : arg1.IsWhole) (arg2 : Memref sig .tc .vmem S4096x63 .f32) (harg2 : arg2.IsWhole) (arg3 : Memref sig .tc .vmem S4096x63 .f32) (harg3 : arg3.IsWhole) (arg4 : Memref sig .tc .vmem S4096x42 .f32) (harg4 : arg4.IsWhole) (arg5 : Memref sig .tc .vmem S4096x9 .f32) (harg5 : arg5.IsWhole) (arg6 : Memref sig .tc .vmem S4096x3 .f32) (harg6 : arg6.IsWhole) (arg7 : Memref sig .tc .vmem S4096x60 .f32) (harg7 : arg7.IsWhole) (arg8 : Memref sig .tc .vmem S21x80 .f32) (harg8 : arg8.IsWhole) (arg9 : Memref sig .tc .vmem S1x20 .f32) (harg9 : arg9.IsWhole) (arg10 : Memref sig .tc .vmem S8x128 .f32) (harg10 : arg10.IsWhole)
    (x0 : Vec F S4096x63 .f32) (x1 : Vec F S4096x63 .f32) (x2 : Vec F S4096x63 .f32) (x3 : Vec F S4096x42 .f32) (x4 : Vec F S4096x9 .f32) (x5 : Vec F S4096x3 .f32) (x6 : Vec F S4096x60 .f32) (x7 : Vec F S21x80 .f32) (x8 : Vec F S1x20 .f32) :
    { L9 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__pose3d_loss_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__pose3d_loss_kernel_eq_skeleton]; unfold cc0__pose3d_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

abbrev ms0 (t : Fin cfg0.N) : Memref sig .tc .vmem S4096x63 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x63 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x63 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x42 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x9 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x3 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x60 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S21x80 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x20 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x128 .f32 := win0_9.stage (cfg0.slots t 9)
abbrev hs9 (t : Fin cfg0.N) : (ms9 t).IsWhole := hstage0_9 ((cfg0.slots t 9).cast nbuf0_9)

abbrev VO9 : View sig .tc .vmem S8x128 .f32 := (Memref.whole cc0_stg9_0 : Memref sig .tc .vmem S8x128 .f32).view

/-- The body's run at point t, its inputs holding their blocks. -/
abbrev runAt (c : Dev nD) (t : Fin cfg0.N) := bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (iblk m c 8 t)

/-- The run's one piece is a store over the whole 8×128 block, so the pieces cover it. -/
theorem cover9 (c : Dev nD) (t : Fin cfg0.N) (y : S8x128.Idx) : ∃ pc ∈ (runAt m c t).1, y ∈ pc.1.set :=
  View.cover_of_tiledL (runAt m c t).1 S8x128.size (by sl_kernel_rfl) y

/-- What the body leaves in the output block at point t: the run's pieces read back. -/
def out9 (c : Dev nD) (t : Fin cfg0.N) : Vec F S8x128 .f32 :=
  VO9.read (Elt F) (VO9.writes (Elt F) VO9.junk (runAt m c t).1)

/-- After the body at a point each input block is as it was found and the output block is out9. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
  Φ _ := Pipeline.ΦA spec0 c
  q _ := fullShare
  owed _ := 0

theorem A_eq (c : Dev nD) (w : Fin cfg0.W) : (dats m 0 c).A w = V m c (Pipeline.arrRef spec0 w) := rfl

theorem after9 (c : Dev nD) (t : Fin cfg0.N) : (dats m 0 c).after 9 t = out9 m c t := rfl

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  dsimp only [dats]
  unfold out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 m c t)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its eight arguments end as launched. -/
theorem frame : θ_run defs (onTc (τ := τ) (main (F := F))) ⟨m, fun _ => 0, ρ⟩ (fun r => ∀ c : Dev nD, KeptAt m r c) :=
  (θ_run defs _ _).mono (fun r h => kept_args m (dats m) r h) (run_main m ρ)

/-- The four partial sums after the sixteen trips at point t, from four zeros. -/
def accAt (c : Dev nD) (t : Fin cfg0.N) : Acc F :=
  st_k0_t1 (F := F) Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (Scalar.muli (BitVec.ofNat 32 ((grid0.coords t) 0).val) 4096#32)
    (View.readAt (Elt F) (ms8 t).view (Rect.unit (s := S1x20) ![0, 0] S1x20.size inb_S1x20_S1x20_0_0).toLoadRect ((hs8 t).unread (iblk m c 8 t)))
    (View.readAt (Elt F) (ms7 t).view (Rect.unit (s := S21x80) ![0, 0] S21x80.size inb_S21x80_S21x80_0_0).toLoadRect ((hs7 t).unread (iblk m c 7 t)))
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t))
    acc0 k0_t1_loop.trips

/-- The output block at point t is the final store's payload at those sums: the store covers the block. -/
theorem out9_eq (c : Dev nD) (t : Fin cfg0.N) :
    out9 m c t = k0_pay7 (accAt m c t).1 (accAt m c t).2.1 (accAt m c t).2.2.1 (accAt m c t).2.2.2 := by
  funext y
  unfold out9
  exact View.read_writes_cons_unit_of_mem VO9 _ inb_S8x128_S8x128_0_0 _ [] y y rfl
    (Fin.forall_fin_two.mpr ⟨(Nat.zero_add _).symm, (Nat.zero_add _).symm⟩)

end Cert.KernelIdeal.Hand

end
-- ==== Proof.Spec.lean ====
import Idealize.ShloMosaic.PureOps.Ideal

noncomputable section

namespace Cert.Spec

open Idealize.ShloMosaic

structure Args where
  pose : Fin 131073 → Fin 3 → Fin 21 → EReal
  b2d : Fin 131072 → Fin 2 → Fin 21 → EReal
  rot : Fin 131072 → Fin 3 → Fin 3 → EReal
  cam : Fin 131072 → Fin 3 → EReal
  lift : Fin 131072 → Fin 3 → Fin 20 → EReal
  blen : Fin 20 → EReal
  b0 : Fin 20 → Fin 21
  b1 : Fin 20 → Fin 21
  l0 : Fin 20 → Fin 21
  l1 : Fin 20 → Fin 21

abbrev c512 : EReal := Ideal.ofBits .f32 0x44000000#32
abbrev cEps : EReal := Ideal.ofBits .f32 0x2EDBE6FF#32
abbrev c2 : EReal := Ideal.ofBits .f32 0x40000000#32
abbrev c03 : EReal := Ideal.ofBits .f32 0x3E99999A#32
abbrev c05 : EReal := Ideal.ofBits .f32 0x3F000000#32
abbrev c02 : EReal := Ideal.ofBits .f32 0x3E4CCCCD#32
abbrev c01 : EReal := Ideal.ofBits .f32 0x3DCCCCCD#32
abbrev c42 : EReal := Ideal.ofBits .f32 0x42280000#32
abbrev c60 : EReal := Ideal.ofBits .f32 0x42700000#32
abbrev c63 : EReal := Ideal.ofBits .f32 0x427C0000#32
abbrev c20 : EReal := Ideal.ofBits .f32 0x41A00000#32
abbrev i42 : EReal := ((1 / 42 : ℝ) : EReal)
abbrev i60 : EReal := ((1 / 60 : ℝ) : EReal)
abbrev i63 : EReal := ((1 / 63 : ℝ) : EReal)
abbrev i20 : EReal := ((1 / 20 : ℝ) : EReal)

def sq (x : EReal) : EReal := x * x

def row (f : Fin 131072) : Fin 131073 := ⟨f.val, by omega⟩
def prev1 (f : Fin 131072) : Fin 131073 := ⟨(f.val + 131072) % 131073, Nat.mod_lt _ (by decide)⟩
def prev2 (f : Fin 131072) : Fin 131073 := ⟨(f.val + 131071) % 131073, Nat.mod_lt _ (by decide)⟩

def mask (f : Fin 131072) : EReal := if f.val = 0 then 0 else 1

variable (a : Args)

def pd (f : Fin 131072) (c : Fin 3) (j : Fin 21) : EReal := a.pose (row f) c j - a.cam f c

def pcam (f : Fin 131072) (i : Fin 3) (j : Fin 21) : EReal := ∑ jj : Fin 3, a.rot f jj i * pd a f jj j
def px (f : Fin 131072) (j : Fin 21) : EReal := Ideal.div (c512 * pcam a f 0 j) (pcam a f 2 j) + c512
def py (f : Fin 131072) (j : Fin 21) : EReal := Ideal.div (c512 * pcam a f 1 j) (pcam a f 2 j) + c512
def projF (f : Fin 131072) : EReal :=
  (∑ j : Fin 21, sq (px a f j - a.b2d f 0 j)) + ∑ j : Fin 21, sq (py a f j - a.b2d f 1 j)

def bv (f : Fin 131072) (c : Fin 3) (l : Fin 20) : EReal := a.pose (row f) c (a.l0 l) - a.pose (row f) c (a.l1 l)
def nrm (f : Fin 131072) (l : Fin 20) : EReal := Ideal.sqrt (∑ c : Fin 3, sq (bv a f c l)) + cEps
def liftF (f : Fin 131072) : EReal :=
  ∑ c : Fin 3, ∑ l : Fin 20, sq (a.lift f c l - Ideal.div (bv a f c l) (nrm a f l))

def dd (f : Fin 131072) (c : Fin 3) (l : Fin 20) : EReal := a.pose (row f) c (a.b0 l) - a.pose (row f) c (a.b1 l)
def boneF (f : Fin 131072) : EReal := ∑ l : Fin 20, sq (a.blen l - ∑ c : Fin 3, sq (dd a f c l))

def smoothF (f : Fin 131072) : EReal :=
  ∑ c : Fin 3, ∑ j : Fin 21,
    sq ((a.pose (row f) c j - a.pose (prev1 f) c j) - (a.pose (prev1 f) c j - a.pose (prev2 f) c j))

def RLoss : EReal :=
  ((c03 * (∑ f : Fin 131072, Ideal.div (projF a f) c42 * mask f)
      + c05 * ∑ f : Fin 131072, Ideal.div (smoothF a f) c63)
    + c02 * ∑ f : Fin 131072, Ideal.div (boneF a f) c20)
  + c01 * ∑ f : Fin 131072, Ideal.div (liftF a f) c60 * mask f

def kpcam (f : Fin 131072) (i : Fin 3) (j : Fin 21) : EReal :=
  (a.rot f 0 i * pd a f 0 j + a.rot f 1 i * pd a f 1 j) + a.rot f 2 i * pd a f 2 j
def kpx (f : Fin 131072) (j : Fin 21) : EReal := Ideal.div (c512 * kpcam a f 0 j) (kpcam a f 2 j) + c512
def kpy (f : Fin 131072) (j : Fin 21) : EReal := Ideal.div (c512 * kpcam a f 1 j) (kpcam a f 2 j) + c512
def kprojF (f : Fin 131072) : EReal :=
  (∑ j : Fin 21, sq (kpx a f j - a.b2d f 0 j)) + ∑ j : Fin 21, sq (kpy a f j - a.b2d f 1 j)

def knrm (f : Fin 131072) (l : Fin 20) : EReal :=
  Ideal.sqrt ((sq (bv a f 0 l) + sq (bv a f 1 l)) + sq (bv a f 2 l)) + cEps
def kliftF (f : Fin 131072) : EReal :=
  ∑ l : Fin 20, (((0 + sq (a.lift f 0 l - Ideal.div (bv a f 0 l) (knrm a f l)))
      + sq (a.lift f 1 l - Ideal.div (bv a f 1 l) (knrm a f l)))
    + sq (a.lift f 2 l - Ideal.div (bv a f 2 l) (knrm a f l)))

def kboneF (f : Fin 131072) : EReal :=
  ∑ l : Fin 20, sq (a.blen l - ((sq (dd a f 0 l) + sq (dd a f 1 l)) + sq (dd a f 2 l)))

def ksmoothF (f : Fin 131072) : EReal :=
  ∑ c : Fin 3, ∑ j : Fin 21, sq ((a.pose (row f) c j - c2 * a.pose (prev1 f) c j) + a.pose (prev2 f) c j)

def fr (t : Fin 32) (k : Fin 16) (r : Fin 256) : Fin 131072 := ⟨4096 * t.val + 256 * k.val + r.val, by omega⟩

def KBlock (t : Fin 32) : EReal :=
  ((c03 * (∑ k : Fin 16, ∑ r : Fin 256, kprojF a (fr t k r) * (i42 * mask (fr t k r)))
      + c05 * ∑ k : Fin 16, ∑ r : Fin 256, ksmoothF a (fr t k r) * i63)
    + c02 * ∑ k : Fin 16, ∑ r : Fin 256, kboneF a (fr t k r) * i20)
  + c01 * ∑ k : Fin 16, ∑ r : Fin 256, kliftF a (fr t k r) * (i60 * mask (fr t k r))

def KLoss : EReal := ∑ t : Fin 32, KBlock a t

end Cert.Spec

end
-- ==== Proof.ArgsOf.lean ====
import proofs.«408326_j73830487818418_3_alg».proof.Proof.Spec
import Idealize.ShloMosaic.Lib.ValueIdx

noncomputable section

namespace Cert.Spec

open Idealize.ShloMosaic Idealize.ShloMosaic.ValueIdx

abbrev T0 : Shape := ⟨3, ![131073, 3, 21]⟩
abbrev T1 : Shape := ⟨3, ![131072, 2, 21]⟩
abbrev T2 : Shape := ⟨3, ![131072, 3, 3]⟩
abbrev T3 : Shape := ⟨3, ![131072, 3, 1]⟩
abbrev T4 : Shape := ⟨3, ![131072, 3, 20]⟩
abbrev T5 : Shape := ⟨1, ![20]⟩
abbrev T6 : Shape := ⟨2, ![20, 2]⟩

def jointOf (w : BitVec 32) : Fin 21 := ⟨w.toNat % 21, Nat.mod_lt _ (by decide)⟩

def argsOf (x0 : T0.Idx → EReal) (x1 : T1.Idx → EReal) (x2 : T2.Idx → EReal) (x3 : T3.Idx → EReal)
    (x4 : T4.Idx → EReal) (x5 : T5.Idx → EReal) (x6 x7 : T6.Idx → BitVec 32) : Args where
  pose f c j := x0 (ix3 f c j)
  b2d f c j := x1 (ix3 f c j)
  rot f i j := x2 (ix3 f i j)
  cam f c := x3 (ix3 f c 0)
  lift f c l := x4 (ix3 f c l)
  blen l := x5 (ix1 l)
  b0 l := jointOf (x6 (ix2 l 0))
  b1 l := jointOf (x6 (ix2 l 1))
  l0 l := jointOf (x7 (ix2 l 0))
  l1 l := jointOf (x7 (ix2 l 1))

def AllReal {S : Shape} (x : S.Idx → EReal) : Prop := ∀ i, ∃ r : ℝ, x i = (r : EReal)

def InRange (x : T6.Idx → BitVec 32) : Prop := ∀ i, 0 ≤ (x i).toInt ∧ (x i).toInt < 21

structure Args.Real (a : Args) : Prop where
  pose : ∀ f c j, ∃ r : ℝ, a.pose f c j = (r : EReal)
  b2d : ∀ f c j, ∃ r : ℝ, a.b2d f c j = (r : EReal)
  rot : ∀ f i j, ∃ r : ℝ, a.rot f i j = (r : EReal)
  cam : ∀ f c, ∃ r : ℝ, a.cam f c = (r : EReal)
  lift : ∀ f c l, ∃ r : ℝ, a.lift f c l = (r : EReal)
  blen : ∀ l, ∃ r : ℝ, a.blen l = (r : EReal)

end Cert.Spec

end
-- ==== Proof.KTies.lean ====
import proofs.«408326_j73830487818418_3_alg».proof.KernelIdeal
import proofs.«408326_j73830487818418_3_alg».proof.Proof.ArgsOf

noncomputable section

namespace Cert.KernelIdeal.Hand

open Idealize.ShloMosaic Idealize.ShloMosaic.ValueIdx
open Cert.KernelIdeal Cert.Spec

def q63 (c : Fin 3) (j : Fin 21) : Fin 63 := ⟨21 * c.val + j.val, by omega⟩
def q42 (c : Fin 2) (j : Fin 21) : Fin 42 := ⟨21 * c.val + j.val, by omega⟩
def q9 (i j : Fin 3) : Fin 9 := ⟨3 * i.val + j.val, by omega⟩
def q60 (c : Fin 3) (l : Fin 20) : Fin 60 := ⟨20 * c.val + l.val, by omega⟩
def q80 (s : Fin 4) (l : Fin 20) : Fin 80 := ⟨20 * s.val + l.val, by omega⟩

def endOf (a : Args) (s : Fin 4) (l : Fin 20) : Fin 21 :=
  if s.val = 0 then a.b0 l else if s.val = 1 then a.b1 l else if s.val = 2 then a.l0 l else a.l1 l

structure ChunkTies (a : Args) (t : Fin 32) (k : Fin 16)
    (P P1 P2 : Vec Ideal S256x63 .f32) (B : Vec Ideal S256x42 .f32) (R : Vec Ideal S256x9 .f32)
    (C : Vec Ideal S256x3 .f32) (L : Vec Ideal S256x60 .f32) : Prop where
  hP : ∀ (r : Fin 256) (c : Fin 3) (j : Fin 21), P (ix2 r (q63 c j)) = a.pose (row (fr t k r)) c j
  hP1 : ∀ (r : Fin 256) (c : Fin 3) (j : Fin 21), P1 (ix2 r (q63 c j)) = a.pose (prev1 (fr t k r)) c j
  hP2 : ∀ (r : Fin 256) (c : Fin 3) (j : Fin 21), P2 (ix2 r (q63 c j)) = a.pose (prev2 (fr t k r)) c j
  hB : ∀ (r : Fin 256) (c : Fin 2) (j : Fin 21), B (ix2 r (q42 c j)) = a.b2d (fr t k r) c j
  hR : ∀ (r : Fin 256) (i j : Fin 3), R (ix2 r (q9 i j)) = a.rot (fr t k r) i j
  hC : ∀ (r : Fin 256) (c : Fin 3), C (ix2 r c) = a.cam (fr t k r) c
  hL : ∀ (r : Fin 256) (c : Fin 3) (l : Fin 20), L (ix2 r (q60 c l)) = a.lift (fr t k r) c l

structure TableTies (a : Args) (OH : Vec Ideal S21x80 .f32) (BL : Vec Ideal S1x20 .f32) : Prop where
  hOH : ∀ (j : Fin 21) (s : Fin 4) (l : Fin 20), OH (ix2 j (q80 s l)) = if endOf a s l = j then (1 : EReal) else 0
  hBL : ∀ l : Fin 20, BL (ix2 0 l) = a.blen l

end Cert.KernelIdeal.Hand

end
-- ==== Proof.KPrelude.lean ====
import proofs.«408326_j73830487818418_3_alg».proof.Proof.KDefs
import proofs.«408326_j73830487818418_3_alg».proof.Proof.KTies
import proofs.«408326_j73830487818418_3_alg».proof.Proof.ArgsOf
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ) (c : Dev nD)

section Layout
variable {α : Type}

theorem slice3_axis0_apply {n0 n1 n2 k0 : Nat} (o : Nat) (X : (⟨3, ![n0, n1, n2]⟩ : Shape).Idx → α)
    (h : (⟨3, ![n0, n1, n2]⟩ : Shape).Slices ![o, 0, 0] ⟨3, ![k0, n1, n2]⟩)
    (j : Fin k0) (a : Fin n1) (e : Fin n2) (k : Fin n0) (hk : k.val = o + j.val) :
    extractStridedSlice ⟨3, ![k0, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

theorem shapeCast_nab_nq_apply {n a b ab : Nat} (x : (⟨3, ![n, a, b]⟩ : Shape).Idx → α)
    (h : (⟨3, ![n, a, b]⟩ : Shape).ShapeCasts ⟨2, ![n, ab]⟩) (hab : ab = a * b)
    (f : Fin n) (i : Fin a) (j : Fin b) (q : Fin ab) (hq : q.val = b * i.val + j.val) :
    shapeCast ⟨2, ![n, ab]⟩ x h (ix2 f q) = x (ix3 f i j) :=
  shapeCast_apply x h _ _ (by
    rw [Shape.rowMajor_val_three, Shape.rowMajor_val_two]
    show (f.val * a + i.val) * b + j.val = f.val * ab + q.val
    rw [hq, hab, Nat.add_mul, Nat.mul_assoc, Nat.add_assoc, Nat.mul_comm i.val b])

end Layout

section Layout2
variable {α : Type}

theorem concat3_axis0_left {p r n n1 n2 : Nat} (x₁ : (⟨3, ![p, n1, n2]⟩ : Shape).Idx → α) (x₂ : (⟨3, ![r, n1, n2]⟩ : Shape).Idx → α)
    (h : Shape.Concatenates [(⟨3, ![p, n1, n2]⟩ : Shape), ⟨3, ![r, n1, n2]⟩] ⟨3, ![n, n1, n2]⟩ 0)
    (k : Fin n) (a : Fin n1) (e : Fin n2) (k' : Fin p) (hk : k'.val = k.val) :
    concatenate ⟨3, ![n, n1, n2]⟩ 0 [⟨⟨3, ![p, n1, n2]⟩, x₁⟩, ⟨⟨3, ![r, n1, n2]⟩, x₂⟩] h (ix3 k a e) = x₁ (ix3 k' a e) :=
  concatenate_pair_apply_left (t := ⟨3, ![n, n1, n2]⟩) (s₁ := ⟨3, ![p, n1, n2]⟩) (s₂ := ⟨3, ![r, n1, n2]⟩) (0 : Fin 3) x₁ x₂ h
    (ix3 k a e) rfl (ix3 k' a e) (fun b => by
      match b with
      | ⟨0, _⟩ => exact hk
      | ⟨1, _⟩ => rfl
      | ⟨2, _⟩ => rfl)

theorem concat3_axis0_right {p r n n1 n2 : Nat} (x₁ : (⟨3, ![p, n1, n2]⟩ : Shape).Idx → α) (x₂ : (⟨3, ![r, n1, n2]⟩ : Shape).Idx → α)
    (h : Shape.Concatenates [(⟨3, ![p, n1, n2]⟩ : Shape), ⟨3, ![r, n1, n2]⟩] ⟨3, ![n, n1, n2]⟩ 0)
    (k : Fin n) (a : Fin n1) (e : Fin n2) (k' : Fin r) (hk : k'.val + p = k.val) :
    concatenate ⟨3, ![n, n1, n2]⟩ 0 [⟨⟨3, ![p, n1, n2]⟩, x₁⟩, ⟨⟨3, ![r, n1, n2]⟩, x₂⟩] h (ix3 k a e) = x₂ (ix3 k' a e) :=
  concatenate_pair_apply_right (t := ⟨3, ![n, n1, n2]⟩) (s₁ := ⟨3, ![p, n1, n2]⟩) (s₂ := ⟨3, ![r, n1, n2]⟩) (0 : Fin 3) x₁ x₂ h
    (ix3 k a e) rfl rfl (ix3 k' a e) (fun b hb => by
      match b, hb with
      | ⟨0, _⟩, hb => exact absurd rfl hb
      | ⟨1, _⟩, _ => rfl
      | ⟨2, _⟩, _ => rfl) hk

end Layout2

abbrev X0 : S131073x3x21.Idx → EReal := m ((c : Thread nD τ).loc main_arg0)

abbrev X1 : S131072x2x21.Idx → EReal := m ((c : Thread nD τ).loc main_arg1)
abbrev X2 : S131072x3x3.Idx → EReal := m ((c : Thread nD τ).loc main_arg2)
abbrev X3 : S131072x3x1.Idx → EReal := m ((c : Thread nD τ).loc main_arg3)
abbrev X4 : S131072x3x20.Idx → EReal := m ((c : Thread nD τ).loc main_arg4)
abbrev X5 : S20.Idx → EReal := m ((c : Thread nD τ).loc main_arg5)
abbrev X6 : S20x2.Idx → BitVec 32 := m ((c : Thread nD τ).loc main_arg6)
abbrev X7 : S20x2.Idx → BitVec 32 := m ((c : Thread nD τ).loc main_arg7)

set_option maxHeartbeats 400000 in
theorem e_v1 : (V m c main_v1 : S131072x63.Idx → EReal) =
    shapeCast S131072x63 (extractStridedSlice S131072x3x21 ![0, 0, 0] (X0 m c) slices_S131073x3x21_S131072x3x21_0_0_0)
      shapeCasts_S131072x3x21_S131072x63 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v1_at (f : Fin 131072) (cc : Fin 3) (j : Fin 21) :
    (V m c main_v1 : S131072x63.Idx → EReal) (ix2 f (q63 cc j)) = X0 m c (ix3 (row f) cc j) := by
  rw [e_v1]
  refine (shapeCast_nab_nq_apply _ _ rfl f cc j (q63 cc j) rfl).trans ?_
  exact slice3_axis0_apply 0 _ _ f cc j (row f) (Nat.zero_add _).symm

set_option maxHeartbeats 400000 in
theorem e_v4 : (V m c main_v4 : S131072x63.Idx → EReal) =
    shapeCast S131072x63
      (extractStridedSlice S131072x3x21 ![0, 0, 0]
        (concatenate S131073x3x21 0
          [⟨S1x3x21, extractStridedSlice S1x3x21 ![131072, 0, 0] (X0 m c) slices_S131073x3x21_S1x3x21_131072_0_0⟩,
           ⟨S131072x3x21, extractStridedSlice S131072x3x21 ![0, 0, 0] (X0 m c) slices_S131073x3x21_S131072x3x21_0_0_0⟩]
          concatenates_S1x3x21_S131072x3x21_S131073x3x21_d0)
        slices_S131073x3x21_S131072x3x21_0_0_0)
      shapeCasts_S131072x3x21_S131072x63 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

set_option maxHeartbeats 100000 in
theorem v4_at (f : Fin 131072) (cc : Fin 3) (j : Fin 21) :
    (V m c main_v4 : S131072x63.Idx → EReal) (ix2 f (q63 cc j)) = X0 m c (ix3 (prev1 f) cc j) := by
  rw [e_v4]
  refine (shapeCast_nab_nq_apply _ _ rfl f cc j (q63 cc j) rfl).trans ?_
  refine (slice3_axis0_apply 0 _ _ f cc j (⟨f.val, by omega⟩ : Fin 131073) (Nat.zero_add _).symm).trans ?_
  by_cases hf : f.val = 0
  · refine (concat3_axis0_left _ _ _ _ cc j (0 : Fin 1) (by show 0 = f.val; omega)).trans ?_
    exact slice3_axis0_apply 131072 _ _ (0 : Fin 1) cc j (prev1 f) (by show (f.val + 131072) % 131073 = 131072 + 0; omega)
  · refine (concat3_axis0_right _ _ _ _ cc j (⟨f.val - 1, by omega⟩ : Fin 131072) (by show f.val - 1 + 1 = f.val; omega)).trans ?_
    exact slice3_axis0_apply 0 _ _ _ cc j (prev1 f) (by show (f.val + 131072) % 131073 = 0 + (f.val - 1); omega)

set_option maxHeartbeats 400000 in
theorem e_v7 : (V m c main_v7 : S131072x63.Idx → EReal) =
    shapeCast S131072x63
      (extractStridedSlice S131072x3x21 ![0, 0, 0]
        (concatenate S131073x3x21 0
          [⟨S2x3x21, extractStridedSlice S2x3x21 ![131071, 0, 0] (X0 m c) slices_S131073x3x21_S2x3x21_131071_0_0⟩,
           ⟨S131071x3x21, extractStridedSlice S131071x3x21 ![0, 0, 0] (X0 m c) slices_S131073x3x21_S131071x3x21_0_0_0⟩]
          concatenates_S2x3x21_S131071x3x21_S131073x3x21_d0)
        slices_S131073x3x21_S131072x3x21_0_0_0)
      shapeCasts_S131072x3x21_S131072x63 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

set_option maxHeartbeats 100000 in
theorem v7_at (f : Fin 131072) (cc : Fin 3) (j : Fin 21) :
    (V m c main_v7 : S131072x63.Idx → EReal) (ix2 f (q63 cc j)) = X0 m c (ix3 (prev2 f) cc j) := by
  rw [e_v7]
  refine (shapeCast_nab_nq_apply _ _ rfl f cc j (q63 cc j) rfl).trans ?_
  refine (slice3_axis0_apply 0 _ _ f cc j (⟨f.val, by omega⟩ : Fin 131073) (Nat.zero_add _).symm).trans ?_
  by_cases hf : f.val < 2
  · refine (concat3_axis0_left _ _ _ _ cc j (⟨f.val, hf⟩ : Fin 2) (by rfl)).trans ?_
    exact slice3_axis0_apply 131071 _ _ (⟨f.val, hf⟩ : Fin 2) cc j (prev2 f) (by show (f.val + 131071) % 131073 = 131071 + f.val; omega)
  · refine (concat3_axis0_right _ _ _ _ cc j (⟨f.val - 2, by omega⟩ : Fin 131071) (by show f.val - 2 + 2 = f.val; omega)).trans ?_
    exact slice3_axis0_apply 0 _ _ _ cc j (prev2 f) (by show (f.val + 131071) % 131073 = 0 + (f.val - 2); omega)

set_option maxHeartbeats 400000 in
theorem e_v8 : (V m c main_v8 : S131072x42.Idx → EReal) = shapeCast S131072x42 (X1 m c) shapeCasts_S131072x2x21_S131072x42 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v8_at (f : Fin 131072) (cc : Fin 2) (j : Fin 21) :
    (V m c main_v8 : S131072x42.Idx → EReal) (ix2 f (q42 cc j)) = X1 m c (ix3 f cc j) := by
  rw [e_v8]
  exact shapeCast_nab_nq_apply _ _ rfl f cc j (q42 cc j) rfl

set_option maxHeartbeats 400000 in
theorem e_v9 : (V m c main_v9 : S131072x9.Idx → EReal) = shapeCast S131072x9 (X2 m c) shapeCasts_S131072x3x3_S131072x9 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v9_at (f : Fin 131072) (i j : Fin 3) :
    (V m c main_v9 : S131072x9.Idx → EReal) (ix2 f (q9 i j)) = X2 m c (ix3 f i j) := by
  rw [e_v9]
  exact shapeCast_nab_nq_apply _ _ rfl f i j (q9 i j) rfl

set_option maxHeartbeats 400000 in
theorem e_v10 : (V m c main_v10 : S131072x3.Idx → EReal) = shapeCast S131072x3 (X3 m c) shapeCasts_S131072x3x1_S131072x3 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v10_at (f : Fin 131072) (cc : Fin 3) :
    (V m c main_v10 : S131072x3.Idx → EReal) (ix2 f cc) = X3 m c (ix3 f cc 0) := by
  rw [e_v10]
  exact shapeCast_nab_nq_apply _ _ rfl f cc (0 : Fin 1) cc (by show cc.val = 1 * cc.val + 0; omega)

set_option maxHeartbeats 400000 in
theorem e_v11 : (V m c main_v11 : S131072x60.Idx → EReal) = shapeCast S131072x60 (X4 m c) shapeCasts_S131072x3x20_S131072x60 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v11_at (f : Fin 131072) (cc : Fin 3) (l : Fin 20) :
    (V m c main_v11 : S131072x60.Idx → EReal) (ix2 f (q60 cc l)) = X4 m c (ix3 f cc l) := by
  rw [e_v11]
  exact shapeCast_nab_nq_apply _ _ rfl f cc l (q60 cc l) rfl

set_option maxHeartbeats 400000 in
theorem e_v29 : (V m c main_v29 : S1x20.Idx → EReal) = shapeCast S1x20 (X5 m c) shapeCasts_S20_S1x20 := by
  dsimp only [V, V0]
  simp only [pre, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem v29_at (l : Fin 20) : (V m c main_v29 : S1x20.Idx → EReal) (ix2 0 l) = X5 m c (ix1 l) := by
  rw [e_v29]
  exact shapeCast_a_1a_apply _ _ 0 l

abbrev argsAt : Args := argsOf (X0 m c) (X1 m c) (X2 m c) (X3 m c) (X4 m c) (X5 m c) (X6 m c) (X7 m c)

structure ArrayTies (a : Args)
    (P P1 P2 : Vec Ideal S131072x63 .f32) (B : Vec Ideal S131072x42 .f32) (R : Vec Ideal S131072x9 .f32)
    (C : Vec Ideal S131072x3 .f32) (L : Vec Ideal S131072x60 .f32) : Prop where
  hP : ∀ (f : Fin 131072) (cc : Fin 3) (j : Fin 21), P (ix2 f (q63 cc j)) = a.pose (row f) cc j
  hP1 : ∀ (f : Fin 131072) (cc : Fin 3) (j : Fin 21), P1 (ix2 f (q63 cc j)) = a.pose (prev1 f) cc j
  hP2 : ∀ (f : Fin 131072) (cc : Fin 3) (j : Fin 21), P2 (ix2 f (q63 cc j)) = a.pose (prev2 f) cc j
  hB : ∀ (f : Fin 131072) (cc : Fin 2) (j : Fin 21), B (ix2 f (q42 cc j)) = a.b2d f cc j
  hR : ∀ (f : Fin 131072) (i j : Fin 3), R (ix2 f (q9 i j)) = a.rot f i j
  hC : ∀ (f : Fin 131072) (cc : Fin 3), C (ix2 f cc) = a.cam f cc
  hL : ∀ (f : Fin 131072) (cc : Fin 3) (l : Fin 20), L (ix2 f (q60 cc l)) = a.lift f cc l

theorem array_ties :
    ArrayTies (argsAt m c) (V m c main_v1) (V m c main_v4) (V m c main_v7) (V m c main_v8) (V m c main_v9)
      (V m c main_v10) (V m c main_v11) :=
  ⟨v1_at m c, v4_at m c, v7_at m c, v8_at m c, v9_at m c, v10_at m c, v11_at m c⟩

theorem blen_tie (l : Fin 20) : (V m c main_v29 : Vec Ideal S1x20 .f32) (ix2 0 l) = (argsAt m c).blen l :=
  v29_at m c l

end Cert.KernelIdeal.Hand

end
-- ==== Proof.KTable.lean ====
import proofs.«408326_j73830487818418_3_alg».proof.Proof.KDefs
import proofs.«408326_j73830487818418_3_alg».proof.Proof.KTies
import proofs.«408326_j73830487818418_3_alg».proof.Proof.ArgsOf
import proofs.«408326_j73830487818418_3_alg».proof.Proof.KPrelude
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Hand.KTable

open Idealize.ShloMosaic Idealize.ShloMosaic.TcCoe Idealize.ShloMosaic.ValueIdx
open Idealize.SL Idealize.SL.Sem
open Cert.KernelIdeal Cert.KernelIdeal.Gen Cert.KernelIdeal.Hand Cert.Spec

variable (m : (ℓ : Loc nD τ sig) → Buf (Elt Ideal) ℓ) (c : Dev nD)

abbrev ohT (x : S20x2.Idx → BitVec 32) (o : Nat) (h : S20x2.Slices ![0, o] S20x1) : S21x20.Idx → EReal :=
  transpose S21x20 [1, 0]
    (uitofp (F := Ideal) .f32
      (cmpi .eq
        (broadcastInDim S20x21 ![0, 1] bcast_S20x1_S20x21_0_1
          (broadcastInDim S20x1 ![0] bcast_S20_S20x1_0
            (shapeCast S20 (extractStridedSlice S20x1 ![0, o] x h) shapeCasts_S20x1_S20)))
        (broadcastInDim S20x21 ![0, 1] bcast_S1x21_S20x21_0_1 (iotaInDim S1x21 32 1))))
    transposes_S20x21_S21x20_1_0

theorem uitofp_cmpi_eq_apply {s : Shape} (A B : IVec s 32) (i : s.Idx) (a b : BitVec 32) (hA : A i = a) (hB : B i = b) :
    (uitofp (F := Ideal) .f32 (cmpi .eq A B) : s.Idx → EReal) i = if a = b then (1 : EReal) else 0 := by
  show FloatOps.uitofp (F := Ideal) .f32 (IntOp.cmpi .eq (A i) (B i)) = _
  rw [hA, hB]
  by_cases e : a = b
  · rw [if_pos e, StableHlo.Predicate.cmpi_eq_iff.mpr e]
    show (((1#1 : BitVec 1).toNat : ℝ) : EReal) = 1
    simp
  · rw [if_neg e, eq_zero_of_ne_one (mt StableHlo.Predicate.cmpi_eq_iff.mp e)]
    show (((0#1 : BitVec 1).toNat : ℝ) : EReal) = 0
    simp

set_option maxHeartbeats 100000 in
theorem ohT_at (x : S20x2.Idx → BitVec 32) (o : Nat) (h : S20x2.Slices ![0, o] S20x1) (k : Fin 2) (hk : k.val = o)
    (j : Fin 21) (l : Fin 20) :
    ohT x o h (ix2 j l) = if x (ix2 l k) = BitVec.ofNat 32 j.val then (1 : EReal) else 0 := by
  refine (transpose_ix2_apply _ _ j l).trans ?_
  refine uitofp_cmpi_eq_apply _ _ _ _ _ ?_ ?_
  · refine (broadcastInDim_apply (s := S20x1) (t := S20x21) ![0, 1] _ _ (ix2 l j) (ix2 l (0 : Fin 1)) (fun a => by
      match a with
      | ⟨0, _⟩ => rfl
      | ⟨1, _⟩ => rfl)).trans ?_
    refine (broadcastInDim_apply (s := S20) (t := S20x1) ![0] _ _ (ix2 l (0 : Fin 1)) (ix1 l) (fun a => by
      match a with
      | ⟨0, _⟩ => rfl)).trans ?_
    refine (shapeCast_apply _ _ (ix1 l) (ix2 l (0 : Fin 1)) (by
      rw [Shape.rowMajor_val_two, Shape.rowMajor_val_one]
      show l.val * 1 + 0 = l.val
      omega)).trans ?_
    exact slice2_axis1_apply o x h l (0 : Fin 1) k (by show k.val = o + 0; omega)
  · refine (broadcastInDim_apply (s := S1x21) (t := S20x21) ![0, 1] _ _ (ix2 l j) (ix2 (0 : Fin 1) j) (fun a => by
      match a with
      | ⟨0, _⟩ => rfl
      | ⟨1, _⟩ => rfl)).trans ?_
    rfl

section Concat4
variable {α : Type}

theorem concat4_cols_apply (T : Fin 4 → (S21x20.Idx → α))
    (h : Shape.Concatenates [S21x20, S21x20, S21x20, S21x20] S21x80 1) (j : Fin 21) (s : Fin 4) (l : Fin 20) :
    concatenate S21x80 1 [⟨S21x20, T 0⟩, ⟨S21x20, T 1⟩, ⟨S21x20, T 2⟩, ⟨S21x20, T 3⟩] h (ix2 j (q80 s l)) = T s (ix2 j l) := by
  have hi : ∀ b : Fin S21x20.rank, b.cast (rfl : S21x20.rank = S21x80.rank) ≠ (1 : Fin 2) →
      ((ix2 j l : S21x20.Idx) b).val = ((ix2 j (q80 s l) : S21x80.Idx) (b.cast rfl)).val := fun b hb => by
    match b, hb with
    | ⟨0, _⟩, _ => rfl
    | ⟨1, _⟩, hb => exact absurd rfl hb
  match s, hi with
  | ⟨0, _⟩, hi =>
    exact concatenate_apply_piece (t := S21x80) (1 : Fin 2) [⟨S21x20, T 0⟩, ⟨S21x20, T 1⟩, ⟨S21x20, T 2⟩, ⟨S21x20, T 3⟩] h
      (ix2 j (q80 ⟨0, by omega⟩ l)) 0 (by show 0 < 4; omega) S21x20 (T 0) rfl rfl 0 rfl (ix2 j l) hi
      (by show 0 + l.val = 20 * 0 + l.val; omega)
  | ⟨1, _⟩, hi =>
    exact concatenate_apply_piece (t := S21x80) (1 : Fin 2) [⟨S21x20, T 0⟩, ⟨S21x20, T 1⟩, ⟨S21x20, T 2⟩, ⟨S21x20, T 3⟩] h
      (ix2 j (q80 ⟨1, by omega⟩ l)) 1 (by show 1 < 4; omega) S21x20 (T 1) rfl rfl 20 rfl (ix2 j l) hi
      (by show 20 + l.val = 20 * 1 + l.val; omega)
  | ⟨2, _⟩, hi =>
    exact concatenate_apply_piece (t := S21x80) (1 : Fin 2) [⟨S21x20, T 0⟩, ⟨S21x20, T 1⟩, ⟨S21x20, T 2⟩, ⟨S21x20, T 3⟩] h
      (ix2 j (q80 ⟨2, by omega⟩ l)) 2 (by show 2 < 4; omega) S21x20 (T 2) rfl rfl 40 rfl (ix2 j l) hi
      (by show 40 + l.val = 20 * 2 + l.val; omega)
  | ⟨3, _⟩, hi =>
    exact concatenate_apply_piece (t := S21x80) (1 : Fin 2) [⟨S21x20, T 0⟩, ⟨S21x20, T 1⟩, ⟨S21x20, T 2⟩, ⟨S21x20, T 3⟩] h
      (ix2 j (q80 ⟨3, by omega⟩ l)) 3 (by show 3 < 4; omega) S21x20 (T 3) rfl rfl 60 rfl (ix2 j l) hi
      (by show 60 + l.val = 20 * 3 + l.val; omega)

end Concat4

theorem toNat_lt_of_inRange {w : BitVec 32} (h : 0 ≤ w.toInt ∧ w.toInt < 21) : w.toNat < 21 := by
  have e := BitVec.toInt_eq_toNat_cond w
  have hw := w.isLt
  split at e <;> omega

theorem eq_ofNat_iff_jointOf {w : BitVec 32} (hw : w.toNat < 21) (j : Fin 21) : w = BitVec.ofNat 32 j.val ↔ jointOf w = j := by
  have hj := j.isLt
  constructor
  · intro e
    apply Fin.ext
    show w.toNat % 21 = j.val
    rw [e, BitVec.toNat_ofNat]
    omega
  · intro e
    apply BitVec.eq_of_toNat_eq
    rw [BitVec.toNat_ofNat]
    have e' : w.toNat % 21 = j.val := congrArg Fin.val e
    omega

set_option maxHeartbeats 400000 in

theorem e_v28 :
    (V m c main_v28 : S21x80.Idx → EReal)
      = concatenate S21x80 1
          [⟨S21x20, ohT (X6 m c) 0 slices_S20x2_S20x1_0_0⟩, ⟨S21x20, ohT (X6 m c) 1 slices_S20x2_S20x1_0_1⟩,
           ⟨S21x20, ohT (X7 m c) 0 slices_S20x2_S20x1_0_0⟩, ⟨S21x20, ohT (X7 m c) 1 slices_S20x2_S20x1_0_1⟩]
          concatenates_S21x20_S21x20_S21x20_S21x20_S21x80_d1 := by
  dsimp only [V, V0]
  simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

theorem ohT_joint (x : S20x2.Idx → BitVec 32) (hx : InRange x) (o : Nat) (h : S20x2.Slices ![0, o] S20x1) (k : Fin 2)
    (hk : k.val = o) (j : Fin 21) (l : Fin 20) :
    ohT x o h (ix2 j l) = if jointOf (x (ix2 l k)) = j then (1 : EReal) else 0 := by
  rw [ohT_at x o h k hk j l]
  exact if_congr (eq_ofNat_iff_jointOf (toNat_lt_of_inRange (hx (ix2 l k))) j) rfl rfl

end Cert.KernelIdeal.Hand.KTable

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-- The one-hot table at joint j and column (s, l) says whether joint j is the end s of bone l. -/
theorem table_oh (m : (ℓ : Loc nD τ sig) → Buf (Elt Ideal) ℓ) (c : Dev nD) (h6 : InRange (X6 m c)) (h7 : InRange (X7 m c))
    (j : Fin 21) (s : Fin 4) (l : Fin 20) :
    (V m c main_v28 : S21x80.Idx → EReal) (ix2 j (q80 s l)) = if endOf (argsAt m c) s l = j then (1 : EReal) else 0 := by
  rw [KTable.e_v28 m c, KTable.concat4_cols_apply
    (fun s => match s with
      | ⟨0, _⟩ => KTable.ohT (X6 m c) 0 slices_S20x2_S20x1_0_0
      | ⟨1, _⟩ => KTable.ohT (X6 m c) 1 slices_S20x2_S20x1_0_1
      | ⟨2, _⟩ => KTable.ohT (X7 m c) 0 slices_S20x2_S20x1_0_0
      | ⟨3, _⟩ => KTable.ohT (X7 m c) 1 slices_S20x2_S20x1_0_1)
    concatenates_S21x20_S21x20_S21x20_S21x20_S21x80_d1 j s l]
  match s with
  | ⟨0, _⟩ => exact KTable.ohT_joint _ h6 0 _ 0 rfl j l
  | ⟨1, _⟩ => exact KTable.ohT_joint _ h6 1 _ 1 rfl j l
  | ⟨2, _⟩ => exact KTable.ohT_joint _ h7 0 _ 0 rfl j l
  | ⟨3, _⟩ => exact KTable.ohT_joint _ h7 1 _ 1 rfl j l

end Cert.KernelIdeal.Hand

end
-- ==== Proof.KPayMask.lean ====
import proofs.«408326_j73830487818418_3_alg».proof.Proof.Gen.KernelIdeal.Skeleton
import proofs.«408326_j73830487818418_3_alg».proof.Proof.Spec
import Idealize.ShloMosaic.Lib.ValueIdx
import Idealize.ShloMosaic.Lib.Pipeline.Value

noncomputable section

namespace Cert.KernelIdeal.Hand

open Idealize.ShloMosaic Idealize.ShloMosaic.ValueIdx
open Cert.KernelIdeal Cert.KernelIdeal.Gen Cert.Spec

abbrev chunkOf (k : Fin k0_t1_loop.trips) : Fin 16 := ⟨k.val, Nat.lt_of_lt_of_le k.isLt k0_t1_abs.2.1⟩

theorem frameWord (t : Fin 32) (k : Fin 16) (r : Fin 256) :
    BitVec.ofNat 32 t.val * 4096#32 + (0#32 + BitVec.ofNat 32 k.val * 1#32) * 256#32 + BitVec.ofNat 32 r.val
      = BitVec.ofNat 32 (4096 * t.val + 256 * k.val + r.val) := by
  apply BitVec.eq_of_toNat_eq
  have ht := t.isLt
  have hk := k.isLt
  have hr := r.isLt
  simp only [BitVec.toNat_add, BitVec.toNat_mul, BitVec.toNat_ofNat]
  omega

theorem bitToReal (n : Nat) (hn : n < 2 ^ 32) :
    (FloatOps.sitofp (F := Ideal) .f32 ((IntOp.cmpi .ne (BitVec.ofNat 32 n) 0#32).setWidth 32) : EReal)
      = if n = 0 then 0 else 1 := by
  show ((((IntOp.cmpi .ne (BitVec.ofNat 32 n) 0#32).setWidth 32).toInt : ℝ) : EReal) = _
  by_cases h0 : n = 0
  · subst h0
    rw [if_pos rfl]
    show ((((0#32 : BitVec 32).toInt : ℤ) : ℝ) : EReal) = 0
    simp
  · rw [if_neg h0]
    have hne : BitVec.ofNat 32 n ≠ 0#32 := by
      intro h
      have := congrArg BitVec.toNat h
      simp only [BitVec.toNat_ofNat] at this
      have : n % 2 ^ 32 = 0 := this
      omega
    have hb : IntOp.cmpi .ne (BitVec.ofNat 32 n) 0#32 = 1#1 := by
      show BitVec.ofBool (BitVec.ofNat 32 n != 0#32) = 1#1
      rw [bne_iff_ne.mpr hne]
      rfl
    rw [hb]
    show ((((1#32 : BitVec 32).toInt : ℤ) : ℝ) : EReal) = 1
    simp

theorem mask15 (t : Fin 32) (k : Fin k0_t1_loop.trips) (v0 : BitVec 32)
    (hv0 : v0 = Scalar.muli (BitVec.ofNat 32 t.val) 4096#32) (r : Fin 256) :
    k0_pay15 (F := Ideal) v0 0#32 1#32 k (ix2 r 0) = Spec.mask (fr t (chunkOf k) r) := by
  subst hv0
  unfold k0_pay15
  have ht := t.isLt
  have hk : k.val < 16 := (chunkOf k).isLt
  have hr := r.isLt
  show FloatOps.sitofp (F := Ideal) .f32
      ((IntOp.cmpi .ne
        (IntOp.addi (Scalar.addi (Scalar.muli (BitVec.ofNat 32 t.val) 4096#32) (Scalar.muli (Scf.iv 0#32 1#32 k.val) 256#32))
          (iota .tc S256x1 32 [0] iota_S256x1_d0_w32 (ix2 r 0))) 0#32).setWidth 32) = _
  rw [iota_single_apply]
  have hw := frameWord t (chunkOf k) r
  have hw' : IntOp.addi (Scalar.addi (Scalar.muli (BitVec.ofNat 32 t.val) 4096#32) (Scalar.muli (Scf.iv 0#32 1#32 k.val) 256#32))
      (BitVec.ofNat 32 ((ix2 r (0 : Fin 1) : S256x1.Idx) 0).val) = BitVec.ofNat 32 (4096 * t.val + 256 * k.val + r.val) := hw
  rw [hw', bitToReal _ (by omega)]
  rfl

end Cert.KernelIdeal.Hand

end
-- ==== Proof.KPayLayout.lean ====
import proofs.«408326_j73830487818418_3_alg».proof.Proof.KTies
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Hand

open Idealize.ShloMosaic Idealize.ShloMosaic.ValueIdx
open Cert.KernelIdeal Cert.Spec

section Layout
variable {α : Type}

theorem col_apply {a b : ℕ} (o : ℕ) (X : (⟨2, ![a, b]⟩ : Shape).Idx → α)
    (h : (⟨2, ![a, b]⟩ : Shape).Slices ![0, o] ⟨2, ![a, 1]⟩) (p : Fin a) (u : Fin 1) (k : Fin b) (hk : k.val = o) :
    extractStridedSlice ⟨2, ![a, 1]⟩ ![0, o] X h (ix2 p u) = X (ix2 p k) :=
  slice2_axis1_apply o X h p u k (by have := u.isLt; omega)

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

theorem laneSum_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

theorem rowSum_apply {a : ℕ} (src : FVec Ideal ⟨2, ![a, 1]⟩ .f32)
    (h : (⟨2, ![a, 1]⟩ : Shape).Reduces [0] ⟨1, ![1]⟩) (hφ : FKind.Formats FTy.f32)
    (hacc : (0x00000000#32 : BitVec 32) = FKind.add.neutral .f32 hφ) (u : Fin 1) :
    multiReduction (F := Ideal) .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src ?_
  funext c
  match c with
  | ⟨0, _⟩ => rfl
  | ⟨1, _⟩ => exact Fin.ext (by have := u.isLt; show u.val = 0; omega)

theorem sum_q63 (f : Fin 63 → EReal) : ∑ q : Fin 63, f q = ∑ c : Fin 3, ∑ j : Fin 21, f (q63 c j) := by
  rw [← Fintype.sum_prod_type']
  refine (Fintype.sum_equiv (finProdFinEquiv (m := 3) (n := 21)) (fun x : Fin 3 × Fin 21 => f (q63 x.1 x.2)) f
    (fun x => congrArg f (Fin.ext ?_))).symm
  show 21 * x.1.val + x.2.val = x.2.val + 21 * x.1.val
  omega

theorem inv_63 : Named.named (F := Ideal) Cert.KernelIdeal.κ "inv_63" (φ := .f32) 0x3C820821#32 = i63 :=
  IdealRules.named_const.ideal_named_scalar _ _ _ _ rfl

theorem inv_42 : Named.named (F := Ideal) Cert.KernelIdeal.κ "inv_42" (φ := .f32) 0x3CC30C31#32 = i42 :=
  IdealRules.named_const.ideal_named_scalar _ _ _ _ rfl

end Cert.KernelIdeal.Hand

end
-- ==== Proof.KPayProj.lean ====
import proofs.«408326_j73830487818418_3_alg».proof.Proof.KTrip
import proofs.«408326_j73830487818418_3_alg».proof.Proof.KTies
import proofs.«408326_j73830487818418_3_alg».proof.Proof.KPayMask
import proofs.«408326_j73830487818418_3_alg».proof.Proof.KPayLayout
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Hand

open Idealize.ShloMosaic Idealize.ShloMosaic.ValueIdx
open Cert.KernelIdeal Cert.KernelIdeal.Gen Cert.Spec

def camCoord (r0 r1 r2 p q s : EReal) : EReal := (r0 * p + r1 * q) + r2 * s

def pinhole (n d : EReal) : EReal := Ideal.div (c512 * n) d + c512

theorem pay29_apply (v44 : FVec Ideal S256x42 .f32) (v47 : FVec Ideal S256x9 .f32) (v61 : FVec Ideal S256x1 .f32)
    (v69 v71 v73 : FVec Ideal S256x21 .f32) (v74 v75 v76 v77 v78 v79 v80 : FVec Ideal S256x1 .f32) :
    k0_pay29 v44 v47 v61 v69 v71 v73 v74 v75 v76 v77 v78 v79 v80 (ix2 0 0)
      = ∑ r : Fin 256,
          ((∑ q : Fin 21, sq (pinhole (camCoord (v74 (ix2 r 0)) (v77 (ix2 r 0)) (v80 (ix2 r 0)) (v69 (ix2 r q)) (v71 (ix2 r q)) (v73 (ix2 r q)))
                (camCoord (v76 (ix2 r 0)) (v79 (ix2 r 0)) (v47 (ix2 r 8)) (v69 (ix2 r q)) (v71 (ix2 r q)) (v73 (ix2 r q)))
              - v44 (ix2 r (q42 0 q))))
           + ∑ q : Fin 21, sq (pinhole (camCoord (v75 (ix2 r 0)) (v78 (ix2 r 0)) (v47 (ix2 r 7)) (v69 (ix2 r q)) (v71 (ix2 r q)) (v73 (ix2 r q)))
                (camCoord (v76 (ix2 r 0)) (v79 (ix2 r 0)) (v47 (ix2 r 8)) (v69 (ix2 r q)) (v71 (ix2 r q)) (v73 (ix2 r q)))
              - v44 (ix2 r (q42 1 q))))
          * (i42 * v61 (ix2 r 0)) := by
  have e81 : ∀ r : Fin 256, extractStridedSlice S256x1 ![0, 7] v47 slices_S256x9_o0_7_S256x1 (ix2 r 0) = v47 (ix2 r 7) :=
    fun r => col_apply 7 v47 _ r 0 7 rfl
  have e82 : ∀ r : Fin 256, extractStridedSlice S256x1 ![0, 8] v47 slices_S256x9_o0_8_S256x1 (ix2 r 0) = v47 (ix2 r 8) :=
    fun r => col_apply 8 v47 _ r 0 8 rfl
  have e117 : ∀ (r : Fin 256) (q : Fin 21),
      extractStridedSlice S256x21 ![0, 0] v44 slices_S256x42_o0_0_S256x21 (ix2 r q) = v44 (ix2 r (q42 0 q)) :=
    fun r q => slice2_axis1_apply 0 v44 _ r q (q42 0 q) (by show 21 * 0 + q.val = 0 + q.val; omega)
  have e119 : ∀ (r : Fin 256) (q : Fin 21),
      extractStridedSlice S256x21 ![0, 21] v44 slices_S256x42_o0_21_S256x21 (ix2 r q) = v44 (ix2 r (q42 1 q)) :=
    fun r q => slice2_axis1_apply 21 v44 _ r q (q42 1 q) (by show 21 * 1 + q.val = 21 + q.val; omega)
  unfold k0_pay29
  refine (shapeCast_a_1a_apply _ _ 0 0).trans ?_
  refine (rowSum_apply _ _ _ _ 0).trans ?_
  refine Finset.sum_congr rfl fun r _ => ?_
  refine congrArg₂ (· * ·) ?_ (congrArg (· * v61 (ix2 r 0)) inv_42)
  refine congrArg₂ (· + ·) ?_ ?_
  · refine (shapeCast_a_a1_apply _ _ r 0).trans ?_
    refine (laneSum_apply _ _ _ _ r).trans ?_
    refine Finset.sum_congr rfl fun q _ => ?_
    simp only [mulf_apply, subf_apply, addf_apply, divf_apply, broadcast_apply, broadcastTo_a1_ab_apply, e81, e82, e117, e119]
    rfl
  · refine (shapeCast_a_a1_apply _ _ r 0).trans ?_
    refine (laneSum_apply _ _ _ _ r).trans ?_
    refine Finset.sum_congr rfl fun q _ => ?_
    simp only [mulf_apply, subf_apply, addf_apply, divf_apply, broadcast_apply, broadcastTo_a1_ab_apply, e81, e82, e117, e119]
    rfl

private theorem pay8_eq (v34 : Vec Ideal S256x63 .f32) : k0_pay8 v34 = v34 := shapeCast_self _ _
private theorem pay11_eq (v43 : Vec Ideal S256x42 .f32) : k0_pay11 v43 = v43 := shapeCast_self _ _
private theorem pay12_eq (v46 : Vec Ideal S256x9 .f32) : k0_pay12 v46 = v46 := shapeCast_self _ _
private theorem pay13_eq (v49 : Vec Ideal S256x3 .f32) : k0_pay13 v49 = v49 := shapeCast_self _ _

section Operands
variable {a : Args} {t : Fin 32} {k : Fin 16}
  {v34 v37 v40 : Vec Ideal S256x63 .f32} {v43 : Vec Ideal S256x42 .f32} {v46 : Vec Ideal S256x9 .f32}
  {v49 : Vec Ideal S256x3 .f32} {v52 : Vec Ideal S256x60 .f32}
  (hT : ChunkTies a t k v34 v37 v40 v43 v46 v49 v52)
include hT

private theorem rotCol (o : ℕ) (h : S256x9.Slices ![0, o] S256x1) (i j : Fin 3) (ho : (q9 i j).val = o) (r : Fin 256) :
    extractStridedSlice S256x1 ![0, o] (k0_pay12 v46) h (ix2 r 0) = a.rot (fr t k r) i j := by
  refine (col_apply o _ h r 0 (q9 i j) ho).trans ?_
  rw [pay12_eq]
  exact hT.hR r i j

private theorem pdChan (c : Fin 3) (o : ℕ) (hs : S256x63.Slices ![0, o] S256x21) (hc : S256x3.Slices ![0, c.val] S256x1)
    (ho : o = 21 * c.val) (r : Fin 256) (q : Fin 21) :
    subf (extractStridedSlice S256x21 ![0, o] (k0_pay8 v34) hs)
        (broadcastTo S256x21 (extractStridedSlice S256x1 ![0, c.val] (k0_pay13 v49) hc) broadcasts_S256x1_S256x21) (ix2 r q)
      = pd a (fr t k r) c q := by
  refine congrArg₂ (· - ·) ?_ ?_
  · refine (slice2_axis1_apply o _ hs r q (q63 c q) (by show 21 * c.val + q.val = o + q.val; omega)).trans ?_
    rw [pay8_eq]
    exact hT.hP r c q
  · refine (broadcastTo_a1_ab_apply _ _ r q).trans ?_
    refine (col_apply c.val _ hc r 0 c rfl).trans ?_
    rw [pay13_eq]
    exact hT.hC r c

theorem pay19_apply (r : Fin 256) (q : Fin 21) : k0_pay19 v34 v49 (ix2 r q) = pd a (fr t k r) 0 q :=
  pdChan hT 0 0 slices_S256x63_o0_0_S256x21 slices_S256x3_o0_0_S256x1 rfl r q
theorem pay20_apply (r : Fin 256) (q : Fin 21) : k0_pay20 v34 v49 (ix2 r q) = pd a (fr t k r) 1 q :=
  pdChan hT 1 21 slices_S256x63_o0_21_S256x21 slices_S256x3_o0_1_S256x1 rfl r q
theorem pay21_apply (r : Fin 256) (q : Fin 21) : k0_pay21 v34 v49 (ix2 r q) = pd a (fr t k r) 2 q :=
  pdChan hT 2 42 slices_S256x63_o0_42_S256x21 slices_S256x3_o0_2_S256x1 rfl r q

theorem pay22_apply (r : Fin 256) : k0_pay22 v46 (ix2 r 0) = a.rot (fr t k r) 0 0 := rotCol hT 0 slices_S256x9_o0_0_S256x1 0 0 rfl r
theorem pay23_apply (r : Fin 256) : k0_pay23 v46 (ix2 r 0) = a.rot (fr t k r) 0 1 := rotCol hT 1 slices_S256x9_o0_1_S256x1 0 1 rfl r
theorem pay24_apply (r : Fin 256) : k0_pay24 v46 (ix2 r 0) = a.rot (fr t k r) 0 2 := rotCol hT 2 slices_S256x9_o0_2_S256x1 0 2 rfl r
theorem pay25_apply (r : Fin 256) : k0_pay25 v46 (ix2 r 0) = a.rot (fr t k r) 1 0 := rotCol hT 3 slices_S256x9_o0_3_S256x1 1 0 rfl r
theorem pay26_apply (r : Fin 256) : k0_pay26 v46 (ix2 r 0) = a.rot (fr t k r) 1 1 := rotCol hT 4 slices_S256x9_o0_4_S256x1 1 1 rfl r
theorem pay27_apply (r : Fin 256) : k0_pay27 v46 (ix2 r 0) = a.rot (fr t k r) 1 2 := rotCol hT 5 slices_S256x9_o0_5_S256x1 1 2 rfl r
theorem pay28_apply (r : Fin 256) : k0_pay28 v46 (ix2 r 0) = a.rot (fr t k r) 2 0 := rotCol hT 6 slices_S256x9_o0_6_S256x1 2 0 rfl r

private theorem rot21_apply (r : Fin 256) : k0_pay12 v46 (ix2 r 7) = a.rot (fr t k r) 2 1 := by
  rw [pay12_eq]; exact hT.hR r 2 1
private theorem rot22_apply (r : Fin 256) : k0_pay12 v46 (ix2 r 8) = a.rot (fr t k r) 2 2 := by
  rw [pay12_eq]; exact hT.hR r 2 2

private theorem b2d_apply (c : Fin 2) (r : Fin 256) (q : Fin 21) : k0_pay11 v43 (ix2 r (q42 c q)) = a.b2d (fr t k r) c q := by
  rw [pay11_eq]; exact hT.hB r c q

end Operands

theorem tripF_proj (a : Args) (t : Fin 32) (k : Fin k0_t1_loop.trips) (v0 : BitVec 32)
    (hv0 : v0 = Scalar.muli (BitVec.ofNat 32 t.val) 4096#32)
    (BL : Vec Ideal S1x20 .f32) (OH : Vec Ideal S21x80 .f32)
    (v34 v37 v40 : Vec Ideal S256x63 .f32) (v43 : Vec Ideal S256x42 .f32) (v46 : Vec Ideal S256x9 .f32)
    (v49 : Vec Ideal S256x3 .f32) (v52 : Vec Ideal S256x60 .f32)
    (hT : ChunkTies a t (chunkOf k) v34 v37 v40 v43 v46 v49 v52) (acc : Acc Ideal) :
    (tripF v0 BL OH k v34 v37 v40 v43 v46 v49 v52 acc).1 (ix2 0 0)
      = acc.1 (ix2 0 0)
        + ∑ r : Fin 256, kprojF a (fr t (chunkOf k) r) * (i42 * mask (fr t (chunkOf k) r)) := by
  show acc.1 (ix2 0 0) + k0_pay29 (k0_pay11 v43) (k0_pay12 v46) (k0_pay15 (F := Ideal) v0 0#32 1#32 k)
      (k0_pay19 v34 v49) (k0_pay20 v34 v49) (k0_pay21 v34 v49)
      (k0_pay22 v46) (k0_pay23 v46) (k0_pay24 v46) (k0_pay25 v46) (k0_pay26 v46) (k0_pay27 v46) (k0_pay28 v46) (ix2 0 0) = _
  refine congrArg (acc.1 (ix2 0 0) + ·) ?_
  refine (pay29_apply _ _ _ _ _ _ _ _ _ _ _ _ _).trans ?_
  refine Finset.sum_congr rfl fun r _ => ?_
  rw [mask15 t k v0 hv0 r]
  refine congrArg (· * (i42 * mask (fr t (chunkOf k) r))) ?_
  refine congrArg₂ (· + ·) (Finset.sum_congr rfl fun q _ => ?_) (Finset.sum_congr rfl fun q _ => ?_)
  · rw [pay19_apply hT, pay20_apply hT, pay21_apply hT, pay22_apply hT, pay24_apply hT, pay25_apply hT, pay27_apply hT,
      pay28_apply hT, rot22_apply hT, b2d_apply hT]
    rfl
  · rw [pay19_apply hT, pay20_apply hT, pay21_apply hT, pay23_apply hT, pay24_apply hT, pay26_apply hT, pay27_apply hT,
      rot21_apply hT, rot22_apply hT, b2d_apply hT]
    rfl

end Cert.KernelIdeal.Hand

end
-- ==== Proof.KPayOneHot.lean ====
import proofs.«408326_j73830487818418_3_alg».proof.Proof.KTrip
import proofs.«408326_j73830487818418_3_alg».proof.Proof.KTies
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen Cert.Spec

theorem lhs_dot_0 (j : S256x80.Idx) (k : dot_S256x21_S21x80_S256x80_1_0_0_1_n_n.contr.Idx) :
    (dot_S256x21_S21x80_S256x80_1_0_0_1_n_n.lhsIdx j k 0).val = (j 0).val := by
  unfold DotDims.lhsIdx
  rw [dif_neg (show ¬(0 : Fin S256x21.rank) ∈ dot_S256x21_S21x80_S256x80_1_0_0_1_n_n.lhsBatch by decide),
    dif_pos (show (0 : Fin S256x21.rank) ∈ dot_S256x21_S21x80_S256x80_1_0_0_1_n_n.lhsNonContracting by decide)]
  rfl

theorem lhs_dot_1 (j : S256x80.Idx) (k : dot_S256x21_S21x80_S256x80_1_0_0_1_n_n.contr.Idx) :
    (dot_S256x21_S21x80_S256x80_1_0_0_1_n_n.lhsIdx j k 1).val = (k ⟨0, by decide⟩).val :=
  dot_S256x21_S21x80_S256x80_1_0_0_1_n_n.lhsIdx_val_of_single (cl := 1) rfl j k

theorem rhs_dot_0 (j : S256x80.Idx) (k : dot_S256x21_S21x80_S256x80_1_0_0_1_n_n.contr.Idx) :
    (dot_S256x21_S21x80_S256x80_1_0_0_1_n_n.rhsIdx j k 0).val = (k ⟨0, by decide⟩).val :=
  dot_S256x21_S21x80_S256x80_1_0_0_1_n_n.rhsIdx_val_of_single (cr := 0) rfl j k

theorem rhs_dot_1 (j : S256x80.Idx) (k : dot_S256x21_S21x80_S256x80_1_0_0_1_n_n.contr.Idx) :
    (dot_S256x21_S21x80_S256x80_1_0_0_1_n_n.rhsIdx j k 1).val = (j 1).val := by
  unfold DotDims.rhsIdx
  rw [dif_neg (show ¬(1 : Fin S21x80.rank) ∈ dot_S256x21_S21x80_S256x80_1_0_0_1_n_n.rhsBatch by decide),
    dif_pos (show (1 : Fin S21x80.rank) ∈ dot_S256x21_S21x80_S256x80_1_0_0_1_n_n.rhsNonContracting by decide)]
  rfl

theorem gather_sum (X : FVec Ideal S256x21 .f32) (OH : FVec Ideal S21x80 .f32) (r : Fin 256) (c : Fin 80) :
    matmul dot_S256x21_S21x80_S256x80_1_0_0_1_n_n (some .fp32) X OH (constant (F := Ideal) S256x80 .f32 0x00000000#32) (ix2 r c)
      = ∑ j : Fin 21, X (ix2 r j) * OH (ix2 j c) := by
  refine (Ideal.matmul_constant_zero_apply dot_S256x21_S21x80_S256x80_1_0_0_1_n_n (some .fp32) X OH (ix2 r c)).trans ?_
  rw [← Equiv.sum_comp (contrEquiv1 dot_S256x21_S21x80_S256x80_1_0_0_1_n_n 21 rfl rfl).symm]
  refine Finset.sum_congr rfl fun j _ => ?_
  have hk := contrEquiv1_symm_val dot_S256x21_S21x80_S256x80_1_0_0_1_n_n 21 rfl rfl j
  congr 2
  · funext a
    refine Fin.ext ?_
    match a with
    | ⟨0, _⟩ => exact lhs_dot_0 _ _
    | ⟨1, _⟩ => exact (lhs_dot_1 _ _).trans hk
  · funext a
    refine Fin.ext ?_
    match a with
    | ⟨0, _⟩ => exact (rhs_dot_0 _ _).trans hk
    | ⟨1, _⟩ => exact rhs_dot_1 _ _

theorem sum_mul_indicator (x : Fin 21 → EReal) (e : Fin 21) :
    ∑ j : Fin 21, x j * (if e = j then (1 : EReal) else 0) = x e := by
  simp only [mul_ite, mul_one, mul_zero]
  rw [Finset.sum_ite_eq Finset.univ e x, if_pos (Finset.mem_univ e)]

theorem pay1_eq (OH : Vec Ideal S21x80 .f32) : k0_pay1 OH = OH := by
  unfold k0_pay1
  exact shapeCast_self OH _

variable {a : Args} {OH : Vec Ideal S21x80 .f32} {BL : Vec Ideal S1x20 .f32}

theorem gather_pick (hO : TableTies a OH BL) (X : FVec Ideal S256x21 .f32) (r : Fin 256) (s : Fin 4) (l : Fin 20) :
    matmul (φ₂ := .f32) dot_S256x21_S21x80_S256x80_1_0_0_1_n_n (some .fp32) X OH (constant (F := Ideal) S256x80 .f32 0x00000000#32) (ix2 r (q80 s l))
      = X (ix2 r (endOf a s l)) := by
  rw [gather_sum]
  simp only [hO.hOH]
  exact sum_mul_indicator (fun j => X (ix2 r j)) (endOf a s l)

theorem pay30_pick (hO : TableTies a OH BL) (X : FVec Ideal S256x21 .f32) (r : Fin 256) (s : Fin 4) (l : Fin 20) :
    k0_pay30 (k0_pay1 OH) X (ix2 r (q80 s l)) = X (ix2 r (endOf a s l)) := by
  rw [pay1_eq]; unfold k0_pay30; exact gather_pick hO X r s l

theorem pay32_pick (hO : TableTies a OH BL) (X : FVec Ideal S256x21 .f32) (r : Fin 256) (s : Fin 4) (l : Fin 20) :
    k0_pay32 (k0_pay1 OH) X (ix2 r (q80 s l)) = X (ix2 r (endOf a s l)) := by
  rw [pay1_eq]; unfold k0_pay32; exact gather_pick hO X r s l

theorem pay34_pick (hO : TableTies a OH BL) (X : FVec Ideal S256x21 .f32) (r : Fin 256) (s : Fin 4) (l : Fin 20) :
    k0_pay34 (k0_pay1 OH) X (ix2 r (q80 s l)) = X (ix2 r (endOf a s l)) := by
  rw [pay1_eq]; unfold k0_pay34; exact gather_pick hO X r s l

theorem group_apply (o : Nat) (s : Fin 4) (ho : o = 20 * s.val) (Y : FVec Ideal S256x80 .f32)
    (h : S256x80.Slices ![0, o] S256x20) (r : Fin 256) (l : Fin 20) :
    extractStridedSlice S256x20 ![0, o] Y h (ix2 r l) = Y (ix2 r (q80 s l)) :=
  slice2_axis1_apply o Y h r l (q80 s l) (by subst ho; rfl)

theorem pay8_eq (P : Vec Ideal S256x63 .f32) : k0_pay8 P = P := by
  unfold k0_pay8
  exact shapeCast_self P _

theorem pay16_apply (P : Vec Ideal S256x63 .f32) (r : Fin 256) (j : Fin 21) : k0_pay16 P (ix2 r j) = P (ix2 r (q63 0 j)) := by
  unfold k0_pay16; rw [pay8_eq]
  exact slice2_axis1_apply 0 P _ r j (q63 0 j) (by show 21 * 0 + j.val = 0 + j.val; omega)

theorem pay17_apply (P : Vec Ideal S256x63 .f32) (r : Fin 256) (j : Fin 21) : k0_pay17 P (ix2 r j) = P (ix2 r (q63 1 j)) := by
  unfold k0_pay17; rw [pay8_eq]
  exact slice2_axis1_apply 21 P _ r j (q63 1 j) (by show 21 * 1 + j.val = 21 + j.val; omega)

theorem pay18_apply (P : Vec Ideal S256x63 .f32) (r : Fin 256) (j : Fin 21) : k0_pay18 P (ix2 r j) = P (ix2 r (q63 2 j)) := by
  unfold k0_pay18; rw [pay8_eq]
  exact slice2_axis1_apply 42 P _ r j (q63 2 j) (by show 21 * 2 + j.val = 42 + j.val; omega)

theorem laneSum20_apply (src : FVec Ideal S256x20 .f32) (hacc : (0x00000000#32 : BitVec 32) = 0x00000000#32) (r : Fin 256) :
    multiReduction (F := Ideal) .add [1] S256 src 0x00000000#32 reduces_S256x20_S256 (.inl rfl) hacc (ix1 r)
      = ∑ l : Fin 20, src (ix2 r l) := by
  refine (Ideal.multiReduction_add_single src 0x00000000#32 reduces_S256x20_S256 (.inl rfl) hacc (ix1 r)).trans ?_
  refine Finset.sum_congr rfl fun l _ => congrArg src ?_
  funext b
  match b with
  | ⟨0, _⟩ => rfl
  | ⟨1, _⟩ => rfl

theorem rowSum256_apply (src : FVec Ideal S256x1 .f32) (hacc : (0x00000000#32 : BitVec 32) = 0x00000000#32) :
    multiReduction (F := Ideal) .add [0] S1 src 0x00000000#32 reduces_S256x1_S1 (.inl rfl) hacc (ix1 (0 : Fin 1))
      = ∑ r : Fin 256, src (ix2 r (0 : Fin 1)) := by
  refine (Ideal.multiReduction_add_single src 0x00000000#32 reduces_S256x1_S1 (.inl rfl) hacc (ix1 0)).trans ?_
  refine Finset.sum_congr rfl fun r _ => congrArg src ?_
  funext b
  match b with
  | ⟨0, _⟩ => rfl
  | ⟨1, _⟩ => rfl

theorem column_apply (x : FVec Ideal S256 .f32) (r : Fin 256) :
    shapeCast S256x1 x shapeCasts_S256_S256x1 (ix2 r (0 : Fin 1)) = x (ix1 r) :=
  shapeCast_apply x _ _ _ (by
    rw [Shape.rowMajor_val_two, Shape.rowMajor_val_one]
    show r.val = r.val * 1 + 0
    omega)

theorem unit_apply (x : FVec Ideal S1 .f32) :
    shapeCast S1x1 x shapeCasts_S1_S1x1 (ix2 (0 : Fin 1) (0 : Fin 1)) = x (ix1 (0 : Fin 1)) :=
  shapeCast_a_1a_apply x _ 0 0

end Cert.KernelIdeal.Hand

end
-- ==== Proof.KPayLift.lean ====
import proofs.«408326_j73830487818418_3_alg».proof.Proof.KPayOneHot
import proofs.«408326_j73830487818418_3_alg».proof.Proof.KPayMask
import Idealize.ShloMosaic.PureOps.IdealRules

noncomputable section

namespace Cert.KernelIdeal.Hand

open Idealize.ShloMosaic Idealize.ShloMosaic.ValueIdx
open Cert.KernelIdeal Cert.KernelIdeal.Gen Cert.Spec

theorem inv_60 : Named.named (F := Ideal) Cert.KernelIdeal.κ "inv_60" (φ := .f32) 0x3C888889#32 = i60 :=
  IdealRules.named_const.ideal_named_scalar _ _ _ _ rfl

variable {a : Args} {t : Fin 32} {kk : Fin 16}
  {P P1 P2 : Vec Ideal S256x63 .f32} {B : Vec Ideal S256x42 .f32} {R : Vec Ideal S256x9 .f32}
  {C : Vec Ideal S256x3 .f32} {L : Vec Ideal S256x60 .f32}
  {OH : Vec Ideal S21x80 .f32} {BL : Vec Ideal S1x20 .f32}

theorem lift_chan0 (hT : ChunkTies a t kk P P1 P2 B R C L) (r : Fin 256) (j : Fin 21) :
    k0_pay16 P (ix2 r j) = a.pose (row (fr t kk r)) 0 j := (pay16_apply P r j).trans (hT.hP r 0 j)
theorem lift_chan1 (hT : ChunkTies a t kk P P1 P2 B R C L) (r : Fin 256) (j : Fin 21) :
    k0_pay17 P (ix2 r j) = a.pose (row (fr t kk r)) 1 j := (pay17_apply P r j).trans (hT.hP r 1 j)
theorem lift_chan2 (hT : ChunkTies a t kk P P1 P2 B R C L) (r : Fin 256) (j : Fin 21) :
    k0_pay18 P (ix2 r j) = a.pose (row (fr t kk r)) 2 j := (pay18_apply P r j).trans (hT.hP r 2 j)

theorem pay14_eq (L : Vec Ideal S256x60 .f32) : k0_pay14 L = L := by
  unfold k0_pay14
  exact shapeCast_self L _

theorem lift_target (hT : ChunkTies a t kk P P1 P2 B R C L) (o : Nat) (c : Fin 3) (ho : o = 20 * c.val)
    (h : S256x60.Slices ![0, o] S256x20) (r : Fin 256) (l : Fin 20) :
    extractStridedSlice S256x20 ![0, o] (k0_pay14 L) h (ix2 r l) = a.lift (fr t kk r) c l := by
  rw [pay14_eq]
  exact (slice2_axis1_apply o L h r l (q60 c l) (by subst ho; rfl)).trans (hT.hL r c l)

theorem lift_edge0 (hT : ChunkTies a t kk P P1 P2 B R C L) (hO : TableTies a OH BL) (r : Fin 256) (l : Fin 20) :
    (extractStridedSlice S256x20 ![0, 40] (k0_pay30 (k0_pay1 OH) (k0_pay16 P)) slices_S256x80_o0_40_S256x20 (ix2 r l) : EReal)
      - extractStridedSlice S256x20 ![0, 60] (k0_pay30 (k0_pay1 OH) (k0_pay16 P)) slices_S256x80_o0_60_S256x20 (ix2 r l)
      = bv a (fr t kk r) 0 l := by
  rw [group_apply 40 2 rfl, group_apply 60 3 rfl, pay30_pick hO, pay30_pick hO, lift_chan0 hT, lift_chan0 hT]
  rfl

theorem lift_edge1 (hT : ChunkTies a t kk P P1 P2 B R C L) (hO : TableTies a OH BL) (r : Fin 256) (l : Fin 20) :
    (extractStridedSlice S256x20 ![0, 40] (k0_pay32 (k0_pay1 OH) (k0_pay17 P)) slices_S256x80_o0_40_S256x20 (ix2 r l) : EReal)
      - extractStridedSlice S256x20 ![0, 60] (k0_pay32 (k0_pay1 OH) (k0_pay17 P)) slices_S256x80_o0_60_S256x20 (ix2 r l)
      = bv a (fr t kk r) 1 l := by
  rw [group_apply 40 2 rfl, group_apply 60 3 rfl, pay32_pick hO, pay32_pick hO, lift_chan1 hT, lift_chan1 hT]
  rfl

theorem lift_edge2 (hT : ChunkTies a t kk P P1 P2 B R C L) (hO : TableTies a OH BL) (r : Fin 256) (l : Fin 20) :
    (extractStridedSlice S256x20 ![0, 40] (k0_pay34 (k0_pay1 OH) (k0_pay18 P)) slices_S256x80_o0_40_S256x20 (ix2 r l) : EReal)
      - extractStridedSlice S256x20 ![0, 60] (k0_pay34 (k0_pay1 OH) (k0_pay18 P)) slices_S256x80_o0_60_S256x20 (ix2 r l)
      = bv a (fr t kk r) 2 l := by
  rw [group_apply 40 2 rfl, group_apply 60 3 rfl, pay34_pick hO, pay34_pick hO, lift_chan2 hT, lift_chan2 hT]
  rfl

theorem sqrtv_apply {s : Shape} {φ : FTy} (x : FVec Ideal s φ) (i : s.Idx) : sqrt x i = Ideal.sqrt (x i) := rfl

theorem pay36_apply (hT : ChunkTies a t kk P P1 P2 B R C L) (hO : TableTies a OH BL) (M : FVec Ideal S256x1 .f32) :
    k0_pay36 (k0_pay1 OH) (k0_pay14 L) M (k0_pay16 P) (k0_pay17 P) (k0_pay18 P) (ix2 (0 : Fin 1) (0 : Fin 1))
      = ∑ r : Fin 256, kliftF a (fr t kk r) * (i60 * M (ix2 r (0 : Fin 1))) := by
  unfold k0_pay36
  refine (unit_apply _).trans ((rowSum256_apply _ _).trans ?_)
  refine Finset.sum_congr rfl fun r _ => ?_
  rw [mulf_apply, mulf_apply, broadcast_apply, inv_60]
  refine congrArg (· * (i60 * M (ix2 r (0 : Fin 1)))) ?_
  refine (column_apply _ r).trans ((laneSum20_apply _ _ r).trans ?_)
  unfold kliftF
  refine Finset.sum_congr rfl fun l _ => ?_
  simp only [addf_apply, mulf_apply, subf_apply, divf_apply, broadcast_apply, sqrtv_apply]
  rw [lift_edge0 hT hO r l, lift_edge1 hT hO r l, lift_edge2 hT hO r l,
    lift_target hT 0 0 rfl, lift_target hT 20 1 rfl, lift_target hT 40 2 rfl]
  rw [show (Scalar.ofBits (F := Ideal) .f32 0x00000000#32 : EReal) = 0 from Ideal.ofBits_zero_f32]
  rfl

theorem tripF_lift (a : Args) (t : Fin 32) (k : Fin k0_t1_loop.trips) (v0 : BitVec 32)
    (hv0 : v0 = Scalar.muli (BitVec.ofNat 32 t.val) 4096#32)
    {v34 v37 v40 : Vec Ideal S256x63 .f32} {v43 : Vec Ideal S256x42 .f32} {v46 : Vec Ideal S256x9 .f32}
    {v49 : Vec Ideal S256x3 .f32} {v52 : Vec Ideal S256x60 .f32}
    {OH : Vec Ideal S21x80 .f32} {BL : Vec Ideal S1x20 .f32}
    (hT : ChunkTies a t (chunkOf k) v34 v37 v40 v43 v46 v49 v52) (hO : TableTies a OH BL) (acc : Acc Ideal) :
    (tripF v0 BL OH k v34 v37 v40 v43 v46 v49 v52 acc).2.1 (ix2 (0 : Fin 1) (0 : Fin 1))
      = acc.2.1 (ix2 (0 : Fin 1) (0 : Fin 1))
        + ∑ r : Fin 256, kliftF a (fr t (chunkOf k) r) * (i60 * mask (fr t (chunkOf k) r)) := by
  show k0_pay4 acc.2.1 (k0_pay36 (k0_pay1 OH) (k0_pay14 v52) (k0_pay15 (F := Ideal) v0 0#32 1#32 k)
      (k0_pay16 v34) (k0_pay17 v34) (k0_pay18 v34)) (ix2 (0 : Fin 1) (0 : Fin 1)) = _
  unfold k0_pay4
  rw [addf_apply, pay36_apply hT hO]
  refine congrArg (acc.2.1 (ix2 (0 : Fin 1) (0 : Fin 1)) + ·) (Finset.sum_congr rfl fun r _ => ?_)
  rw [mask15 t k v0 hv0 r]

end Cert.KernelIdeal.Hand

end
-- ==== Proof.KPayBone.lean ====
import proofs.«408326_j73830487818418_3_alg».proof.Proof.KTrip
import proofs.«408326_j73830487818418_3_alg».proof.Proof.KTies
import proofs.«408326_j73830487818418_3_alg».proof.Proof.KPayMask
import proofs.«408326_j73830487818418_3_alg».proof.Proof.KPayOneHot
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Hand

open Idealize.ShloMosaic Idealize.ShloMosaic.ValueIdx
open Cert.KernelIdeal Cert.KernelIdeal.Gen Cert.Spec

theorem inv_20 : Named.named (F := Ideal) Cert.KernelIdeal.κ "inv_20" (φ := .f32) 0x3D4CCCCD#32 = i20 :=
  IdealRules.named_const.ideal_named_scalar _ _ _ _ rfl

theorem endOf_bone0 (a : Args) (l : Fin 20) : endOf a 0 l = a.b0 l := if_pos rfl
theorem endOf_bone1 (a : Args) (l : Fin 20) : endOf a 1 l = a.b1 l := (if_neg (by decide)).trans (if_pos rfl)

section Diff
variable {a : Args} {OH : Vec Ideal S21x80 .f32} {BL : Vec Ideal S1x20 .f32} (hO : TableTies a OH BL)
  (X : FVec Ideal S256x21 .f32) (r : Fin 256) (l : Fin 20)
include hO

theorem diffX_apply : k0_pay31 (F := Ideal) (k0_pay1 OH) X (ix2 r l) = X (ix2 r (a.b0 l)) - X (ix2 r (a.b1 l)) := by
  unfold k0_pay31
  refine (subf_apply _ _ _).trans ?_
  refine congrArg₂ (· - ·) ?_ ?_
  · refine (group_apply 0 0 rfl _ _ r l).trans ?_
    exact (pay30_pick hO X r 0 l).trans (congrArg (fun j => X (ix2 r j)) (endOf_bone0 a l))
  · refine (group_apply 20 1 rfl _ _ r l).trans ?_
    exact (pay30_pick hO X r 1 l).trans (congrArg (fun j => X (ix2 r j)) (endOf_bone1 a l))

theorem diffY_apply : k0_pay33 (F := Ideal) (k0_pay1 OH) X (ix2 r l) = X (ix2 r (a.b0 l)) - X (ix2 r (a.b1 l)) := by
  unfold k0_pay33
  refine (subf_apply _ _ _).trans ?_
  refine congrArg₂ (· - ·) ?_ ?_
  · refine (group_apply 0 0 rfl _ _ r l).trans ?_
    exact (pay32_pick hO X r 0 l).trans (congrArg (fun j => X (ix2 r j)) (endOf_bone0 a l))
  · refine (group_apply 20 1 rfl _ _ r l).trans ?_
    exact (pay32_pick hO X r 1 l).trans (congrArg (fun j => X (ix2 r j)) (endOf_bone1 a l))

theorem diffZ_apply : k0_pay35 (F := Ideal) (k0_pay1 OH) X (ix2 r l) = X (ix2 r (a.b0 l)) - X (ix2 r (a.b1 l)) := by
  unfold k0_pay35
  refine (subf_apply _ _ _).trans ?_
  refine congrArg₂ (· - ·) ?_ ?_
  · refine (group_apply 0 0 rfl _ _ r l).trans ?_
    exact (pay34_pick hO X r 0 l).trans (congrArg (fun j => X (ix2 r j)) (endOf_bone0 a l))
  · refine (group_apply 20 1 rfl _ _ r l).trans ?_
    exact (pay34_pick hO X r 1 l).trans (congrArg (fun j => X (ix2 r j)) (endOf_bone1 a l))

end Diff

theorem bonePay_apply (BL : Vec Ideal S1x20 .f32) (acc : FVec Ideal S1x1 .f32) (Dx Dy Dz : FVec Ideal S256x20 .f32) :
    k0_pay5 (F := Ideal) BL acc Dx Dy Dz (ix2 0 0)
      = acc (ix2 0 0) + ∑ r : Fin 256,
          (∑ l : Fin 20, Spec.sq (BL (ix2 0 l)
            - ((Spec.sq (Dx (ix2 r l)) + Spec.sq (Dy (ix2 r l))) + Spec.sq (Dz (ix2 r l))))) * i20 := by
  unfold k0_pay5
  refine (addf_apply _ _ _).trans ?_
  refine congrArg (acc (ix2 0 0) + ·) ?_
  refine (unit_apply _).trans ?_
  refine (rowSum256_apply _ _).trans ?_
  refine Finset.sum_congr rfl fun r _ => ?_
  refine (mulf_apply _ _ _).trans ?_
  refine congrArg₂ (· * ·) ?_ inv_20
  refine (column_apply _ r).trans ?_
  refine (laneSum20_apply _ _ r).trans ?_
  refine Finset.sum_congr rfl fun l _ => ?_
  refine (mulf_apply _ _ _).trans ?_
  refine congrArg₂ (· * ·) ?_ ?_
  all_goals
    refine (subf_apply _ _ _).trans ?_
    refine congrArg₂ (· - ·) ?_ rfl
    refine (broadcastTo_1b_ab_apply _ _ r l).trans ?_
    rw [shapeCast_self]

section Chunk
variable {a : Args} {t : Fin 32} {kk : Fin 16} {OH : Vec Ideal S21x80 .f32} {BL : Vec Ideal S1x20 .f32}
  {P P1 P2 : Vec Ideal S256x63 .f32} {B : Vec Ideal S256x42 .f32} {R : Vec Ideal S256x9 .f32}
  {C : Vec Ideal S256x3 .f32} {L : Vec Ideal S256x60 .f32}
  (hT : ChunkTies a t kk P P1 P2 B R C L) (hO : TableTies a OH BL) (r : Fin 256) (l : Fin 20)
include hT hO

theorem boneX : k0_pay31 (F := Ideal) (k0_pay1 OH) (k0_pay16 P) (ix2 r l) = dd a (fr t kk r) 0 l := by
  rw [diffX_apply hO, pay16_apply, pay16_apply, hT.hP, hT.hP]; rfl
theorem boneY : k0_pay33 (F := Ideal) (k0_pay1 OH) (k0_pay17 P) (ix2 r l) = dd a (fr t kk r) 1 l := by
  rw [diffY_apply hO, pay17_apply, pay17_apply, hT.hP, hT.hP]; rfl
theorem boneZ : k0_pay35 (F := Ideal) (k0_pay1 OH) (k0_pay18 P) (ix2 r l) = dd a (fr t kk r) 2 l := by
  rw [diffZ_apply hO, pay18_apply, pay18_apply, hT.hP, hT.hP]; rfl

end Chunk

theorem tripF_bone (a : Spec.Args) (t : Fin 32) (k : Fin k0_t1_loop.trips) (v0 : BitVec 32)
    (BL : Vec Ideal S1x20 .f32) (OH : Vec Ideal S21x80 .f32)
    (v34 v37 v40 : Vec Ideal S256x63 .f32) (v43 : Vec Ideal S256x42 .f32) (v46 : Vec Ideal S256x9 .f32)
    (v49 : Vec Ideal S256x3 .f32) (v52 : Vec Ideal S256x60 .f32) (acc : Acc Ideal)
    (hT : ChunkTies a t (chunkOf k) v34 v37 v40 v43 v46 v49 v52) (hO : TableTies a OH BL) :
    (tripF v0 BL OH k v34 v37 v40 v43 v46 v49 v52 acc).2.2.1 (ix2 0 0)
      = acc.2.2.1 (ix2 0 0) + ∑ r : Fin 256, kboneF a (fr t (chunkOf k) r) * i20 := by
  refine (bonePay_apply BL acc.2.2.1 _ _ _).trans ?_
  refine congrArg (acc.2.2.1 (ix2 0 0) + ·) (Finset.sum_congr rfl fun r _ => congrArg (· * i20) ?_)
  unfold kboneF
  refine Finset.sum_congr rfl fun l _ => ?_
  rw [hO.hBL l, boneX hT hO r l, boneY hT hO r l, boneZ hT hO r l]

end Cert.KernelIdeal.Hand

end
-- ==== Proof.KPay6.lean ====
import proofs.«408326_j73830487818418_3_alg».proof.Proof.KTrip
import proofs.«408326_j73830487818418_3_alg».proof.Proof.KPayLayout

noncomputable section

namespace Cert.KernelIdeal.Hand

open Idealize.ShloMosaic Idealize.ShloMosaic.ValueIdx
open Cert.KernelIdeal Cert.KernelIdeal.Gen Cert.Spec

theorem pay6_apply (arg15 : FVec Ideal S1x1 .f32) (v35 v38 v41 : FVec Ideal S256x63 .f32) :
    k0_pay6 arg15 v35 v38 v41 (ix2 0 0) = arg15 (ix2 0 0)
      + ∑ r : Fin 256, (∑ q : Fin 63, sq ((v35 (ix2 r q) - c2 * v38 (ix2 r q)) + v41 (ix2 r q))) * i63 := by
  unfold k0_pay6
  refine congrArg (arg15 (ix2 0 0) + ·) ?_
  refine (shapeCast_a_1a_apply _ _ 0 0).trans ?_
  refine (rowSum_apply _ _ _ _ 0).trans ?_
  refine Finset.sum_congr rfl fun r _ => ?_
  refine congrArg₂ (· * ·) ?_ inv_63
  refine (shapeCast_a_a1_apply _ _ r 0).trans ?_
  refine (laneSum_apply _ _ _ _ r).trans ?_
  rfl

end Cert.KernelIdeal.Hand

end
-- ==== Proof.KPaySmooth.lean ====
import proofs.«408326_j73830487818418_3_alg».proof.Proof.KTrip
import proofs.«408326_j73830487818418_3_alg».proof.Proof.KTies
import proofs.«408326_j73830487818418_3_alg».proof.Proof.KPayMask
import proofs.«408326_j73830487818418_3_alg».proof.Proof.KPayLayout
import proofs.«408326_j73830487818418_3_alg».proof.Proof.KPay6
import Idealize.ShloMosaic.Lib.ValueIdx
import Idealize.ShloMosaic.Lib.Pipeline.Value

noncomputable section

namespace Cert.KernelIdeal.Hand

open Idealize.ShloMosaic Idealize.ShloMosaic.ValueIdx
open Cert.KernelIdeal Cert.KernelIdeal.Gen Cert.Spec

theorem smooth_pay8_eq (v : Vec Ideal S256x63 .f32) : k0_pay8 (F := Ideal) v = v := shapeCast_self v _
theorem smooth_pay9_eq (v : Vec Ideal S256x63 .f32) : k0_pay9 (F := Ideal) v = v := shapeCast_self v _
theorem smooth_pay10_eq (v : Vec Ideal S256x63 .f32) : k0_pay10 (F := Ideal) v = v := shapeCast_self v _

theorem tripF_smooth (a : Spec.Args) (t : Fin 32) (k : Fin k0_t1_loop.trips)
    (v0 : BitVec 32) (BL : Vec Ideal S1x20 .f32) (OH : Vec Ideal S21x80 .f32)
    (v34 v37 v40 : Vec Ideal S256x63 .f32) (v43 : Vec Ideal S256x42 .f32) (v46 : Vec Ideal S256x9 .f32)
    (v49 : Vec Ideal S256x3 .f32) (v52 : Vec Ideal S256x60 .f32) (acc : Acc Ideal)
    (hT : ChunkTies a t (chunkOf k) v34 v37 v40 v43 v46 v49 v52) :
    (tripF v0 BL OH k v34 v37 v40 v43 v46 v49 v52 acc).2.2.2 (ix2 0 0)
      = acc.2.2.2 (ix2 0 0) + ∑ r : Fin 256, ksmoothF a (fr t (chunkOf k) r) * i63 := by
  show k0_pay6 acc.2.2.2 (k0_pay8 v34) (k0_pay9 v37) (k0_pay10 v40) (ix2 0 0) = _
  rw [pay6_apply, smooth_pay8_eq, smooth_pay9_eq, smooth_pay10_eq]
  refine congrArg (acc.2.2.2 (ix2 0 0) + ·) (Finset.sum_congr rfl fun r _ => congrArg (· * i63) ?_)
  rw [sum_q63]
  unfold ksmoothF
  refine Finset.sum_congr rfl fun c _ => Finset.sum_congr rfl fun j _ => ?_
  rw [hT.hP, hT.hP1, hT.hP2]

end Cert.KernelIdeal.Hand

end
-- ==== Proof.KBlockValue.lean ====
import proofs.«408326_j73830487818418_3_alg».proof.Proof.KDefs
import proofs.«408326_j73830487818418_3_alg».proof.Proof.KTrip
import proofs.«408326_j73830487818418_3_alg».proof.Proof.KTies
import proofs.«408326_j73830487818418_3_alg».proof.Proof.ArgsOf
import proofs.«408326_j73830487818418_3_alg».proof.Proof.KPayMask
import proofs.«408326_j73830487818418_3_alg».proof.Proof.KPrelude
import proofs.«408326_j73830487818418_3_alg».proof.Proof.KFrame
import proofs.«408326_j73830487818418_3_alg».proof.Proof.KPayProj
import proofs.«408326_j73830487818418_3_alg».proof.Proof.KPayLift
import proofs.«408326_j73830487818418_3_alg».proof.Proof.KPayBone
import proofs.«408326_j73830487818418_3_alg».proof.Proof.KPaySmooth
import proofs.«408326_j73830487818418_3_alg».proof.Proof.Gen.KernelIdeal.Loops
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.ShloMosaic.Tactic
open Idealize.SL Idealize.SL.Sem
open Cert.KernelIdeal Cert.KernelIdeal.Gen Cert.Spec

variable {F : FTy → Type} [FloatOps F] [Named F] in
set_option maxHeartbeats 400000 in

theorem tripR_eq (𝒱 : Variants) (c : Dev nD) (bd : Option 𝒱.V) (i : grid0.Coords) (arg1 : Memref sig .tc .vmem S4096x63 .f32) (harg1 : arg1.IsWhole) (arg2 : Memref sig .tc .vmem S4096x63 .f32) (harg2 : arg2.IsWhole) (arg3 : Memref sig .tc .vmem S4096x63 .f32) (harg3 : arg3.IsWhole) (arg4 : Memref sig .tc .vmem S4096x42 .f32) (harg4 : arg4.IsWhole) (arg5 : Memref sig .tc .vmem S4096x9 .f32) (harg5 : arg5.IsWhole) (arg6 : Memref sig .tc .vmem S4096x3 .f32) (harg6 : arg6.IsWhole) (arg7 : Memref sig .tc .vmem S4096x60 .f32) (harg7 : arg7.IsWhole) (arg8 : Memref sig .tc .vmem S21x80 .f32) (harg8 : arg8.IsWhole) (arg9 : Memref sig .tc .vmem S1x20 .f32) (harg9 : arg9.IsWhole) (arg10 : Memref sig .tc .vmem S8x128 .f32) (harg10 : arg10.IsWhole) (v0 : BitVec 32) (v1 : Vec F S1x20 .f32) (v3 : Vec F S21x80 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (acc : Acc F) :
    tripR_k0_t1 (F := F) 𝒱 c bd i arg1 harg1 arg2 harg2 arg3 harg3 arg4 harg4 arg5 harg5 arg6 harg6 arg7 harg7 arg8 harg8 arg9 harg9 arg10 harg10 v0 v1 v3 X_arg1 X_arg2 X_arg3 X_arg4 X_arg5 X_arg6 X_arg7 k acc
      = tripF v0 v1 v3 k
      (View.ld (arg1.view.read (Elt F) X_arg1) (Rect.unit (s := S4096x63) (k0_off1 k) S256x63.size (k0_off1_inb k)))
      (View.ld (arg2.view.read (Elt F) X_arg2) (Rect.unit (s := S4096x63) (k0_off1 k) S256x63.size (k0_off1_inb k)))
      (View.ld (arg3.view.read (Elt F) X_arg3) (Rect.unit (s := S4096x63) (k0_off1 k) S256x63.size (k0_off1_inb k)))
      (View.ld (arg4.view.read (Elt F) X_arg4) (Rect.unit (s := S4096x42) (k0_off2 k) S256x42.size (k0_off2_inb k)))
      (View.ld (arg5.view.read (Elt F) X_arg5) (Rect.unit (s := S4096x9) (k0_off3 k) S256x9.size (k0_off3_inb k)))
      (View.ld (arg6.view.read (Elt F) X_arg6) (Rect.unit (s := S4096x3) (k0_off4 k) S256x3.size (k0_off4_inb k)))
      (View.ld (arg7.view.read (Elt F) X_arg7) (Rect.unit (s := S4096x60) (k0_off5 k) S256x60.size (k0_off5_inb k))) acc := by
  unfold tripR_k0_t1 trip_k0_t1
  dsimp only
  sl_unfold_words
  rfl

/-- A load of 256 rows from row 256 k of a 4096-row block reads row 256 k + r at its row r. -/
theorem ld_rows {n : Nat} {Val : EltTy → Type} {e : EltTy} (X : (⟨2, ![4096, n]⟩ : Shape).Idx → Val e)
    (off : Fin 2 → Nat) (k : Nat) (hoff : off = ![256 * k, 0])
    (inb : ∀ a, off a + (![256, n] : Fin 2 → Nat) a ≤ (⟨2, ![4096, n]⟩ : Shape).size a)
    (r : Fin 256) (q : Fin n) (hk : 256 * k + r.val < 4096) :
    View.ld X (Rect.unit (s := ⟨2, ![4096, n]⟩) off ![256, n] inb) (ix2 r q) = X (ix2 ⟨256 * k + r.val, hk⟩ q) := by
  subst hoff
  show X _ = X _
  refine congrArg X (funext fun a => Fin.ext ?_)
  match a with
  | ⟨0, _⟩ => show 256 * k + 1 * r.val = 256 * k + r.val; omega
  | ⟨1, _⟩ => show 0 + 1 * q.val = q.val; omega

section blocks

variable {F : FTy → Type} [FloatOps F] [Named F]
variable (m : (ℓ : Loc nD τ sig) → Buf (Elt F) ℓ)

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem iblk0_apply (c : Dev nD) (t : Fin cfg0.N) (ρ : Fin 4096) (q : Fin 63) (h : 4096 * t.val + ρ.val < 131072) :
    iblk m c 0 t (ix2 ρ q) = V m c main_v1 (ix2 ⟨4096 * t.val + ρ.val, h⟩ q) := by
  have e := idx_facts t
  have e0 : win0_0.index t (0 : Fin 2) = t.val := e.1
  have e1 : win0_0.index t (1 : Fin 2) = 0 := e.2.1
  show V m c main_v1 (((cfg0.win 0).blk t).view.emb (ix2 ρ q)) = V m c main_v1 _
  refine congrArg (V m c main_v1) (funext fun a => Fin.ext ?_)
  match a with
  | ⟨0, _⟩ => show win0_0.index t (0 : Fin 2) * 4096 + 1 * ρ.val = 4096 * t.val + ρ.val; omega
  | ⟨1, _⟩ => show win0_0.index t (1 : Fin 2) * 63 + 1 * q.val = q.val; omega

theorem iblk1_apply (c : Dev nD) (t : Fin cfg0.N) (ρ : Fin 4096) (q : Fin 63) (h : 4096 * t.val + ρ.val < 131072) :
    iblk m c 1 t (ix2 ρ q) = V m c main_v4 (ix2 ⟨4096 * t.val + ρ.val, h⟩ q) := by
  have e := idx_facts t
  have e0 : win0_1.index t (0 : Fin 2) = t.val := e.2.2.1
  have e1 : win0_1.index t (1 : Fin 2) = 0 := e.2.2.2.1
  show V m c main_v4 (((cfg0.win 1).blk t).view.emb (ix2 ρ q)) = V m c main_v4 _
  refine congrArg (V m c main_v4) (funext fun a => Fin.ext ?_)
  match a with
  | ⟨0, _⟩ => show win0_1.index t (0 : Fin 2) * 4096 + 1 * ρ.val = 4096 * t.val + ρ.val; omega
  | ⟨1, _⟩ => show win0_1.index t (1 : Fin 2) * 63 + 1 * q.val = q.val; omega

theorem iblk2_apply (c : Dev nD) (t : Fin cfg0.N) (ρ : Fin 4096) (q : Fin 63) (h : 4096 * t.val + ρ.val < 131072) :
    iblk m c 2 t (ix2 ρ q) = V m c main_v7 (ix2 ⟨4096 * t.val + ρ.val, h⟩ q) := by
  have e := idx_facts t
  have e0 : win0_2.index t (0 : Fin 2) = t.val := e.2.2.2.2.1
  have e1 : win0_2.index t (1 : Fin 2) = 0 := e.2.2.2.2.2.1
  show V m c main_v7 (((cfg0.win 2).blk t).view.emb (ix2 ρ q)) = V m c main_v7 _
  refine congrArg (V m c main_v7) (funext fun a => Fin.ext ?_)
  match a with
  | ⟨0, _⟩ => show win0_2.index t (0 : Fin 2) * 4096 + 1 * ρ.val = 4096 * t.val + ρ.val; omega
  | ⟨1, _⟩ => show win0_2.index t (1 : Fin 2) * 63 + 1 * q.val = q.val; omega

theorem iblk3_apply (c : Dev nD) (t : Fin cfg0.N) (ρ : Fin 4096) (q : Fin 42) (h : 4096 * t.val + ρ.val < 131072) :
    iblk m c 3 t (ix2 ρ q) = V m c main_v8 (ix2 ⟨4096 * t.val + ρ.val, h⟩ q) := by
  have e := idx_facts t
  have e0 : win0_3.index t (0 : Fin 2) = t.val := e.2.2.2.2.2.2.1
  have e1 : win0_3.index t (1 : Fin 2) = 0 := e.2.2.2.2.2.2.2.1
  show V m c main_v8 (((cfg0.win 3).blk t).view.emb (ix2 ρ q)) = V m c main_v8 _
  refine congrArg (V m c main_v8) (funext fun a => Fin.ext ?_)
  match a with
  | ⟨0, _⟩ => show win0_3.index t (0 : Fin 2) * 4096 + 1 * ρ.val = 4096 * t.val + ρ.val; omega
  | ⟨1, _⟩ => show win0_3.index t (1 : Fin 2) * 42 + 1 * q.val = q.val; omega

theorem iblk4_apply (c : Dev nD) (t : Fin cfg0.N) (ρ : Fin 4096) (q : Fin 9) (h : 4096 * t.val + ρ.val < 131072) :
    iblk m c 4 t (ix2 ρ q) = V m c main_v9 (ix2 ⟨4096 * t.val + ρ.val, h⟩ q) := by
  have e := idx_facts t
  have e0 : win0_4.index t (0 : Fin 2) = t.val := e.2.2.2.2.2.2.2.2.1
  have e1 : win0_4.index t (1 : Fin 2) = 0 := e.2.2.2.2.2.2.2.2.2.1
  show V m c main_v9 (((cfg0.win 4).blk t).view.emb (ix2 ρ q)) = V m c main_v9 _
  refine congrArg (V m c main_v9) (funext fun a => Fin.ext ?_)
  match a with
  | ⟨0, _⟩ => show win0_4.index t (0 : Fin 2) * 4096 + 1 * ρ.val = 4096 * t.val + ρ.val; omega
  | ⟨1, _⟩ => show win0_4.index t (1 : Fin 2) * 9 + 1 * q.val = q.val; omega

theorem iblk5_apply (c : Dev nD) (t : Fin cfg0.N) (ρ : Fin 4096) (q : Fin 3) (h : 4096 * t.val + ρ.val < 131072) :
    iblk m c 5 t (ix2 ρ q) = V m c main_v10 (ix2 ⟨4096 * t.val + ρ.val, h⟩ q) := by
  have e := idx_facts t
  have e0 : win0_5.index t (0 : Fin 2) = t.val := e.2.2.2.2.2.2.2.2.2.2.1
  have e1 : win0_5.index t (1 : Fin 2) = 0 := e.2.2.2.2.2.2.2.2.2.2.2.1
  show V m c main_v10 (((cfg0.win 5).blk t).view.emb (ix2 ρ q)) = V m c main_v10 _
  refine congrArg (V m c main_v10) (funext fun a => Fin.ext ?_)
  match a with
  | ⟨0, _⟩ => show win0_5.index t (0 : Fin 2) * 4096 + 1 * ρ.val = 4096 * t.val + ρ.val; omega
  | ⟨1, _⟩ => show win0_5.index t (1 : Fin 2) * 3 + 1 * q.val = q.val; omega

theorem iblk6_apply (c : Dev nD) (t : Fin cfg0.N) (ρ : Fin 4096) (q : Fin 60) (h : 4096 * t.val + ρ.val < 131072) :
    iblk m c 6 t (ix2 ρ q) = V m c main_v11 (ix2 ⟨4096 * t.val + ρ.val, h⟩ q) := by
  have e := idx_facts t
  have e0 : win0_6.index t (0 : Fin 2) = t.val := e.2.2.2.2.2.2.2.2.2.2.2.2.1
  have e1 : win0_6.index t (1 : Fin 2) = 0 := e.2.2.2.2.2.2.2.2.2.2.2.2.2.1
  show V m c main_v11 (((cfg0.win 6).blk t).view.emb (ix2 ρ q)) = V m c main_v11 _
  refine congrArg (V m c main_v11) (funext fun a => Fin.ext ?_)
  match a with
  | ⟨0, _⟩ => show win0_6.index t (0 : Fin 2) * 4096 + 1 * ρ.val = 4096 * t.val + ρ.val; omega
  | ⟨1, _⟩ => show win0_6.index t (1 : Fin 2) * 60 + 1 * q.val = q.val; omega

theorem iblk7_eq (c : Dev nD) (t : Fin cfg0.N) : iblk m c 7 t = V m c main_v28 := by
  have e := idx_facts t
  have e0 : win0_7.index t (0 : Fin 2) = 0 := e.2.2.2.2.2.2.2.2.2.2.2.2.2.2.1
  have e1 : win0_7.index t (1 : Fin 2) = 0 := e.2.2.2.2.2.2.2.2.2.2.2.2.2.2.2.1
  funext y
  show V m c main_v28 (((cfg0.win 7).blk t).view.emb y) = V m c main_v28 y
  refine congrArg (V m c main_v28) (funext fun a => Fin.ext ?_)
  match a with
  | ⟨0, _⟩ => show win0_7.index t (0 : Fin 2) * 21 + 1 * (y 0).val = (y 0).val; omega
  | ⟨1, _⟩ => show win0_7.index t (1 : Fin 2) * 80 + 1 * (y 1).val = (y 1).val; omega

theorem iblk8_eq (c : Dev nD) (t : Fin cfg0.N) : iblk m c 8 t = V m c main_v29 := by
  have e := idx_facts t
  have e0 : win0_8.index t (0 : Fin 2) = 0 := e.2.2.2.2.2.2.2.2.2.2.2.2.2.2.2.2.1
  have e1 : win0_8.index t (1 : Fin 2) = 0 := e.2.2.2.2.2.2.2.2.2.2.2.2.2.2.2.2.2
  funext y
  show V m c main_v29 (((cfg0.win 8).blk t).view.emb y) = V m c main_v29 y
  refine congrArg (V m c main_v29) (funext fun a => Fin.ext ?_)
  match a with
  | ⟨0, _⟩ => show win0_8.index t (0 : Fin 2) * 1 + 1 * (y 0).val = (y 0).val; omega
  | ⟨1, _⟩ => show win0_8.index t (1 : Fin 2) * 20 + 1 * (y 1).val = (y 1).val; omega

end blocks

theorem wordEqZero_bit (n : Nat) (h : n < 2 ^ 32) :
    IntOp.cmpi .eq (BitVec.ofNat 32 n) 0#32 = if n = 0 then 1#1 else 0#1 := by
  by_cases hn : n = 0
  · subst hn; rfl
  · rw [if_neg hn]
    have hne : BitVec.ofNat 32 n ≠ 0#32 := by
      intro e
      have := congrArg BitVec.toNat e
      simp only [BitVec.toNat_ofNat] at this
      have : n % 2 ^ 32 = 0 := this
      omega
    show BitVec.ofBool (BitVec.ofNat 32 n == 0#32) = 0#1
    rw [beq_eq_false_iff_ne.mpr hne]
    rfl

theorem cornerBit_apply (p : Fin 8) (q : Fin 128) :
    andi (cmpi .eq (iota .tc S8x128 32 [0] iota_S8x128_d0_w32) (broadcast S8x128 0#32))
        (cmpi .eq (iota .tc S8x128 32 [1] iota_S8x128_d1_w32) (broadcast S8x128 0#32)) (ix2 p q)
      = if p.val = 0 ∧ q.val = 0 then 1#1 else 0#1 := by
  have hp := p.isLt
  have hq := q.isLt
  show IntOp.andi (IntOp.cmpi .eq (iota .tc S8x128 32 [0] iota_S8x128_d0_w32 (ix2 p q)) 0#32)
      (IntOp.cmpi .eq (iota .tc S8x128 32 [1] iota_S8x128_d1_w32 (ix2 p q)) 0#32) = _
  rw [iota_single_apply, iota_single_apply]
  show IntOp.andi (IntOp.cmpi .eq (BitVec.ofNat 32 p.val) 0#32) (IntOp.cmpi .eq (BitVec.ofNat 32 q.val) 0#32) = _
  rw [wordEqZero_bit _ (by omega), wordEqZero_bit _ (by omega)]
  by_cases h0 : p.val = 0 <;> by_cases h1 : q.val = 0 <;> simp only [h0, h1, if_true, if_false, and_self, and_true, and_false, true_and, false_and] <;> rfl

set_option maxHeartbeats 50000 in

theorem storedTile_apply (a0 a1 a2 a3 : FVec Ideal S1x1 .f32) (p : Fin 8) (q : Fin 128) :
    k0_pay7 (F := Ideal) a0 a1 a2 a3 (ix2 p q)
      = if p.val = 0 ∧ q.val = 0 then
          ((c03 * a0 (ix2 0 0) + c05 * a3 (ix2 0 0)) + c02 * a2 (ix2 0 0)) + c01 * a1 (ix2 0 0)
        else 0 := by
  unfold k0_pay7
  dsimp only
  rw [select_apply, cornerBit_apply]
  by_cases h : p.val = 0 ∧ q.val = 0
  · rw [if_pos h, if_pos h, select_one]
    refine (broadcastTo_apply _ broadcasts_S1x1_S8x128 (ix2 p q) (ix2 (0 : Fin 1) (0 : Fin 1)) (fun ax => ?_)).trans ?_
    · match ax with
      | ⟨0, _⟩ => rfl
      | ⟨1, _⟩ => rfl
    · rw [shapeCast_self]
      rfl
  · rw [if_neg h, if_neg h, select_zero, broadcast_apply]
    exact Ideal.ofBits_zero_f32

def bfr (t : Fin 32) (ρ : Fin 4096) : Fin 131072 := ⟨4096 * t.val + ρ.val, by omega⟩

theorem bfr_chunk (t : Fin 32) (k : Fin k0_t1_loop.trips) (r : Fin 256) (hk : 256 * k.val + r.val < 4096) :
    bfr t ⟨256 * k.val + r.val, hk⟩ = fr t (chunkOf k) r :=
  Fin.ext (by show 4096 * t.val + (256 * k.val + r.val) = 4096 * t.val + 256 * k.val + r.val; omega)

structure BlockTies (a : Args) (t : Fin 32)
    (Y1 Y2 Y3 : Vec Ideal S4096x63 .f32) (Y4 : Vec Ideal S4096x42 .f32) (Y5 : Vec Ideal S4096x9 .f32)
    (Y6 : Vec Ideal S4096x3 .f32) (Y7 : Vec Ideal S4096x60 .f32) : Prop where
  hP : ∀ (ρ : Fin 4096) (c : Fin 3) (j : Fin 21), Y1 (ix2 ρ (q63 c j)) = a.pose (row (bfr t ρ)) c j
  hP1 : ∀ (ρ : Fin 4096) (c : Fin 3) (j : Fin 21), Y2 (ix2 ρ (q63 c j)) = a.pose (prev1 (bfr t ρ)) c j
  hP2 : ∀ (ρ : Fin 4096) (c : Fin 3) (j : Fin 21), Y3 (ix2 ρ (q63 c j)) = a.pose (prev2 (bfr t ρ)) c j
  hB : ∀ (ρ : Fin 4096) (c : Fin 2) (j : Fin 21), Y4 (ix2 ρ (q42 c j)) = a.b2d (bfr t ρ) c j
  hR : ∀ (ρ : Fin 4096) (i j : Fin 3), Y5 (ix2 ρ (q9 i j)) = a.rot (bfr t ρ) i j
  hC : ∀ (ρ : Fin 4096) (c : Fin 3), Y6 (ix2 ρ (c)) = a.cam (bfr t ρ) c
  hL : ∀ (ρ : Fin 4096) (c : Fin 3) (l : Fin 20), Y7 (ix2 ρ (q60 c l)) = a.lift (bfr t ρ) c l

theorem chunkTies_of_blockTies {a : Args} {t : Fin 32}
    {Y1 Y2 Y3 : Vec Ideal S4096x63 .f32} {Y4 : Vec Ideal S4096x42 .f32} {Y5 : Vec Ideal S4096x9 .f32}
    {Y6 : Vec Ideal S4096x3 .f32} {Y7 : Vec Ideal S4096x60 .f32}
    (hb : BlockTies a t Y1 Y2 Y3 Y4 Y5 Y6 Y7) (k : Fin k0_t1_loop.trips) :
    ChunkTies a t (chunkOf k)
      (View.ld Y1 (Rect.unit (s := S4096x63) (k0_off1 k) S256x63.size (k0_off1_inb k)))
      (View.ld Y2 (Rect.unit (s := S4096x63) (k0_off1 k) S256x63.size (k0_off1_inb k)))
      (View.ld Y3 (Rect.unit (s := S4096x63) (k0_off1 k) S256x63.size (k0_off1_inb k)))
      (View.ld Y4 (Rect.unit (s := S4096x42) (k0_off2 k) S256x42.size (k0_off2_inb k)))
      (View.ld Y5 (Rect.unit (s := S4096x9) (k0_off3 k) S256x9.size (k0_off3_inb k)))
      (View.ld Y6 (Rect.unit (s := S4096x3) (k0_off4 k) S256x3.size (k0_off4_inb k)))
      (View.ld Y7 (Rect.unit (s := S4096x60) (k0_off5 k) S256x60.size (k0_off5_inb k))) := by
  have h16 : k.val < 16 := (chunkOf k).isLt
  refine ⟨?_, ?_, ?_, ?_, ?_, ?_, ?_⟩
  · intro r c j
    have hk : 256 * k.val + r.val < 4096 := by have := r.isLt; omega
    refine (ld_rows Y1 (k0_off1 k) k.val (k0_off1_eq k) (k0_off1_inb k) r (q63 c j) hk).trans ?_
    rw [hb.hP ⟨256 * k.val + r.val, hk⟩, bfr_chunk t k r hk]
  · intro r c j
    have hk : 256 * k.val + r.val < 4096 := by have := r.isLt; omega
    refine (ld_rows Y2 (k0_off1 k) k.val (k0_off1_eq k) (k0_off1_inb k) r (q63 c j) hk).trans ?_
    rw [hb.hP1 ⟨256 * k.val + r.val, hk⟩, bfr_chunk t k r hk]
  · intro r c j
    have hk : 256 * k.val + r.val < 4096 := by have := r.isLt; omega
    refine (ld_rows Y3 (k0_off1 k) k.val (k0_off1_eq k) (k0_off1_inb k) r (q63 c j) hk).trans ?_
    rw [hb.hP2 ⟨256 * k.val + r.val, hk⟩, bfr_chunk t k r hk]
  · intro r c j
    have hk : 256 * k.val + r.val < 4096 := by have := r.isLt; omega
    refine (ld_rows Y4 (k0_off2 k) k.val (k0_off2_eq k) (k0_off2_inb k) r (q42 c j) hk).trans ?_
    rw [hb.hB ⟨256 * k.val + r.val, hk⟩, bfr_chunk t k r hk]
  · intro r i j
    have hk : 256 * k.val + r.val < 4096 := by have := r.isLt; omega
    refine (ld_rows Y5 (k0_off3 k) k.val (k0_off3_eq k) (k0_off3_inb k) r (q9 i j) hk).trans ?_
    rw [hb.hR ⟨256 * k.val + r.val, hk⟩, bfr_chunk t k r hk]
  · intro r c
    have hk : 256 * k.val + r.val < 4096 := by have := r.isLt; omega
    refine (ld_rows Y6 (k0_off4 k) k.val (k0_off4_eq k) (k0_off4_inb k) r (c) hk).trans ?_
    rw [hb.hC ⟨256 * k.val + r.val, hk⟩, bfr_chunk t k r hk]
  · intro r c l
    have hk : 256 * k.val + r.val < 4096 := by have := r.isLt; omega
    refine (ld_rows Y7 (k0_off5 k) k.val (k0_off5_eq k) (k0_off5_inb k) r (q60 c l) hk).trans ?_
    rw [hb.hL ⟨256 * k.val + r.val, hk⟩, bfr_chunk t k r hk]

/-- Over one trip each carried sum, at its one entry, grows by its chunk's term. -/
abbrev TripGrowth (a : Args) (t : Fin 32) (v0 : BitVec 32) (BL : Vec Ideal S1x20 .f32) (OH : Vec Ideal S21x80 .f32) : Prop :=
  ∀ (k : Fin k0_t1_loop.trips) (v34 v37 v40 : Vec Ideal S256x63 .f32) (v43 : Vec Ideal S256x42 .f32) (v46 : Vec Ideal S256x9 .f32)
    (v49 : Vec Ideal S256x3 .f32) (v52 : Vec Ideal S256x60 .f32) (acc : Acc Ideal),
    ChunkTies a t (chunkOf k) v34 v37 v40 v43 v46 v49 v52 →
    (tripF v0 BL OH k v34 v37 v40 v43 v46 v49 v52 acc).1 (ix2 0 0)
        = acc.1 (ix2 0 0) + ∑ r : Fin 256, kprojF a (fr t (chunkOf k) r) * (i42 * mask (fr t (chunkOf k) r))
    ∧ (tripF v0 BL OH k v34 v37 v40 v43 v46 v49 v52 acc).2.1 (ix2 0 0)
        = acc.2.1 (ix2 0 0) + ∑ r : Fin 256, kliftF a (fr t (chunkOf k) r) * (i60 * mask (fr t (chunkOf k) r))
    ∧ (tripF v0 BL OH k v34 v37 v40 v43 v46 v49 v52 acc).2.2.1 (ix2 0 0)
        = acc.2.2.1 (ix2 0 0) + ∑ r : Fin 256, kboneF a (fr t (chunkOf k) r) * i20
    ∧ (tripF v0 BL OH k v34 v37 v40 v43 v46 v49 v52 acc).2.2.2 (ix2 0 0)
        = acc.2.2.2 (ix2 0 0) + ∑ r : Fin 256, ksmoothF a (fr t (chunkOf k) r) * i63

theorem trips16 : k0_t1_loop.trips = 16 := by decide

section loop

variable (𝒱 : Variants) (c : Dev nD) (bd : Option 𝒱.V) (i : grid0.Coords) (arg1 : Memref sig .tc .vmem S4096x63 .f32) (harg1 : arg1.IsWhole) (arg2 : Memref sig .tc .vmem S4096x63 .f32) (harg2 : arg2.IsWhole) (arg3 : Memref sig .tc .vmem S4096x63 .f32) (harg3 : arg3.IsWhole) (arg4 : Memref sig .tc .vmem S4096x42 .f32) (harg4 : arg4.IsWhole) (arg5 : Memref sig .tc .vmem S4096x9 .f32) (harg5 : arg5.IsWhole) (arg6 : Memref sig .tc .vmem S4096x3 .f32) (harg6 : arg6.IsWhole) (arg7 : Memref sig .tc .vmem S4096x60 .f32) (harg7 : arg7.IsWhole) (arg8 : Memref sig .tc .vmem S21x80 .f32) (harg8 : arg8.IsWhole) (arg9 : Memref sig .tc .vmem S1x20 .f32) (harg9 : arg9.IsWhole) (arg10 : Memref sig .tc .vmem S8x128 .f32) (harg10 : arg10.IsWhole)
  (v0 : BitVec 32) (BL : Vec Ideal S1x20 .f32) (OH : Vec Ideal S21x80 .f32)
  (Y1 Y2 Y3 : Vec Ideal S4096x63 .f32) (Y4 : Vec Ideal S4096x42 .f32) (Y5 : Vec Ideal S4096x9 .f32)
  (Y6 : Vec Ideal S4096x3 .f32) (Y7 : Vec Ideal S4096x60 .f32)

local notation "ST" => st_k0_t1 (F := Ideal) 𝒱 c bd i arg1 harg1 arg2 harg2 arg3 harg3 arg4 harg4 arg5 harg5 arg6 harg6 arg7 harg7 arg8 harg8 arg9 harg9 arg10 harg10 v0 BL OH (harg1.unread (Val := Elt Ideal) Y1) (harg2.unread (Val := Elt Ideal) Y2) (harg3.unread (Val := Elt Ideal) Y3) (harg4.unread (Val := Elt Ideal) Y4) (harg5.unread (Val := Elt Ideal) Y5) (harg6.unread (Val := Elt Ideal) Y6) (harg7.unread (Val := Elt Ideal) Y7) (acc0 (F := Ideal))

set_option maxHeartbeats 400000 in

theorem st_step (k : Fin k0_t1_loop.trips) :
    ST (k.val + 1) = tripF v0 BL OH k
      (View.ld Y1 (Rect.unit (s := S4096x63) (k0_off1 k) S256x63.size (k0_off1_inb k)))
      (View.ld Y2 (Rect.unit (s := S4096x63) (k0_off1 k) S256x63.size (k0_off1_inb k)))
      (View.ld Y3 (Rect.unit (s := S4096x63) (k0_off1 k) S256x63.size (k0_off1_inb k)))
      (View.ld Y4 (Rect.unit (s := S4096x42) (k0_off2 k) S256x42.size (k0_off2_inb k)))
      (View.ld Y5 (Rect.unit (s := S4096x9) (k0_off3 k) S256x9.size (k0_off3_inb k)))
      (View.ld Y6 (Rect.unit (s := S4096x3) (k0_off4 k) S256x3.size (k0_off4_inb k)))
      (View.ld Y7 (Rect.unit (s := S4096x60) (k0_off5 k) S256x60.size (k0_off5_inb k))) (ST k.val) := by
  rw [st_k0_t1_succ, tripR_eq]
  simp only [Memref.IsWhole.read_unread]

/-- After n trips each carried sum is the sum of its terms over the chunks below n: induction on n. -/
theorem st_sums (a : Args) (t : Fin 32) (hb : BlockTies a t Y1 Y2 Y3 Y4 Y5 Y6 Y7)
    (hg : TripGrowth a t v0 BL OH)
    (n : ℕ) (hn : n ≤ 16) (hn' : n ≤ k0_t1_loop.trips) :
    (ST n).1 (ix2 0 0) = ∑ k : Fin n, ∑ r : Fin 256, kprojF a (fr t (Fin.castLE hn k) r) * (i42 * mask (fr t (Fin.castLE hn k) r))
    ∧ (ST n).2.1 (ix2 0 0) = ∑ k : Fin n, ∑ r : Fin 256, kliftF a (fr t (Fin.castLE hn k) r) * (i60 * mask (fr t (Fin.castLE hn k) r))
    ∧ (ST n).2.2.1 (ix2 0 0) = ∑ k : Fin n, ∑ r : Fin 256, kboneF a (fr t (Fin.castLE hn k) r) * i20
    ∧ (ST n).2.2.2 (ix2 0 0) = ∑ k : Fin n, ∑ r : Fin 256, ksmoothF a (fr t (Fin.castLE hn k) r) * i63 := by
  induction n with
  | zero =>
    simp only [Finset.univ_eq_empty, Finset.sum_empty]
    have hz : k0_pay2 (F := Ideal) (ix2 0 0) = 0 := Ideal.ofBits_zero_f32
    exact ⟨hz, hz, hz, hz⟩
  | succ n ih =>
    have hlt : n < k0_t1_loop.trips := hn'
    obtain ⟨ih1, ih2, ih3, ih4⟩ := ih (Nat.le_of_succ_le hn) (Nat.le_of_succ_le hn')
    have hstep : ST (n + 1) = _ := st_step 𝒱 c bd i arg1 harg1 arg2 harg2 arg3 harg3 arg4 harg4 arg5 harg5 arg6 harg6 arg7 harg7 arg8 harg8 arg9 harg9 arg10 harg10 v0 BL OH Y1 Y2 Y3 Y4 Y5 Y6 Y7 ⟨n, hlt⟩
    have hct := chunkTies_of_blockTies hb ⟨n, hlt⟩
    have hco : chunkOf ⟨n, hlt⟩ = Fin.castLE hn (Fin.last n) := Fin.ext rfl
    rw [hstep]
    refine ⟨?_, ?_, ?_, ?_⟩
    · conv_rhs => rw [Fin.sum_univ_castSucc]
      rw [(hg ⟨n, hlt⟩ _ _ _ _ _ _ _ _ hct).1, ih1, hco]; rfl
    · conv_rhs => rw [Fin.sum_univ_castSucc]
      rw [(hg ⟨n, hlt⟩ _ _ _ _ _ _ _ _ hct).2.1, ih2, hco]; rfl
    · conv_rhs => rw [Fin.sum_univ_castSucc]
      rw [(hg ⟨n, hlt⟩ _ _ _ _ _ _ _ _ hct).2.2.1, ih3, hco]; rfl
    · conv_rhs => rw [Fin.sum_univ_castSucc]
      rw [(hg ⟨n, hlt⟩ _ _ _ _ _ _ _ _ hct).2.2.2, ih4, hco]; rfl

end loop

section loop

variable (𝒱 : Variants) (c : Dev nD) (bd : Option 𝒱.V) (i : grid0.Coords) (arg1 : Memref sig .tc .vmem S4096x63 .f32) (harg1 : arg1.IsWhole) (arg2 : Memref sig .tc .vmem S4096x63 .f32) (harg2 : arg2.IsWhole) (arg3 : Memref sig .tc .vmem S4096x63 .f32) (harg3 : arg3.IsWhole) (arg4 : Memref sig .tc .vmem S4096x42 .f32) (harg4 : arg4.IsWhole) (arg5 : Memref sig .tc .vmem S4096x9 .f32) (harg5 : arg5.IsWhole) (arg6 : Memref sig .tc .vmem S4096x3 .f32) (harg6 : arg6.IsWhole) (arg7 : Memref sig .tc .vmem S4096x60 .f32) (harg7 : arg7.IsWhole) (arg8 : Memref sig .tc .vmem S21x80 .f32) (harg8 : arg8.IsWhole) (arg9 : Memref sig .tc .vmem S1x20 .f32) (harg9 : arg9.IsWhole) (arg10 : Memref sig .tc .vmem S8x128 .f32) (harg10 : arg10.IsWhole)
  (v0 : BitVec 32) (BL : Vec Ideal S1x20 .f32) (OH : Vec Ideal S21x80 .f32)
  (Y1 Y2 Y3 : Vec Ideal S4096x63 .f32) (Y4 : Vec Ideal S4096x42 .f32) (Y5 : Vec Ideal S4096x9 .f32)
  (Y6 : Vec Ideal S4096x3 .f32) (Y7 : Vec Ideal S4096x60 .f32)

local notation "ST" => st_k0_t1 (F := Ideal) 𝒱 c bd i arg1 harg1 arg2 harg2 arg3 harg3 arg4 harg4 arg5 harg5 arg6 harg6 arg7 harg7 arg8 harg8 arg9 harg9 arg10 harg10 v0 BL OH (harg1.unread (Val := Elt Ideal) Y1) (harg2.unread (Val := Elt Ideal) Y2) (harg3.unread (Val := Elt Ideal) Y3) (harg4.unread (Val := Elt Ideal) Y4) (harg5.unread (Val := Elt Ideal) Y5) (harg6.unread (Val := Elt Ideal) Y6) (harg7.unread (Val := Elt Ideal) Y7) (acc0 (F := Ideal))

/-- The tile stored after the sixteen trips: the block's weighted partial sum in the corner, zero elsewhere. -/
theorem carried_value (a : Args) (t : Fin 32) (hb : BlockTies a t Y1 Y2 Y3 Y4 Y5 Y6 Y7)
    (hg : TripGrowth a t v0 BL OH)
    (N : ℕ) (hN : N = k0_t1_loop.trips)
    [inst : ∀ y : S8x128.Idx, Decidable (y = ix2 0 0)] :
    k0_pay7 (F := Ideal) (ST N).1 (ST N).2.1 (ST N).2.2.1 (ST N).2.2.2
      = fun y => if y = ix2 0 0 then KBlock a t else 0 := by
  have h16 : N = 16 := hN.trans trips16
  subst h16
  obtain ⟨s1, s2, s3, s4⟩ := st_sums 𝒱 c bd i arg1 harg1 arg2 harg2 arg3 harg3 arg4 harg4 arg5 harg5 arg6 harg6 arg7 harg7 arg8 harg8 arg9 harg9 arg10 harg10 v0 BL OH Y1 Y2 Y3 Y4 Y5 Y6 Y7 a t hb hg
    16 (Nat.le_refl 16) (Nat.le_of_eq hN)
  funext y
  obtain ⟨p, q, rfl⟩ : ∃ (p : Fin 8) (q : Fin 128), y = ix2 p q := ⟨y 0, y 1, eq_ix2 y⟩
  rw [storedTile_apply, s1, s2, s3, s4]
  by_cases h : p.val = 0 ∧ q.val = 0
  · obtain ⟨hp, hq⟩ := h
    obtain rfl : p = 0 := Fin.ext hp
    obtain rfl : q = 0 := Fin.ext hq
    rw [if_pos ⟨rfl, rfl⟩, if_pos rfl]
    rfl
  · rw [if_neg h, if_neg]
    intro e
    exact h ⟨congrArg Fin.val (congrFun e 0), congrArg Fin.val (congrFun e 1)⟩

end loop

section point

variable (m : (ℓ : Loc nD τ sig) → Buf (Elt Ideal) ℓ)

theorem coords_val : ∀ t : Fin cfg0.N, ((grid0.coords t) 0).val = t.val :=
  (by decide +kernel : ∀ t : Fin grid0.N, ((grid0.coords t) 0).val = t.val)

theorem readAt_whole_unread {S : Shape} (arg : Memref sig .tc .vmem S .f32) (h : arg.IsWhole) (Y : Vec Ideal S .f32)
    {off : Fin S.rank → Nat} (hz : off = fun _ => 0) (inb : ∀ a, off a + S.size a ≤ S.size a) :
    View.readAt (Elt Ideal) arg.view (Rect.unit off S.size inb).toLoadRect (h.unread (Val := Elt Ideal) Y) = Y := by
  rw [View.readAt_eq_ld, h.read_unread, View.ld_unit_zero hz]

theorem hz2 : (![0, 0] : Fin 2 → Nat) = fun _ => 0 := funext fun a => by fin_cases a <;> rfl

theorem blockTies_of_arrays (a : Args) (c : Dev nD) (t : Fin cfg0.N)
    (hA : ArrayTies a (V m c main_v1) (V m c main_v4) (V m c main_v7) (V m c main_v8) (V m c main_v9)
      (V m c main_v10) (V m c main_v11)) :
    BlockTies a (Fin.cast N_0 t) (iblk m c 0 t) (iblk m c 1 t) (iblk m c 2 t) (iblk m c 3 t) (iblk m c 4 t)
      (iblk m c 5 t) (iblk m c 6 t) := by
  have h32 : t.val < 32 := (Fin.cast N_0 t).isLt
  refine ⟨?_, ?_, ?_, ?_, ?_, ?_, ?_⟩
  · intro ρ cc j
    have h : 4096 * t.val + ρ.val < 131072 := by have := ρ.isLt; omega
    exact (iblk0_apply m c t ρ (q63 cc j) h).trans (hA.hP ⟨_, h⟩ cc j)
  · intro ρ cc j
    have h : 4096 * t.val + ρ.val < 131072 := by have := ρ.isLt; omega
    exact (iblk1_apply m c t ρ (q63 cc j) h).trans (hA.hP1 ⟨_, h⟩ cc j)
  · intro ρ cc j
    have h : 4096 * t.val + ρ.val < 131072 := by have := ρ.isLt; omega
    exact (iblk2_apply m c t ρ (q63 cc j) h).trans (hA.hP2 ⟨_, h⟩ cc j)
  · intro ρ cc j
    have h : 4096 * t.val + ρ.val < 131072 := by have := ρ.isLt; omega
    exact (iblk3_apply m c t ρ (q42 cc j) h).trans (hA.hB ⟨_, h⟩ cc j)
  · intro ρ i j
    have h : 4096 * t.val + ρ.val < 131072 := by have := ρ.isLt; omega
    exact (iblk4_apply m c t ρ (q9 i j) h).trans (hA.hR ⟨_, h⟩ i j)
  · intro ρ cc
    have h : 4096 * t.val + ρ.val < 131072 := by have := ρ.isLt; omega
    exact (iblk5_apply m c t ρ cc h).trans (hA.hC ⟨_, h⟩ cc)
  · intro ρ cc l
    have h : 4096 * t.val + ρ.val < 131072 := by have := ρ.isLt; omega
    exact (iblk6_apply m c t ρ (q60 cc l) h).trans (hA.hL ⟨_, h⟩ cc l)

/-- What grid point t stores is block t's weighted partial sum in the corner entry and zero elsewhere. -/
theorem block_value (c : Dev nD) (t : Fin cfg0.N) (a : Spec.Args)
    (hA : ArrayTies a (V m c main_v1) (V m c main_v4) (V m c main_v7) (V m c main_v8) (V m c main_v9)
      (V m c main_v10) (V m c main_v11))
    (hT : TableTies a (V m c main_v28) (V m c main_v29))
    [inst : ∀ y : S8x128.Idx, Decidable (y = ix2 0 0)] :
    k0_pay7 (F := Ideal) (accAt m c t).1 (accAt m c t).2.1 (accAt m c t).2.2.1 (accAt m c t).2.2.2
      = fun y => if y = ix2 0 0 then Spec.KBlock a (Fin.cast N_0 t) else 0 := by
  have hv0 : Scalar.muli (BitVec.ofNat 32 ((grid0.coords t) 0).val) 4096#32
      = Scalar.muli (BitVec.ofNat 32 (Fin.cast N_0 t).val) 4096#32 := by rw [coords_val t]; rfl
  have e8 : View.readAt (Elt Ideal) (ms8 t).view (Rect.unit (s := S1x20) ![0, 0] S1x20.size inb_S1x20_S1x20_0_0).toLoadRect
      ((hs8 t).unread (iblk m c 8 t)) = V m c main_v29 :=
    (readAt_whole_unread (ms8 t) (hs8 t) (iblk m c 8 t) hz2 inb_S1x20_S1x20_0_0).trans (iblk8_eq m c t)
  have e7 : View.readAt (Elt Ideal) (ms7 t).view (Rect.unit (s := S21x80) ![0, 0] S21x80.size inb_S21x80_S21x80_0_0).toLoadRect
      ((hs7 t).unread (iblk m c 7 t)) = V m c main_v28 :=
    (readAt_whole_unread (ms7 t) (hs7 t) (iblk m c 7 t) hz2 inb_S21x80_S21x80_0_0).trans (iblk7_eq m c t)
  have hO' : TableTies a
      (View.readAt (Elt Ideal) (ms7 t).view (Rect.unit (s := S21x80) ![0, 0] S21x80.size inb_S21x80_S21x80_0_0).toLoadRect
        ((hs7 t).unread (iblk m c 7 t)))
      (View.readAt (Elt Ideal) (ms8 t).view (Rect.unit (s := S1x20) ![0, 0] S1x20.size inb_S1x20_S1x20_0_0).toLoadRect
        ((hs8 t).unread (iblk m c 8 t))) := by
    rw [e7, e8]; exact hT
  unfold accAt
  exact carried_value Variants.none c none (grid0.coords t) (ms0 t) (hs0 t) (ms1 t) (hs1 t) (ms2 t) (hs2 t) (ms3 t) (hs3 t)
    (ms4 t) (hs4 t) (ms5 t) (hs5 t) (ms6 t) (hs6 t) (ms7 t) (hs7 t) (ms8 t) (hs8 t) (ms9 t) (hs9 t)
    (Scalar.muli (BitVec.ofNat 32 ((grid0.coords t) 0).val) 4096#32)
    (View.readAt (Elt Ideal) (ms8 t).view (Rect.unit (s := S1x20) ![0, 0] S1x20.size inb_S1x20_S1x20_0_0).toLoadRect ((hs8 t).unread (iblk m c 8 t)))
    (View.readAt (Elt Ideal) (ms7 t).view (Rect.unit (s := S21x80) ![0, 0] S21x80.size inb_S21x80_S21x80_0_0).toLoadRect ((hs7 t).unread (iblk m c 7 t)))
    (iblk m c 0 t) (iblk m c 1 t) (iblk m c 2 t) (iblk m c 3 t) (iblk m c 4 t) (iblk m c 5 t) (iblk m c 6 t)
    a (Fin.cast N_0 t) (blockTies_of_arrays m a c t hA)
    (fun k v34 v37 v40 v43 v46 v49 v52 acc hC =>
      ⟨tripF_proj a (Fin.cast N_0 t) k _ hv0 _ _ v34 v37 v40 v43 v46 v49 v52 hC acc,
       tripF_lift a (Fin.cast N_0 t) k _ hv0 hC hO' acc,
       tripF_bone a (Fin.cast N_0 t) k _ _ _ v34 v37 v40 v43 v46 v49 v52 acc hC hO',
       tripF_smooth a (Fin.cast N_0 t) k _ _ _ v34 v37 v40 v43 v46 v49 v52 acc hC⟩)
    k0_t1_loop.trips rfl

end point

end Cert.KernelIdeal.Hand

end
-- ==== Proof.KValue.lean ====
import proofs.«408326_j73830487818418_3_alg».proof.Proof.KArray
import proofs.«408326_j73830487818418_3_alg».proof.Proof.KFrame
import proofs.«408326_j73830487818418_3_alg».proof.Proof.KPrelude
import proofs.«408326_j73830487818418_3_alg».proof.Proof.KTable
import proofs.«408326_j73830487818418_3_alg».proof.Proof.KBlockValue

noncomputable section

open scoped BigOperators

namespace Cert.KernelIdeal.Hand

open Idealize.ShloMosaic Idealize.ShloMosaic.TcCoe Idealize.ShloMosaic.ValueIdx
open Idealize.SL Idealize.SL.RA Idealize.SL.Sem
open Cert.KernelIdeal Cert.KernelIdeal.Gen Cert.Spec
open Idealize.ShloMosaic.Pipeline (Dat)

variable (m : (ℓ : Loc nD τ sig) → Buf (Elt Ideal) ℓ)

theorem table_ties (c : Dev nD)
    (h6 : InRange (m ((c.tc : Thread nD τ).loc main_arg6))) (h7 : InRange (m ((c.tc : Thread nD τ).loc main_arg7))) :
    TableTies (argsAt m c) (V m c main_v28) (V m c main_v29) :=
  ⟨fun j s l => table_oh m c h6 h7 j s l, blen_tie m c⟩

/-- The run ends with the kernel's loss, the sum over the 32 blocks of each block's weighted partial sums, in the scalar result, and the arguments as launched. -/
theorem run_value (ρ : Dev nD → PrngReg)
    (h6 : ∀ c : Dev nD, InRange (m ((c.tc : Thread nD τ).loc main_arg6)))
    (h7 : ∀ c : Dev nD, InRange (m ((c.tc : Thread nD τ).loc main_arg7))) :
    θ_run defs (onTc (τ := τ) (main (F := Ideal))) ⟨m, fun _ => 0, ρ⟩ (fun r => ∀ c : Dev nD,
      r.2.mem ((c.tc : Thread nD τ).loc main_v31) = (fun _ => KLoss (argsAt m c))
      ∧ KeptAt m r c) :=
  (θ_run defs _ _).mono (fun r h c =>
    ⟨result_of_post_ite m (dats m) (fun c t => KBlock (argsAt m c) t) (out9 m) (after9 m)
        (fun c t => (out9_eq m c t).trans
          (block_value m c t (argsAt m c) (array_ties m c) (table_ties m c (h6 c) (h7 c)))) r h c,
      kept_args m (dats m) r h c⟩) (run_main m ρ)

end Cert.KernelIdeal.Hand

end
-- ==== Proof.Consts.lean ====
import proofs.«408326_j73830487818418_3_alg».proof.Proof.Spec
import Mathlib.Data.EReal.Basic

noncomputable section

namespace Cert.Spec

open Idealize.ShloMosaic

theorem c2_eq : c2 = ((2 : ℝ) : EReal) := by
  simp [Ideal.ofBits, Ideal.ieee, -EReal.coe_mul]; norm_num

theorem c42_eq : c42 = ((42 : ℝ) : EReal) := by
  simp [Ideal.ofBits, Ideal.ieee, -EReal.coe_mul]; norm_num

theorem c60_eq : c60 = ((60 : ℝ) : EReal) := by
  simp [Ideal.ofBits, Ideal.ieee, -EReal.coe_mul]; norm_num

theorem c63_eq : c63 = ((63 : ℝ) : EReal) := by
  simp [Ideal.ofBits, Ideal.ieee, -EReal.coe_mul]; norm_num

theorem c20_eq : c20 = ((20 : ℝ) : EReal) := by
  simp [Ideal.ofBits, Ideal.ieee, -EReal.coe_mul]; norm_num

theorem c03_real : 0 ≤ c03 ∧ c03 ≠ ⊤ := by simp [Ideal.ofBits, Ideal.ieee, -EReal.coe_mul]
theorem c05_real : 0 ≤ c05 ∧ c05 ≠ ⊤ := by simp [Ideal.ofBits, Ideal.ieee, -EReal.coe_mul]
theorem c02_real : 0 ≤ c02 ∧ c02 ≠ ⊤ := by simp [Ideal.ofBits, Ideal.ieee, -EReal.coe_mul]
theorem c01_real : 0 ≤ c01 ∧ c01 ≠ ⊤ := by simp [Ideal.ofBits, Ideal.ieee, -EReal.coe_mul]

theorem inf_eq : Ideal.ofBits .f32 0x7F800000#32 = (⊤ : EReal) := by
  simp [Ideal.ofBits, Ideal.ieee]

end Cert.Spec

end
-- ==== Proof.KPre.lean ====
import proofs.«408326_j73830487818418_3_alg».proof.Defs
import proofs.«408326_j73830487818418_3_alg».proof.Proof.ArgsOf
import proofs.«408326_j73830487818418_3_alg».proof.Proof.Consts
import proofs.«408326_j73830487818418_3_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.Hand

open Idealize.ShloMosaic Idealize.ShloMosaic.TcCoe
open Idealize.SL Idealize.SL.Sem
open Cert.KernelIdeal

instance : Subsingleton Cert.Pre_finite_inputs.S_.Idx := ⟨fun a b => funext fun d => d.elim0⟩

theorem real_of_abs_lt_inf (x : EReal)
    (h : Ideal.cmp .olt (max x (-x)) (Ideal.ofBits .f32 0x7F800000#32) = 1#1) : ∃ r : ℝ, x = (r : EReal) := by
  rw [Spec.inf_eq] at h
  induction x using EReal.rec with
  | bot => simp [Ideal.cmp] at h
  | coe r => exact ⟨r, rfl⟩
  | top => simp [Ideal.cmp] at h

theorem allReal_of_all {S : Shape} (x : S.Idx → EReal)
    (bc : Cert.Pre_finite_inputs.S_.BroadcastsInDim S (![] : Fin 0 → Fin S.rank)) {axes : List (Fin S.rank)}
    (red : S.ReducesTo axes Cert.Pre_finite_inputs.S_) (hS : 0 < Cert.Pre_finite_inputs.S_.numel)
    (init : IVec Cert.Pre_finite_inputs.S_ 1) (j : Cert.Pre_finite_inputs.S_.Idx)
    (h : Host.reduce IntOp.andi
          (cmpf (F := Ideal) (φ := .f32) .olt (Host.absf (F := Ideal) (φ := .f32) x)
            (broadcastInDim S ![] bc (constant (F := Ideal) Cert.Pre_finite_inputs.S_ .f32 0x7F800000#32)))
          init red hS j = 1#1) :
    Spec.AllReal x := by
  intro i
  exact real_of_abs_lt_inf (x i) (Host.reduce_andi_all _ init red hS j h i)

theorem inRange_of_all (x : Spec.T6.Idx → BitVec 32)
    (bc : Cert.Pre_finite_inputs.S_.BroadcastsInDim Spec.T6 (![] : Fin 0 → Fin Spec.T6.rank)) {axes : List (Fin Spec.T6.rank)}
    (red : Spec.T6.ReducesTo axes Cert.Pre_finite_inputs.S_) (hS : 0 < Cert.Pre_finite_inputs.S_.numel)
    (init : IVec Cert.Pre_finite_inputs.S_ 1) (j : Cert.Pre_finite_inputs.S_.Idx)
    (h : Host.reduce IntOp.andi
          (andi (cmpi .sge x (broadcastInDim Spec.T6 ![] bc (constantI Cert.Pre_finite_inputs.S_ 32 0#32)))
                (cmpi .slt x (broadcastInDim Spec.T6 ![] bc (constantI Cert.Pre_finite_inputs.S_ 32 21#32))))
          init red hS j = 1#1) :
    Spec.InRange x := by
  intro i
  obtain ⟨e0, e1⟩ := IntOp.andi_eq_one.1 (Host.reduce_andi_all _ init red hS j h i)
  have e0' : (0#32 : BitVec 32).toInt ≤ (x i).toInt := IntOp.cmpi_sge.1 e0
  have e1' : (x i).toInt < (21#32 : BitVec 32).toInt := IntOp.cmpi_slt.1 e1
  have z0 : (0#32 : BitVec 32).toInt = 0 := by decide
  have z21 : (21#32 : BitVec 32).toInt = 21 := by decide
  exact ⟨z0 ▸ e0', z21 ▸ e1'⟩

theorem vandi_eq_one {s : Shape} (a b : IVec s 1) (i : s.Idx) : andi a b i = 1#1 ↔ a i = 1#1 ∧ b i = 1#1 :=
  IntOp.andi_eq_one

variable (m : (ℓ : Loc nD τ sig) → Buf (Elt Ideal) ℓ)

theorem pre_decode [h : Cert.Pre_finite_inputs.Facts] (hpre : Cert.Pre_KernelIdeal m) (c : Dev nD) :
    Spec.AllReal (S := Spec.T0) (m ((c.tc : Thread nD τ).loc main_arg0))
    ∧ Spec.AllReal (S := Spec.T1) (m ((c.tc : Thread nD τ).loc main_arg1))
    ∧ Spec.AllReal (S := Spec.T2) (m ((c.tc : Thread nD τ).loc main_arg2))
    ∧ Spec.AllReal (S := Spec.T3) (m ((c.tc : Thread nD τ).loc main_arg3))
    ∧ Spec.AllReal (S := Spec.T4) (m ((c.tc : Thread nD τ).loc main_arg4))
    ∧ Spec.AllReal (S := Spec.T5) (m ((c.tc : Thread nD τ).loc main_arg5))
    ∧ Spec.InRange (m ((c.tc : Thread nD τ).loc main_arg6))
    ∧ Spec.InRange (m ((c.tc : Thread nD τ).loc main_arg7)) := by
  have e := congrFun (hpre c) ValueIdx.ix0
  dsimp only [Cert.Pre_finite_inputs.fn, Cert.Pre_finite_inputs.fn_part1, Cert.Pre_finite_inputs.fn_part2] at e
  obtain ⟨e, h7⟩ := (vandi_eq_one _ _ _).1 e
  obtain ⟨e, h6⟩ := (vandi_eq_one _ _ _).1 e
  obtain ⟨e, h5⟩ := (vandi_eq_one _ _ _).1 e
  obtain ⟨e, h4⟩ := (vandi_eq_one _ _ _).1 e
  obtain ⟨e, h3⟩ := (vandi_eq_one _ _ _).1 e
  obtain ⟨e, h2⟩ := (vandi_eq_one _ _ _).1 e
  obtain ⟨h0, h1⟩ := (vandi_eq_one _ _ _).1 e
  exact ⟨allReal_of_all _ _ _ _ _ _ h0, allReal_of_all _ _ _ _ _ _ h1, allReal_of_all _ _ _ _ _ _ h2,
    allReal_of_all _ _ _ _ _ _ h3, allReal_of_all _ _ _ _ _ _ h4, allReal_of_all _ _ _ _ _ _ h5,
    inRange_of_all _ _ _ _ _ _ h6, inRange_of_all _ _ _ _ _ _ h7⟩

theorem args_real [h : Cert.Pre_finite_inputs.Facts] (hpre : Cert.Pre_KernelIdeal m) (c : Dev nD) :
    (Spec.argsOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))).Real := by
  obtain ⟨r0, r1, r2, r3, r4, r5, -, -⟩ := pre_decode m hpre c
  exact ⟨fun _ _ _ => r0 _, fun _ _ _ => r1 _, fun _ _ _ => r2 _, fun _ _ => r3 _, fun _ _ _ => r4 _, fun _ => r5 _⟩

end Cert.KernelIdeal.Hand

end
-- ==== Proof.RefRun.lean ====
import proofs.«408326_j73830487818418_3_alg».proof.Proof.Gen.ReferenceIdeal
import proofs.«408326_j73830487818418_3_alg».proof.Proof.LibWrites
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The pose rows of the frames and the frame mask. -/
abbrev cA : List (HloOp τ sig (Elt F)) :=
  [ StableHlo.unary main_arg0 main_v0 (extractStridedSlice S131072x3x21 ![0, 0, 0] · slices_S131073x3x21_S131072x3x21_0_0_0),
    StableHlo.nullary main_v1 (iotaInDim S131072 32 0),
    StableHlo.nullary main_c (constantI S_ 32 0#32),
    StableHlo.unary main_c main_v2 (broadcastInDim S131072 ![] bcast_S_S131072),
    StableHlo.binary main_v1 main_v2 main_v3 (cmpi .ne),
    StableHlo.unary main_v3 main_v4 (uitofp .f32) ]

abbrev WA : List (Ref sig .tc) :=
  [main_v0, main_v1, main_c, main_v2, main_v3, main_v4]

theorem cA_writes : (cA : List (HloOp τ sig (Elt F))).Forall fun op =>
    op.writes ⊆ (WA.map (Proc.devRef (τ := τ) .tc)).toFinset := by
  repeat' apply And.intro
  all_goals exact wr (by decide)

/-- The projection up to its two image-plane rows. -/
abbrev cB1 : List (HloOp τ sig (Elt F)) :=
  [ StableHlo.unary main_arg3 main_v5 (broadcastInDim S131072x3x21 ![0, 1, 2] bcast_S131072x3x1_S131072x3x21_0_1_2),
    StableHlo.binary main_v0 main_v5 main_v6 subf,
    StableHlo.binary main_arg2 main_v6 main_v7 (fun l r => Host.dotGeneral dot_S131072x3x3_S131072x3x21_S131072x3x21_1_1_2_2_0_0 none l r),
    StableHlo.unary main_v7 main_v8 (extractStridedSlice S131072x1x21 ![0, 2, 0] · slices_S131072x3x21_S131072x1x21_0_2_0),
    StableHlo.reshape main_v8 main_v9 rfl shapeCasts_S131072x1x21_S131072x21,
    StableHlo.unary main_v7 main_v10 (extractStridedSlice S131072x1x21 ![0, 0, 0] · slices_S131072x3x21_S131072x1x21_0_0_0),
    StableHlo.reshape main_v10 main_v11 rfl shapeCasts_S131072x1x21_S131072x21,
    StableHlo.nullary main_cst (constant S_ .f32 0x44000000#32),
    StableHlo.unary main_cst main_v12 (broadcastInDim S131072x21 ![] bcast_S_S131072x21),
    StableHlo.binary main_v12 main_v11 main_v13 mulf,
    StableHlo.binary main_v13 main_v9 main_v14 Host.divf,
    StableHlo.nullary main_cst_0 (constant S_ .f32 0x44000000#32),
    StableHlo.unary main_cst_0 main_v15 (broadcastInDim S131072x21 ![] bcast_S_S131072x21),
    StableHlo.binary main_v14 main_v15 main_v16 addf,
    StableHlo.unary main_v7 main_v17 (extractStridedSlice S131072x1x21 ![0, 1, 0] · slices_S131072x3x21_S131072x1x21_0_1_0),
    StableHlo.reshape main_v17 main_v18 rfl shapeCasts_S131072x1x21_S131072x21,
    StableHlo.nullary main_cst_1 (constant S_ .f32 0x44000000#32),
    StableHlo.unary main_cst_1 main_v19 (broadcastInDim S131072x21 ![] bcast_S_S131072x21),
    StableHlo.binary main_v19 main_v18 main_v20 mulf,
    StableHlo.binary main_v20 main_v9 main_v21 Host.divf,
    StableHlo.nullary main_cst_2 (constant S_ .f32 0x44000000#32),
    StableHlo.unary main_cst_2 main_v22 (broadcastInDim S131072x21 ![] bcast_S_S131072x21),
    StableHlo.binary main_v21 main_v22 main_v23 addf,
    StableHlo.unary main_v16 main_v24 (broadcastInDim S131072x1x21 ![0, 2] bcast_S131072x21_S131072x1x21_0_2),
    StableHlo.unary main_v23 main_v25 (broadcastInDim S131072x1x21 ![0, 2] bcast_S131072x21_S131072x1x21_0_2) ]

abbrev WB1 : List (Ref sig .tc) :=
  [main_v5, main_v6, main_v7, main_v8, main_v9, main_v10, main_v11, main_cst, main_v12, main_v13, main_v14, main_cst_0,
    main_v15, main_v16, main_v17, main_v18, main_cst_1, main_v19, main_v20, main_v21, main_cst_2, main_v22, main_v23, main_v24,
    main_v25]

theorem cB1_writes : (cB1 : List (HloOp τ sig (Elt F))).Forall fun op =>
    op.writes ⊆ (WB1.map (Proc.devRef (τ := τ) .tc)).toFinset := by
  repeat' apply And.intro
  all_goals exact wr (by decide)

/-- The two rows stacked, the squared error against the detections, its masked mean and the sum over the frames. -/
abbrev cB2 : List (HloOp τ sig (Elt F)) :=
  [ StableHlo.binary main_v24 main_v25 main_v26 (fun a b => concatenate S131072x2x21 1 [⟨S131072x1x21, a⟩, ⟨S131072x1x21, b⟩] concatenates_S131072x1x21_S131072x1x21_S131072x2x21_d1),
    StableHlo.binary main_v26 main_arg1 main_v27 subf,
    StableHlo.binary main_v27 main_v27 main_v28 mulf,
    StableHlo.nullary main_cst_3 (constant S_ .f32 0x00000000#32),
    StableHlo.binary main_v28 main_cst_3 main_v29 (fun x v => Host.reduceAdd x v reducesTo_S131072x2x21_S131072_d1_2 h_S_),
    StableHlo.nullary main_cst_4 (constant S_ .f32 0x42280000#32),
    StableHlo.unary main_cst_4 main_v30 (broadcastInDim S131072 ![] bcast_S_S131072),
    StableHlo.binary main_v29 main_v30 main_v31 Host.divf,
    StableHlo.binary main_v31 main_v4 main_v32 mulf,
    StableHlo.nullary main_cst_5 (constant S_ .f32 0x00000000#32),
    StableHlo.binary main_v32 main_cst_5 main_v33 ((fun x v => Host.reduceAdd x v reducesTo_S131072_S_d0 h_S_)) ]

abbrev WB2 : List (Ref sig .tc) :=
  [main_v26, main_v27, main_v28, main_cst_3, main_v29, main_cst_4, main_v30, main_v31, main_v32, main_cst_5, main_v33]

theorem cB2_writes : (cB2 : List (HloOp τ sig (Elt F))).Forall fun op =>
    op.writes ⊆ (WB2.map (Proc.devRef (τ := τ) .tc)).toFinset := by
  repeat' apply And.intro
  all_goals exact wr (by decide)

/-- The bone-direction term. -/
abbrev cC : List (HloOp τ sig (Elt F)) :=
  [ StableHlo.unary main_arg7 main_v34 (extractStridedSlice S20x1 ![0, 0] · slices_S20x2_S20x1_0_0),
    StableHlo.reshape main_v34 main_v35 rfl shapeCasts_S20x1_S20,
    StableHlo.nullary main_c_6 (constantI S_ 32 0#32),
    StableHlo.unary main_c_6 main_v36 (broadcastInDim S20 ![] bcast_S_S20),
    StableHlo.binary main_v35 main_v36 main_v37 (cmpi .slt),
    StableHlo.nullary main_c_7 (constantI S_ 32 21#32),
    StableHlo.unary main_c_7 main_v38 (broadcastInDim S20 ![] bcast_S_S20),
    StableHlo.binary main_v35 main_v38 main_v39 addi,
    StableHlo.ternary main_v37 main_v39 main_v35 main_v40 select,
    StableHlo.unary main_v40 main_v41 (broadcastInDim S20x1 ![0] bcast_S20_S20x1_0),
    StableHlo.binary main_v0 main_v41 main_v42 (fun x i => Host.gather gather_S131072x3x21_S20x1_S131072x3x20_01_2_n_n_2_1_13107231 x i),
    StableHlo.unary main_arg7 main_v43 (extractStridedSlice S20x1 ![0, 1] · slices_S20x2_S20x1_0_1),
    StableHlo.reshape main_v43 main_v44 rfl shapeCasts_S20x1_S20,
    StableHlo.nullary main_c_8 (constantI S_ 32 0#32),
    StableHlo.unary main_c_8 main_v45 (broadcastInDim S20 ![] bcast_S_S20),
    StableHlo.binary main_v44 main_v45 main_v46 (cmpi .slt),
    StableHlo.nullary main_c_9 (constantI S_ 32 21#32),
    StableHlo.unary main_c_9 main_v47 (broadcastInDim S20 ![] bcast_S_S20),
    StableHlo.binary main_v44 main_v47 main_v48 addi,
    StableHlo.ternary main_v46 main_v48 main_v44 main_v49 select,
    StableHlo.unary main_v49 main_v50 (broadcastInDim S20x1 ![0] bcast_S20_S20x1_0),
    StableHlo.binary main_v0 main_v50 main_v51 (fun x i => Host.gather gather_S131072x3x21_S20x1_S131072x3x20_01_2_n_n_2_1_13107231 x i),
    StableHlo.binary main_v42 main_v51 main_v52 subf,
    StableHlo.TRef.binary (.of main_v52 : StableHlo.TRef sig ⟨S131072x3x20, .f32⟩) (.of main_v52 : StableHlo.TRef sig ⟨S131072x3x20, .f32⟩) main_call0.v0 mulf,
    StableHlo.TRef.nullary main_call0.cst (constant S_ .f32 0x00000000#32),
    StableHlo.TRef.binary main_call0.v0 main_call0.cst main_call0.v1 (fun x v => Host.reduceAdd x v reducesTo_S131072x3x20_S131072x20_d1 h_S_),
    StableHlo.TRef.unary main_call0.v1 main_call0.v2 (broadcastInDim S131072x1x20 ![0, 2] bcast_S131072x20_S131072x1x20_0_2),
    StableHlo.TRef.unary main_call0.v2 main_call0.v3 Host.sqrt,
    StableHlo.nullary main_cst_10 (constant S_ .f32 0x2EDBE6FF#32),
    StableHlo.unary main_cst_10 main_v54 (broadcastInDim S131072x1x20 ![] bcast_S_S131072x1x20),
    StableHlo.binary main_v53 main_v54 main_v55 addf,
    StableHlo.unary main_v55 main_v56 (broadcastInDim S131072x3x20 ![0, 1, 2] bcast_S131072x1x20_S131072x3x20_0_1_2),
    StableHlo.binary main_v52 main_v56 main_v57 Host.divf,
    StableHlo.binary main_arg4 main_v57 main_v58 subf,
    StableHlo.binary main_v58 main_v58 main_v59 mulf,
    StableHlo.nullary main_cst_11 (constant S_ .f32 0x00000000#32),
    StableHlo.binary main_v59 main_cst_11 main_v60 (fun x v => Host.reduceAdd x v reducesTo_S131072x3x20_S131072_d1_2 h_S_),
    StableHlo.nullary main_cst_12 (constant S_ .f32 0x42700000#32),
    StableHlo.unary main_cst_12 main_v61 (broadcastInDim S131072 ![] bcast_S_S131072),
    StableHlo.binary main_v60 main_v61 main_v62 Host.divf,
    StableHlo.binary main_v62 main_v4 main_v63 mulf,
    StableHlo.nullary main_cst_13 (constant S_ .f32 0x00000000#32),
    StableHlo.binary main_v63 main_cst_13 main_v64 ((fun x v => Host.reduceAdd x v reducesTo_S131072_S_d0 h_S_)) ]

abbrev WC : List (Ref sig .tc) :=
  [main_v34, main_v35, main_c_6, main_v36, main_v37, main_c_7, main_v38, main_v39, main_v40, main_v41, main_v42, main_v43,
    main_v44, main_c_8, main_v45, main_v46, main_c_9, main_v47, main_v48, main_v49, main_v50, main_v51, main_v52, main_call0_v0,
    main_call0_cst, main_call0_v1, main_call0_v2, main_v53, main_cst_10, main_v54, main_v55, main_v56, main_v57, main_v58, main_v59, main_cst_11,
    main_v60, main_cst_12, main_v61, main_v62, main_v63, main_cst_13, main_v64]

theorem cC_writes : (cC : List (HloOp τ sig (Elt F))).Forall fun op =>
    op.writes ⊆ (WC.map (Proc.devRef (τ := τ) .tc)).toFinset := by
  repeat' apply And.intro
  all_goals exact wr (by decide)

/-- The smoothness term. -/
abbrev cD : List (HloOp τ sig (Elt F)) :=
  [ StableHlo.nullary main_v65 (iotaInDim S131072 32 0),
    StableHlo.nullary main_c_14 (constantI S_ 32 1#32),
    StableHlo.unary main_c_14 main_v66 (broadcastInDim S131072 ![] bcast_S_S131072),
    StableHlo.binary main_v65 main_v66 main_v67 subi,
    StableHlo.nullary main_c_15 (constantI S_ 32 131073#32),
    StableHlo.TRef.unary (.of main_c_15 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S131072 ![] bcast_S_S131072),
    StableHlo.TRef.binary (.of main_v67 : StableHlo.TRef sig ⟨S131072, .i32⟩) main_call1.v3 main_call1.v4 Host.remsi,
    StableHlo.TRef.nullary main_call1.c_1 (constantI S_ 32 0#32),
    StableHlo.TRef.unary main_call1.c_1 main_call1.v5 (broadcastInDim S131072 ![] bcast_S_S131072),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S131072 ![] bcast_S_S131072),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S131072 ![] bcast_S_S131072),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S131072 ![] bcast_S_S131072),
    StableHlo.TRef.binary main_call1.v4 main_call1.v13 main_call1.v14 addi,
    StableHlo.TRef.ternary main_call1.v12 main_call1.v14 main_call1.v4 main_call1.v15 select,
    StableHlo.nullary main_c_16 (constantI S_ 32 0#32),
    StableHlo.unary main_c_16 main_v69 (broadcastInDim S131072 ![] bcast_S_S131072),
    StableHlo.binary main_v68 main_v69 main_v70 (cmpi .slt),
    StableHlo.nullary main_c_17 (constantI S_ 32 131073#32),
    StableHlo.unary main_c_17 main_v71 (broadcastInDim S131072 ![] bcast_S_S131072),
    StableHlo.binary main_v68 main_v71 main_v72 addi,
    StableHlo.ternary main_v70 main_v72 main_v68 main_v73 select,
    StableHlo.unary main_v73 main_v74 (broadcastInDim S131072x1 ![0] bcast_S131072_S131072x1_0),
    StableHlo.binary main_arg0 main_v74 main_v75 (fun x i => Host.gather gather_S131073x3x21_S131072x1_S131072x3x21_12_0_n_n_0_1_1321 x i),
    StableHlo.nullary main_c_18 (constantI S_ 32 2#32),
    StableHlo.unary main_c_18 main_v76 (broadcastInDim S131072 ![] bcast_S_S131072),
    StableHlo.binary main_v65 main_v76 main_v77 subi,
    StableHlo.nullary main_c_19 (constantI S_ 32 131073#32),
    StableHlo.TRef.unary (.of main_c_19 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S131072 ![] bcast_S_S131072),
    StableHlo.TRef.binary (.of main_v77 : StableHlo.TRef sig ⟨S131072, .i32⟩) main_call2.v3 main_call2.v4 Host.remsi,
    StableHlo.TRef.nullary main_call2.c_1 (constantI S_ 32 0#32),
    StableHlo.TRef.unary main_call2.c_1 main_call2.v5 (broadcastInDim S131072 ![] bcast_S_S131072),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S131072 ![] bcast_S_S131072),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S131072 ![] bcast_S_S131072),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S131072 ![] bcast_S_S131072),
    StableHlo.TRef.binary main_call2.v4 main_call2.v13 main_call2.v14 addi,
    StableHlo.TRef.ternary main_call2.v12 main_call2.v14 main_call2.v4 main_call2.v15 select,
    StableHlo.nullary main_c_20 (constantI S_ 32 0#32),
    StableHlo.unary main_c_20 main_v79 (broadcastInDim S131072 ![] bcast_S_S131072),
    StableHlo.binary main_v78 main_v79 main_v80 (cmpi .slt),
    StableHlo.nullary main_c_21 (constantI S_ 32 131073#32),
    StableHlo.unary main_c_21 main_v81 (broadcastInDim S131072 ![] bcast_S_S131072),
    StableHlo.binary main_v78 main_v81 main_v82 addi,
    StableHlo.ternary main_v80 main_v82 main_v78 main_v83 select,
    StableHlo.unary main_v83 main_v84 (broadcastInDim S131072x1 ![0] bcast_S131072_S131072x1_0),
    StableHlo.binary main_arg0 main_v84 main_v85 (fun x i => Host.gather gather_S131073x3x21_S131072x1_S131072x3x21_12_0_n_n_0_1_1321 x i),
    StableHlo.binary main_v0 main_v75 main_v86 subf,
    StableHlo.binary main_v75 main_v85 main_v87 subf,
    StableHlo.binary main_v86 main_v87 main_v88 subf,
    StableHlo.binary main_v88 main_v88 main_v89 mulf,
    StableHlo.nullary main_cst_22 (constant S_ .f32 0x00000000#32),
    StableHlo.binary main_v89 main_cst_22 main_v90 (fun x v => Host.reduceAdd x v reducesTo_S131072x3x21_S131072_d1_2 h_S_),
    StableHlo.nullary main_cst_23 (constant S_ .f32 0x427C0000#32),
    StableHlo.unary main_cst_23 main_v91 (broadcastInDim S131072 ![] bcast_S_S131072),
    StableHlo.binary main_v90 main_v91 main_v92 Host.divf,
    StableHlo.nullary main_cst_24 (constant S_ .f32 0x00000000#32),
    StableHlo.binary main_v92 main_cst_24 main_v93 ((fun x v => Host.reduceAdd x v reducesTo_S131072_S_d0 h_S_)) ]

abbrev WD : List (Ref sig .tc) :=
  [main_v65, main_c_14, main_v66, main_v67, main_c_15, main_call1_v0, main_call1_c, main_call1_v1, main_call1_c_0, main_call1_v2, main_call1_v3, main_call1_v4,
    main_call1_c_1, main_call1_v5, main_call1_v6, main_call1_c_2, main_call1_v7, main_call1_v8, main_call1_c_3, main_call1_v9, main_call1_v10, main_call1_v11, main_call1_v12, main_call1_v13,
    main_call1_v14, main_v68, main_c_16, main_v69, main_v70, main_c_17, main_v71, main_v72, main_v73, main_v74, main_v75, main_c_18,
    main_v76, main_v77, main_c_19, main_call2_v0, main_call2_c, main_call2_v1, main_call2_c_0, main_call2_v2, main_call2_v3, main_call2_v4, main_call2_c_1, main_call2_v5,
    main_call2_v6, main_call2_c_2, main_call2_v7, main_call2_v8, main_call2_c_3, main_call2_v9, main_call2_v10, main_call2_v11, main_call2_v12, main_call2_v13, main_call2_v14, main_v78,
    main_c_20, main_v79, main_v80, main_c_21, main_v81, main_v82, main_v83, main_v84, main_v85, main_v86, main_v87, main_v88,
    main_v89, main_cst_22, main_v90, main_cst_23, main_v91, main_v92, main_cst_24, main_v93]

theorem cD_writes : (cD : List (HloOp τ sig (Elt F))).Forall fun op =>
    op.writes ⊆ (WD.map (Proc.devRef (τ := τ) .tc)).toFinset := by
  repeat' apply And.intro
  all_goals exact wr (by decide)

/-- The bone-length term. -/
abbrev cE : List (HloOp τ sig (Elt F)) :=
  [ StableHlo.unary main_arg6 main_v94 (extractStridedSlice S20x1 ![0, 0] · slices_S20x2_S20x1_0_0),
    StableHlo.reshape main_v94 main_v95 rfl shapeCasts_S20x1_S20,
    StableHlo.nullary main_c_25 (constantI S_ 32 0#32),
    StableHlo.unary main_c_25 main_v96 (broadcastInDim S20 ![] bcast_S_S20),
    StableHlo.binary main_v95 main_v96 main_v97 (cmpi .slt),
    StableHlo.nullary main_c_26 (constantI S_ 32 21#32),
    StableHlo.unary main_c_26 main_v98 (broadcastInDim S20 ![] bcast_S_S20),
    StableHlo.binary main_v95 main_v98 main_v99 addi,
    StableHlo.ternary main_v97 main_v99 main_v95 main_v100 select,
    StableHlo.unary main_v100 main_v101 (broadcastInDim S20x1 ![0] bcast_S20_S20x1_0),
    StableHlo.binary main_v0 main_v101 main_v102 (fun x i => Host.gather gather_S131072x3x21_S20x1_S131072x3x20_01_2_n_n_2_1_13107231 x i),
    StableHlo.unary main_arg6 main_v103 (extractStridedSlice S20x1 ![0, 1] · slices_S20x2_S20x1_0_1),
    StableHlo.reshape main_v103 main_v104 rfl shapeCasts_S20x1_S20,
    StableHlo.nullary main_c_27 (constantI S_ 32 0#32),
    StableHlo.unary main_c_27 main_v105 (broadcastInDim S20 ![] bcast_S_S20),
    StableHlo.binary main_v104 main_v105 main_v106 (cmpi .slt),
    StableHlo.nullary main_c_28 (constantI S_ 32 21#32),
    StableHlo.unary main_c_28 main_v107 (broadcastInDim S20 ![] bcast_S_S20),
    StableHlo.binary main_v104 main_v107 main_v108 addi,
    StableHlo.ternary main_v106 main_v108 main_v104 main_v109 select,
    StableHlo.unary main_v109 main_v110 (broadcastInDim S20x1 ![0] bcast_S20_S20x1_0),
    StableHlo.binary main_v0 main_v110 main_v111 (fun x i => Host.gather gather_S131072x3x21_S20x1_S131072x3x20_01_2_n_n_2_1_13107231 x i),
    StableHlo.binary main_v102 main_v111 main_v112 subf,
    StableHlo.binary main_v112 main_v112 main_v113 mulf,
    StableHlo.nullary main_cst_29 (constant S_ .f32 0x00000000#32),
    StableHlo.binary main_v113 main_cst_29 main_v114 (fun x v => Host.reduceAdd x v reducesTo_S131072x3x20_S131072x20_d1 h_S_),
    StableHlo.unary main_arg5 main_v115 (broadcastInDim S1x20 ![1] bcast_S20_S1x20_1),
    StableHlo.unary main_v115 main_v116 (broadcastInDim S131072x20 ![0, 1] bcast_S1x20_S131072x20_0_1),
    StableHlo.binary main_v116 main_v114 main_v117 subf,
    StableHlo.binary main_v117 main_v117 main_v118 mulf,
    StableHlo.nullary main_cst_30 (constant S_ .f32 0x00000000#32),
    StableHlo.binary main_v118 main_cst_30 main_v119 (fun x v => Host.reduceAdd x v reducesTo_S131072x20_S131072_d1 h_S_),
    StableHlo.nullary main_cst_31 (constant S_ .f32 0x41A00000#32),
    StableHlo.unary main_cst_31 main_v120 (broadcastInDim S131072 ![] bcast_S_S131072),
    StableHlo.binary main_v119 main_v120 main_v121 Host.divf,
    StableHlo.nullary main_cst_32 (constant S_ .f32 0x00000000#32),
    StableHlo.binary main_v121 main_cst_32 main_v122 ((fun x v => Host.reduceAdd x v reducesTo_S131072_S_d0 h_S_)) ]

abbrev WE : List (Ref sig .tc) :=
  [main_v94, main_v95, main_c_25, main_v96, main_v97, main_c_26, main_v98, main_v99, main_v100, main_v101, main_v102, main_v103,
    main_v104, main_c_27, main_v105, main_v106, main_c_28, main_v107, main_v108, main_v109, main_v110, main_v111, main_v112, main_v113,
    main_cst_29, main_v114, main_v115, main_v116, main_v117, main_v118, main_cst_30, main_v119, main_cst_31, main_v120, main_v121, main_cst_32,
    main_v122]

theorem cE_writes : (cE : List (HloOp τ sig (Elt F))).Forall fun op =>
    op.writes ⊆ (WE.map (Proc.devRef (τ := τ) .tc)).toFinset := by
  repeat' apply And.intro
  all_goals exact wr (by decide)

/-- The weighted sum of the four terms. -/
abbrev cG : List (HloOp τ sig (Elt F)) :=
  [ StableHlo.nullary main_cst_33 (constant S_ .f32 0x3E99999A#32),
    StableHlo.binary main_cst_33 main_v33 main_v123 mulf,
    StableHlo.nullary main_cst_34 (constant S_ .f32 0x3F000000#32),
    StableHlo.binary main_cst_34 main_v93 main_v124 mulf,
    StableHlo.binary main_v123 main_v124 main_v125 addf,
    StableHlo.nullary main_cst_35 (constant S_ .f32 0x3E4CCCCD#32),
    StableHlo.binary main_cst_35 main_v122 main_v126 mulf,
    StableHlo.binary main_v125 main_v126 main_v127 addf,
    StableHlo.nullary main_cst_36 (constant S_ .f32 0x3DCCCCCD#32),
    StableHlo.binary main_cst_36 main_v64 main_v128 mulf,
    StableHlo.binary main_v127 main_v128 main_v129 addf ]

abbrev WG : List (Ref sig .tc) :=
  [main_cst_33, main_v123, main_cst_34, main_v124, main_v125, main_cst_35, main_v126, main_v127, main_cst_36, main_v128, main_v129]

theorem cG_writes : (cG : List (HloOp τ sig (Elt F))).Forall fun op =>
    op.writes ⊆ (WG.map (Proc.devRef (τ := τ) .tc)).toFinset := by
  repeat' apply And.intro
  all_goals exact wr (by decide)

/-- @main's operations: seven stretches, each ending in a term of the loss or in what later stretches read. -/
abbrev ops : List (HloOp τ sig (Elt F)) := cA ++ cB1 ++ cB2 ++ cC ++ cD ++ cE ++ cG

/-- @main comes in three parts, which cut the fourth stretch after 18 operations and the fifth after 79. -/
theorem main_eq (c : Dev nD) : main (F := F) c = seq ops := by
  have h0 : main_part0 (F := F) c = seq (cA ++ cB1 ++ cB2 ++ cC.take 18) := rfl
  have h1 : main_part1 (F := F) c = seq (cC.drop 18 ++ cD.take 79) := rfl
  have h2 : main_part2 (F := F) c = seq (cD.drop 79 ++ cE ++ cG) := rfl
  have e : (ops : List (HloOp τ sig (Elt F)))
      = (cA ++ cB1 ++ cB2 ++ cC.take 18) ++ (cC.drop 18 ++ cD.take 79) ++ (cD.drop 79 ++ cE ++ cG) := rfl
  rw [e, seq_append, seq_append, ← h0, ← h1, ← h2, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append, List.Forall, unary_bufs_sub, nullary_bufs_sub, binary_bufs_sub,
    ternary_bufs_sub, reshape_bufs_sub, and_self]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A buffer no stretch writes holds after @main what it held before. -/
theorem kept (V : Valuation τ sig (Elt F)) (r : Ref sig .tc) (h : r ∉ WA ++ WB1 ++ WB2 ++ WC ++ WD ++ WE ++ WG) :
    after ops V (Proc.devRef .tc r) = V (Proc.devRef .tc r) := by
  simp only [List.mem_append, not_or] at h
  obtain ⟨⟨⟨⟨⟨⟨hA, hB1⟩, hB2⟩, hC⟩, hD⟩, hE⟩, hG⟩ := h
  simp only [ops, after_app]
  rw [after_of_writes_sub cG _ cG_writes hG, after_of_writes_sub cE _ cE_writes hE,
    after_of_writes_sub cD _ cD_writes hD, after_of_writes_sub cC _ cC_writes hC,
    after_of_writes_sub cB2 _ cB2_writes hB2, after_of_writes_sub cB1 _ cB1_writes hB1,
    after_of_writes_sub cA _ cA_writes hA]

def out (m : (ℓ : Loc nD τ sig) → Buf (Elt Ideal) ℓ) (c : Dev nD) :
    Buf (Elt Ideal) ((c.tc : Thread nD τ).loc main_v129) :=
  after ops (launchContents m c) (Proc.devRef .tc main_v129)

/-- Every weakly fair execution of @main ends with the loss buffer at `out` and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v129) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h c main_v129,
      (h c main_arg0).trans (kept _ main_arg0 (by decide)), (h c main_arg1).trans (kept _ main_arg1 (by decide)),
      (h c main_arg2).trans (kept _ main_arg2 (by decide)), (h c main_arg3).trans (kept _ main_arg3 (by decide)),
      (h c main_arg4).trans (kept _ main_arg4 (by decide)), (h c main_arg5).trans (kept _ main_arg5 (by decide)),
      (h c main_arg6).trans (kept _ main_arg6 (by decide)), (h c main_arg7).trans (kept _ main_arg7 (by decide))⟩)
    (run_seq scopedRefs_eq scopedSems_eq defs main (fun _ => ops) main_eq (fun _ => ops_sub) m g)

end Cert.ReferenceIdeal.RefRun

end
-- ==== Proof.LibSums.lean ====
import Idealize.ShloMosaic.Lib.ValueIdx
import Idealize.ShloMosaic.PureOps.Ideal.Laws

noncomputable section

open scoped BigOperators

namespace Cert

open Idealize.ShloMosaic Idealize.ShloMosaic.ValueIdx

/-- A sum over the indices of a vector is the sum over its coordinate. -/
theorem sum_idx1 {M : Type*} [AddCommMonoid M] {n : Nat} (g : (⟨1, ![n]⟩ : Shape).Idx → M) :
    ∑ i, g i = ∑ a : Fin n, g (ix1 a) := by
  let e : Fin n ≃ (⟨1, ![n]⟩ : Shape).Idx :=
    { toFun := ix1, invFun := fun i => i 0, left_inv := fun _ => rfl, right_inv := fun i => (eq_ix1 i).symm }
  exact (Equiv.sum_comp e g).symm

/-- A sum over the indices of a rank-3 array is the triple sum over its coordinates. -/
theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  let e : Fin n0 × Fin n1 × Fin n2 ≃ (⟨3, ![n0, n1, n2]⟩ : Shape).Idx :=
    { toFun := fun p => ix3 p.1 p.2.1 p.2.2, invFun := fun i => (i 0, i 1, i 2), left_inv := fun _ => rfl,
      right_inv := fun i => (eq_ix3 i).symm }
  rw [← Equiv.sum_comp e g, Fintype.sum_prod_type]
  refine Finset.sum_congr rfl fun a _ => ?_
  rw [Fintype.sum_prod_type]
  rfl

/-- The host's sum of a rank-3 array over its last two axes, at row f: the initial value plus the double sum over that row. -/
theorem hostReduceAdd_rows {n n1 n2 : Nat} (h : (⟨3, ![n, n1, n2]⟩ : Shape).ReducesTo [1, 2] ⟨1, ![n]⟩)
    (x : (⟨3, ![n, n1, n2]⟩ : Shape).Idx → EReal) (init : EReal) (f : Fin n) :
    Ideal.hostReduceAdd h x init (ix1 f) = init + ∑ c : Fin n1, ∑ j : Fin n2, x (ix3 f c j) := by
  have hd : ∀ (a : Fin n) (c : Fin n1) (j : Fin n2), h.drop (ix3 a c j) = ix1 a := fun a c j => by
    funext b; apply Fin.ext
    match b with
    | ⟨0, _⟩ => rfl
  unfold Ideal.hostReduceAdd
  refine congrArg (init + ·) ?_
  rw [Finset.sum_filter, sum_idx3, Finset.sum_eq_single f]
  · exact Finset.sum_congr rfl fun c _ => Finset.sum_congr rfl fun j _ => if_pos (hd f c j)
  · intro a _ hne
    refine Finset.sum_eq_zero fun c _ => Finset.sum_eq_zero fun j _ => if_neg ?_
    rw [hd]
    intro e
    exact hne (congrFun e 0)
  · intro h'; exact absurd (Finset.mem_univ f) h'

end Cert

end
-- ==== Proof.RefGather.lean ====
import proofs.«408326_j73830487818418_3_alg».proof.ReferenceIdeal
import proofs.«408326_j73830487818418_3_alg».proof.Proof.ArgsOf
import proofs.«408326_j73830487818418_3_alg».proof.Proof.LibSums
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefGather

open Idealize.ShloMosaic Idealize.ShloMosaic.ValueIdx Cert.Spec
open Cert.ReferenceIdeal.Facts₀ Cert.ReferenceIdeal.Facts

variable [Cert.ReferenceIdeal.Facts]

def rows (x0 : S131073x3x21.Idx → EReal) : S131072x3x21.Idx → EReal :=
  extractStridedSlice S131072x3x21 ![0, 0, 0] x0 slices_S131073x3x21_S131072x3x21_0_0_0

theorem rows_apply (x0 : S131073x3x21.Idx → EReal) (f : Fin 131072) (c : Fin 3) (j : Fin 21) :
    rows x0 (ix3 f c j) = x0 (ix3 (row f) c j) := by
  unfold rows
  refine extractStridedSlice_apply _ x0 _ _ _ fun a => ?_
  match a with
  | ⟨0, _⟩ => show f.val = 0 + f.val; omega
  | ⟨1, _⟩ => show c.val = 0 + c.val; omega
  | ⟨2, _⟩ => show j.val = 0 + j.val; omega

/-- The frame mask: one at every frame but the first. -/
def maskV : FVec Ideal S131072 .f32 :=
  uitofp .f32 (cmpi .ne (iotaInDim S131072 32 0)
    (broadcastInDim S131072 ![] bcast_S_S131072 (constantI S_ 32 0#32)))

theorem ne_zero_word (f : Fin 131072) :
    IntOp.cmpi .ne (BitVec.ofNat 32 f.val) 0#32 = if f.val = 0 then 0#1 else 1#1 := by
  have hf := f.isLt
  by_cases h : f.val = 0
  · rw [if_pos h, h]; rfl
  · rw [if_neg h]
    have hne : BitVec.ofNat 32 f.val ≠ 0#32 := by
      intro e
      have := congrArg BitVec.toNat e
      rw [BitVec.toNat_ofNat, Nat.mod_eq_of_lt (by omega)] at this
      exact h this
    have hb : (BitVec.ofNat 32 f.val != 0#32) = true := bne_iff_ne.mpr hne
    show BitVec.ofBool (BitVec.ofNat 32 f.val != 0#32) = 1#1
    rw [hb]; rfl

theorem maskV_apply (f : Fin 131072) : maskV (ix1 f) = mask f := by
  show FloatOps.uitofp (F := Ideal) .f32 (IntOp.cmpi .ne (BitVec.ofNat 32 f.val) 0#32) = mask f
  rw [ne_zero_word]
  unfold mask
  by_cases h : f.val = 0
  · rw [if_pos h, if_pos h]; show (((0#1 : BitVec 1).toNat : ℝ) : EReal) = 0; simp
  · rw [if_neg h, if_neg h]; show (((1#1 : BitVec 1).toNat : ℝ) : EReal) = 1; simp

def col0 (x : S20x2.Idx → BitVec 32) : S20x1.Idx → BitVec 32 :=
  extractStridedSlice S20x1 ![0, 0] x slices_S20x2_S20x1_0_0
def col1 (x : S20x2.Idx → BitVec 32) : S20x1.Idx → BitVec 32 :=
  extractStridedSlice S20x1 ![0, 1] x slices_S20x2_S20x1_0_1

theorem col0_apply (x : S20x2.Idx → BitVec 32) (l : Fin 20) : col0 x (ix2 l 0) = x (ix2 l 0) := by
  unfold col0
  refine extractStridedSlice_apply _ x _ _ _ fun a => ?_
  match a with
  | ⟨0, _⟩ => show l.val = 0 + l.val; omega
  | ⟨1, _⟩ => rfl

theorem col1_apply (x : S20x2.Idx → BitVec 32) (l : Fin 20) : col1 x (ix2 l 0) = x (ix2 l 1) := by
  unfold col1
  refine extractStridedSlice_apply _ x _ _ _ fun a => ?_
  match a with
  | ⟨0, _⟩ => show l.val = 0 + l.val; omega
  | ⟨1, _⟩ => rfl

def wrap (c : S20x1.Idx → BitVec 32) : S20x1.Idx → BitVec 32 :=
  broadcastInDim S20x1 ![0] bcast_S20_S20x1_0
    (select
      (cmpi .slt (fun i => shapeCast S20 c shapeCasts_S20x1_S20 i)
        (broadcastInDim S20 ![] bcast_S_S20 (constantI S_ 32 0#32)))
      (addi (fun i => shapeCast S20 c shapeCasts_S20x1_S20 i)
        (broadcastInDim S20 ![] bcast_S_S20 (constantI S_ 32 21#32)))
      (fun i => shapeCast S20 c shapeCasts_S20x1_S20 i))

theorem reshape_col_apply (c : S20x1.Idx → BitVec 32) (l : Fin 20) :
    shapeCast S20 c shapeCasts_S20x1_S20 (ix1 l) = c (ix2 l 0) := by
  refine shapeCast_apply c _ _ _ ?_
  rw [Shape.rowMajor_val_one, Shape.rowMajor_val_two]
  show l.val * 1 + 0 = l.val
  omega

theorem wrap_apply (c : S20x1.Idx → BitVec 32) (l : Fin 20) :
    wrap c (ix2 l 0)
      = Scalar.select (IntOp.cmpi .slt (c (ix2 l 0)) 0#32) (IntOp.addi (c (ix2 l 0)) 21#32) (c (ix2 l 0)) := by
  unfold wrap
  rw [broadcastInDim_apply _ _ _ _ (ix1 l) (fun a => by
    match a with
    | ⟨0, _⟩ => rfl)]
  show Scalar.select (IntOp.cmpi .slt (shapeCast S20 c shapeCasts_S20x1_S20 (ix1 l)) 0#32)
    (IntOp.addi (shapeCast S20 c shapeCasts_S20x1_S20 (ix1 l)) 21#32) (shapeCast S20 c shapeCasts_S20x1_S20 (ix1 l)) = _
  rw [reshape_col_apply]

theorem wrap_of_nonneg (c : S20x1.Idx → BitVec 32) (l : Fin 20) (h : 0 ≤ (c (ix2 l 0)).toInt) :
    wrap c (ix2 l 0) = c (ix2 l 0) := by
  rw [wrap_apply]
  have hbit : IntOp.cmpi .slt (c (ix2 l 0)) 0#32 = 0#1 := by
    show BitVec.ofBool ((c (ix2 l 0)).slt 0#32) = 0#1
    have hs : (c (ix2 l 0)).slt 0#32 = false := by
      rw [BitVec.slt]; simp; exact h
    rw [hs]; rfl
  rw [hbit, Idealize.ShloMosaic.ValueIdx.select_zero]

abbrev gd := gather_S131072x3x21_S20x1_S131072x3x20_01_2_n_n_2_1_13107231

theorem gather_apply (P : S131072x3x21.Idx → EReal) (idx : S20x1.Idx → BitVec 32) (f : Fin 131072) (c : Fin 3) (l : Fin 20) :
    Host.gather gd P idx (ix3 f c l)
      = P (ix3 f c ⟨min (idx (ix2 l 0)).toInt.toNat 20, by omega⟩) := by
  have hob : (gd).operandBatchingDims = [] := rfl
  have hsim : (gd).startIndexMap = [2] := rfl
  have hcoll : (gd).collapsedSliceDims = [2] := rfl
  have hb : ∀ a : Fin 3, a ∉ (gd).operandBatchingDims := fun a => by rw [hob]; exact List.not_mem_nil
  unfold Host.gather
  congr 1
  funext a
  refine Fin.ext ?_
  show (gd).start (ix3 f c l) idx a + (gd).batchCoord (ix3 f c l) a + (gd).offCoord (ix3 f c l) a = _
  rw [GatherDims.batchCoord_eq_zero _ _ _ (hb a), Nat.add_zero]
  match a with
  | ⟨0, _⟩ =>
    have hm : (0 : Fin 3) ∉ (gd).startIndexMap := by rw [hsim]; decide
    have hk : (0 : Fin 3) ∈ (gd).sKept := by rw [GatherDims.mem_sKept, hcoll, hob]; decide
    show (gd).start (ix3 f c l) idx 0 + (gd).offCoord (ix3 f c l) 0 = f.val
    unfold GatherDims.start GatherDims.offCoord
    rw [dif_neg hm, dif_pos hk, Nat.zero_add]
    rfl
  | ⟨1, _⟩ =>
    have hm : (1 : Fin 3) ∉ (gd).startIndexMap := by rw [hsim]; decide
    have hk : (1 : Fin 3) ∈ (gd).sKept := by rw [GatherDims.mem_sKept, hcoll, hob]; decide
    show (gd).start (ix3 f c l) idx 1 + (gd).offCoord (ix3 f c l) 1 = c.val
    unfold GatherDims.start GatherDims.offCoord
    rw [dif_neg hm, dif_pos hk, Nat.zero_add]
    rfl
  | ⟨2, _⟩ =>
    have hm : (2 : Fin 3) ∈ (gd).startIndexMap := by rw [hsim]; decide
    have hk : (2 : Fin 3) ∉ (gd).sKept := by rw [GatherDims.mem_sKept, hcoll, hob]; decide
    show (gd).start (ix3 f c l) idx 2 + (gd).offCoord (ix3 f c l) 2 = min (idx (ix2 l 0)).toInt.toNat 20
    unfold GatherDims.start GatherDims.offCoord
    rw [dif_pos hm, dif_neg hk, Nat.add_zero]
    have hsi : (gd).siIdx (ix3 f c l) ⟨List.idxOf (2 : Fin 3) (gd).startIndexMap,
        List.idxOf_lt_length_iff.2 hm⟩ = ix2 l 0 := by
      funext b; refine Fin.ext ?_
      match b with
      | ⟨0, _⟩ => rfl
      | ⟨1, _⟩ => rfl
    rw [hsi]
    rfl

theorem clamp_of_inRange (w : BitVec 32) (h0 : 0 ≤ w.toInt) (h1 : w.toInt < 21) :
    min w.toInt.toNat 20 = (jointOf w).val := by
  have hlt := w.isLt
  have hw : w.toInt = (w.toNat : Int) := by
    rw [BitVec.toInt_eq_toNat_cond] at h0 ⊢
    split_ifs at h0 ⊢ with hc
    · rfl
    · exfalso; omega
  rw [hw] at h1 ⊢
  show min (w.toNat : Int).toNat 20 = w.toNat % 21
  omega

theorem gather_joint (P : S131072x3x21.Idx → EReal) (idx : S20x1.Idx → BitVec 32) (f : Fin 131072) (c : Fin 3) (l : Fin 20)
    (w : BitVec 32) (hw : idx (ix2 l 0) = w) (h0 : 0 ≤ w.toInt) (h1 : w.toInt < 21) :
    Host.gather gd P idx (ix3 f c l) = P (ix3 f c (jointOf w)) := by
  subst hw
  rw [gather_apply]
  exact congrArg (fun j => P (ix3 f c j)) (Fin.ext (clamp_of_inRange _ h0 h1))

def limb (x0 : (⟨S131073x3x21, .f32⟩ : BufTy).Contents (Elt Ideal)) (t : (⟨S20x2, .i32⟩ : BufTy).Contents (Elt Ideal)) :
    (⟨S131072x3x20, .f32⟩ : BufTy).Contents (Elt Ideal) :=
  subf (F := Ideal) (φ := .f32) (Host.gather gd (rows x0) (wrap (col0 t))) (Host.gather gd (rows x0) (wrap (col1 t)))

theorem limb_apply (x0 : T0.Idx → EReal) (t : T6.Idx → BitVec 32) (ht : InRange t) (f : Fin 131072) (c : Fin 3) (l : Fin 20) :
    limb x0 t (ix3 f c l)
      = x0 (ix3 (row f) c (jointOf (t (ix2 l 0)))) - x0 (ix3 (row f) c (jointOf (t (ix2 l 1)))) := by
  show Host.gather gd (rows x0) (wrap (col0 t)) (ix3 f c l) - Host.gather gd (rows x0) (wrap (col1 t)) (ix3 f c l) = _
  rw [gather_joint _ _ f c l (t (ix2 l 0))
      (by rw [wrap_of_nonneg _ _ (by rw [col0_apply]; exact (ht _).1), col0_apply]) (ht _).1 (ht _).2,
    gather_joint _ _ f c l (t (ix2 l 1))
      (by rw [wrap_of_nonneg _ _ (by rw [col1_apply]; exact (ht _).1), col1_apply]) (ht _).1 (ht _).2,
    rows_apply, rows_apply]

theorem reduce_frames (x : S131072.Idx → EReal) :
    Host.reduceAdd (F := Ideal) x (constant S_ .f32 0x00000000#32) reducesTo_S131072_S_d0 h_S_
      = fun _ => ∑ f : Fin 131072, x (ix1 f) := by
  funext j
  rw [hostReduceAdd_apply, Ideal.hostReduceAdd_total _ (fun b => b.elim0), constant_apply, Ideal.ofBits_zero_f32, zero_add,
    sum_idx1]

theorem reduce_cl (x : S131072x3x20.Idx → EReal) (f : Fin 131072) :
    Host.reduceAdd (F := Ideal) x (constant S_ .f32 0x00000000#32) reducesTo_S131072x3x20_S131072_d1_2 h_S_ (ix1 f)
      = ∑ c : Fin 3, ∑ l : Fin 20, x (ix3 f c l) := by
  rw [hostReduceAdd_apply, hostReduceAdd_rows, constant_apply, Ideal.ofBits_zero_f32, zero_add]

theorem reduce_c (x : S131072x3x20.Idx → EReal) (f : Fin 131072) (l : Fin 20) :
    Host.reduceAdd (F := Ideal) x (constant S_ .f32 0x00000000#32) reducesTo_S131072x3x20_S131072x20_d1 h_S_ (ix2 f l)
      = ∑ c : Fin 3, x (ix3 f c l) := by
  rw [hostReduceAdd_apply, Ideal.hostReduceAdd_single _ (by decide : S131072x3x20.Reduces [1] S131072x20), constant_apply,
    Ideal.ofBits_zero_f32, zero_add]
  refine Finset.sum_congr rfl fun c _ => congrArg x (funext fun a => Fin.ext ?_)
  match a with
  | ⟨0, _⟩ => rfl
  | ⟨1, _⟩ => rfl
  | ⟨2, _⟩ => rfl

theorem reduce_l (x : S131072x20.Idx → EReal) (f : Fin 131072) :
    Host.reduceAdd (F := Ideal) x (constant S_ .f32 0x00000000#32) reducesTo_S131072x20_S131072_d1 h_S_ (ix1 f)
      = ∑ l : Fin 20, x (ix2 f l) := by
  rw [hostReduceAdd_apply, Ideal.hostReduceAdd_single _ (by decide : S131072x20.Reduces [1] S131072), constant_apply,
    Ideal.ofBits_zero_f32, zero_add]
  refine Finset.sum_congr rfl fun l _ => congrArg x (funext fun a => Fin.ext ?_)
  match a with
  | ⟨0, _⟩ => rfl
  | ⟨1, _⟩ => rfl

end Cert.ReferenceIdeal.RefGather

end
-- ==== Proof.RefProj.lean ====
import proofs.«408326_j73830487818418_3_alg».proof.ReferenceIdeal
import proofs.«408326_j73830487818418_3_alg».proof.Proof.RefGather
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefProj

open Idealize.ShloMosaic Idealize.ShloMosaic.ValueIdx Cert.ReferenceIdeal Cert.Spec Cert.ReferenceIdeal.RefGather
open Cert.ReferenceIdeal.Facts₀

variable [Cert.ReferenceIdeal.Facts]

abbrev C (S : Shape) : Type := (⟨S, .f32⟩ : BufTy).Contents (Elt Ideal)

abbrev A (S : Shape) : Type := FVec Ideal S .f32

def rel (x0 : A S131073x3x21) (x3 : A S131072x3x1) : A S131072x3x21 :=
  subf (rows x0) (broadcastInDim S131072x3x21 ![0, 1, 2] bcast_S131072x3x1_S131072x3x21_0_1_2 x3)

def camc (x0 : A S131073x3x21) (x2 : A S131072x3x3) (x3 : A S131072x3x1) : A S131072x3x21 :=
  Host.dotGeneral (F := Ideal) dot_S131072x3x3_S131072x3x21_S131072x3x21_1_1_2_2_0_0 none x2 (rel x0 x3)

def depth (x0 : A S131073x3x21) (x2 : A S131072x3x3) (x3 : A S131072x3x1) : A S131072x21 :=
  shapeCast S131072x21
    (extractStridedSlice S131072x1x21 ![0, 2, 0] (camc x0 x2 x3) slices_S131072x3x21_S131072x1x21_0_2_0)
    shapeCasts_S131072x1x21_S131072x21

def cam0 (x0 : A S131073x3x21) (x2 : A S131072x3x3) (x3 : A S131072x3x1) : A S131072x21 :=
  shapeCast S131072x21
    (extractStridedSlice S131072x1x21 ![0, 0, 0] (camc x0 x2 x3) slices_S131072x3x21_S131072x1x21_0_0_0)
    shapeCasts_S131072x1x21_S131072x21

def cam1 (x0 : A S131073x3x21) (x2 : A S131072x3x3) (x3 : A S131072x3x1) : A S131072x21 :=
  shapeCast S131072x21
    (extractStridedSlice S131072x1x21 ![0, 1, 0] (camc x0 x2 x3) slices_S131072x3x21_S131072x1x21_0_1_0)
    shapeCasts_S131072x1x21_S131072x21

def k512 : A S131072x21 :=
  broadcastInDim S131072x21 ![] bcast_S_S131072x21 (constant (F := Ideal) S_ .f32 0x44000000#32)

def prj0 (x0 : A S131073x3x21) (x2 : A S131072x3x3) (x3 : A S131072x3x1) : A S131072x21 :=
  addf (Host.divf (F := Ideal) (mulf k512 (cam0 x0 x2 x3)) (depth x0 x2 x3)) k512

def prj1 (x0 : A S131073x3x21) (x2 : A S131072x3x3) (x3 : A S131072x3x1) : A S131072x21 :=
  addf (Host.divf (F := Ideal) (mulf k512 (cam1 x0 x2 x3)) (depth x0 x2 x3)) k512

def prj (x0 : A S131073x3x21) (x2 : A S131072x3x3) (x3 : A S131072x3x1) : A S131072x2x21 :=
  concatenate S131072x2x21 1
    [⟨S131072x1x21, broadcastInDim S131072x1x21 ![0, 2] bcast_S131072x21_S131072x1x21_0_2 (prj0 x0 x2 x3)⟩,
     ⟨S131072x1x21, broadcastInDim S131072x1x21 ![0, 2] bcast_S131072x21_S131072x1x21_0_2 (prj1 x0 x2 x3)⟩]
    concatenates_S131072x1x21_S131072x1x21_S131072x2x21_d1

def err2 (x0 : A S131073x3x21) (x1 : A S131072x2x21) (x2 : A S131072x3x3) (x3 : A S131072x3x1) : A S131072x2x21 :=
  mulf (subf (prj x0 x2 x3) x1) (subf (prj x0 x2 x3) x1)

def perFrame (x0 : A S131073x3x21) (x1 : A S131072x2x21) (x2 : A S131072x3x3) (x3 : A S131072x3x1) : A S131072 :=
  mulf
    (Host.divf (F := Ideal)
      (Host.reduceAdd (F := Ideal) (err2 x0 x1 x2 x3) (constant (F := Ideal) S_ .f32 0x00000000#32)
        reducesTo_S131072x2x21_S131072_d1_2 h_S_)
      (broadcastInDim S131072 ![] bcast_S_S131072 (constant (F := Ideal) S_ .f32 0x42280000#32)))
    maskV

def term (x0 : C S131073x3x21) (x1 : C S131072x2x21) (x2 : C S131072x3x3) (x3 : C S131072x3x1) : C S_ :=
  Host.reduceAdd (F := Ideal) (φ := .f32) (perFrame x0 x1 x2 x3) (constant (F := Ideal) S_ .f32 0x00000000#32)
    reducesTo_S131072_S_d0 h_S_

def final (p s b l : C S_) : C S_ :=
  addf
    (addf
      (addf (mulf (constant (F := Ideal) S_ .f32 0x3E99999A#32) (p : A S_)) (mulf (constant (F := Ideal) S_ .f32 0x3F000000#32) (s : A S_)))
      (mulf (constant (F := Ideal) S_ .f32 0x3E4CCCCD#32) (b : A S_)))
    (mulf (constant (F := Ideal) S_ .f32 0x3DCCCCCD#32) (l : A S_))

theorem final_eq (P S B L : EReal) :
    final (fun _ => P) (fun _ => S) (fun _ => B) (fun _ => L)
      = fun _ => ((c03 * P + c05 * S) + c02 * B) + c01 * L := rfl

theorem rel_apply (x0 : A S131073x3x21) (x3 : A S131072x3x1) (f : Fin 131072) (c : Fin 3) (j : Fin 21) :
    rel x0 x3 (ix3 f c j) = x0 (ix3 (row f) c j) - x3 (ix3 f c 0) := by
  unfold rel
  rw [subf_apply, rows_apply]
  congr 1
  refine broadcastInDim_apply _ _ x3 (ix3 f c j) (ix3 f c 0) fun a => ?_
  match a with
  | ⟨0, _⟩ => rfl
  | ⟨1, _⟩ => rfl
  | ⟨2, _⟩ => rfl

section Contraction

theorem lhs_axis0 (j : S131072x3x21.Idx) (k : dot_S131072x3x3_S131072x3x21_S131072x3x21_1_1_2_2_0_0.contr.Idx) :
    (dot_S131072x3x3_S131072x3x21_S131072x3x21_1_1_2_2_0_0.lhsIdx j k 0).val = (j 0).val := by
  unfold DotDims.lhsIdx
  rw [dif_pos (show (0 : Fin S131072x3x3.rank) ∈ dot_S131072x3x3_S131072x3x21_S131072x3x21_1_1_2_2_0_0.lhsBatch from List.mem_singleton.mpr rfl)]
  rfl

theorem lhs_axis1 (j : S131072x3x21.Idx) (k : dot_S131072x3x3_S131072x3x21_S131072x3x21_1_1_2_2_0_0.contr.Idx) :
    (dot_S131072x3x3_S131072x3x21_S131072x3x21_1_1_2_2_0_0.lhsIdx j k 1).val = (k ⟨0, Nat.one_pos⟩).val :=
  dot_S131072x3x3_S131072x3x21_S131072x3x21_1_1_2_2_0_0.lhsIdx_val_of_single rfl j k

theorem lhs_axis2 (j : S131072x3x21.Idx) (k : dot_S131072x3x3_S131072x3x21_S131072x3x21_1_1_2_2_0_0.contr.Idx) :
    (dot_S131072x3x3_S131072x3x21_S131072x3x21_1_1_2_2_0_0.lhsIdx j k 2).val = (j 1).val := by
  unfold DotDims.lhsIdx
  rw [dif_neg (show ¬(2 : Fin S131072x3x3.rank) ∈ dot_S131072x3x3_S131072x3x21_S131072x3x21_1_1_2_2_0_0.lhsBatch from fun h => absurd (List.mem_singleton.mp h) (by decide)),
    dif_pos (show (2 : Fin S131072x3x3.rank) ∈ dot_S131072x3x3_S131072x3x21_S131072x3x21_1_1_2_2_0_0.lhsNonContracting from List.mem_singleton.mpr rfl)]
  rfl

theorem rhs_axis0 (j : S131072x3x21.Idx) (k : dot_S131072x3x3_S131072x3x21_S131072x3x21_1_1_2_2_0_0.contr.Idx) :
    (dot_S131072x3x3_S131072x3x21_S131072x3x21_1_1_2_2_0_0.rhsIdx j k 0).val = (j 0).val := by
  unfold DotDims.rhsIdx
  rw [dif_pos (show (0 : Fin S131072x3x21.rank) ∈ dot_S131072x3x3_S131072x3x21_S131072x3x21_1_1_2_2_0_0.rhsBatch from List.mem_singleton.mpr rfl)]
  rfl

theorem rhs_axis1 (j : S131072x3x21.Idx) (k : dot_S131072x3x3_S131072x3x21_S131072x3x21_1_1_2_2_0_0.contr.Idx) :
    (dot_S131072x3x3_S131072x3x21_S131072x3x21_1_1_2_2_0_0.rhsIdx j k 1).val = (k ⟨0, Nat.one_pos⟩).val :=
  dot_S131072x3x3_S131072x3x21_S131072x3x21_1_1_2_2_0_0.rhsIdx_val_of_single rfl j k

theorem rhs_axis2 (j : S131072x3x21.Idx) (k : dot_S131072x3x3_S131072x3x21_S131072x3x21_1_1_2_2_0_0.contr.Idx) :
    (dot_S131072x3x3_S131072x3x21_S131072x3x21_1_1_2_2_0_0.rhsIdx j k 2).val = (j 2).val := by
  unfold DotDims.rhsIdx
  rw [dif_neg (show ¬(2 : Fin S131072x3x21.rank) ∈ dot_S131072x3x3_S131072x3x21_S131072x3x21_1_1_2_2_0_0.rhsBatch from fun h => absurd (List.mem_singleton.mp h) (by decide)),
    dif_pos (show (2 : Fin S131072x3x21.rank) ∈ dot_S131072x3x3_S131072x3x21_S131072x3x21_1_1_2_2_0_0.rhsNonContracting from List.mem_singleton.mpr rfl)]
  rfl

theorem camc_apply (x0 : A S131073x3x21) (x2 : A S131072x3x3) (x3 : A S131072x3x1) (f : Fin 131072) (i : Fin 3) (j : Fin 21) :
    camc x0 x2 x3 (ix3 f i j) = ∑ jj : Fin 3, x2 (ix3 f jj i) * rel x0 x3 (ix3 f jj j) := by
  unfold camc
  show FloatOps.dotGeneral _ none _ x2 (rel x0 x3) (ix3 f i j) = _
  rw [Ideal.dotGeneral_apply,
    ← Equiv.sum_comp (contrEquiv1 dot_S131072x3x3_S131072x3x21_S131072x3x21_1_1_2_2_0_0 3 rfl rfl).symm]
  refine Finset.sum_congr rfl fun jj _ => ?_
  have hk := contrEquiv1_symm_val dot_S131072x3x3_S131072x3x21_S131072x3x21_1_1_2_2_0_0 3 rfl rfl jj
  have hl : dot_S131072x3x3_S131072x3x21_S131072x3x21_1_1_2_2_0_0.lhsIdx (ix3 f i j)
      ((contrEquiv1 dot_S131072x3x3_S131072x3x21_S131072x3x21_1_1_2_2_0_0 3 rfl rfl).symm jj) = ix3 f jj i := by
    funext a; apply Fin.ext
    match a with
    | ⟨0, _⟩ => exact lhs_axis0 _ _
    | ⟨1, _⟩ => exact (lhs_axis1 _ _).trans hk
    | ⟨2, _⟩ => exact lhs_axis2 _ _
  have hr : dot_S131072x3x3_S131072x3x21_S131072x3x21_1_1_2_2_0_0.rhsIdx (ix3 f i j)
      ((contrEquiv1 dot_S131072x3x3_S131072x3x21_S131072x3x21_1_1_2_2_0_0 3 rfl rfl).symm jj) = ix3 f jj j := by
    funext a; apply Fin.ext
    match a with
    | ⟨0, _⟩ => exact rhs_axis0 _ _
    | ⟨1, _⟩ => exact (rhs_axis1 _ _).trans hk
    | ⟨2, _⟩ => exact rhs_axis2 _ _
  rw [hl, hr]

end Contraction

theorem cutRow_apply (v : A S131072x3x21) (o : Nat) (h : S131072x3x21.Slices ![0, o, 0] S131072x1x21)
    (hc : S131072x1x21.ShapeCasts S131072x21) (c : Fin 3) (ho : c.val = o) (f : Fin 131072) (j : Fin 21) :
    shapeCast S131072x21 (extractStridedSlice S131072x1x21 ![0, o, 0] v h) hc (ix2 f j) = v (ix3 f c j) := by
  refine (shapeCast_apply _ hc (ix2 f j) (ix3 f (0 : Fin 1) j) ?_).trans ?_
  · rw [Shape.rowMajor_val_three, Shape.rowMajor_val_two]
    show (f.val * 1 + 0) * 21 + j.val = f.val * 21 + j.val
    omega
  · exact slice3_axis1_apply o v h f 0 j c (by rw [ho]; rfl)

theorem depth_apply (x0 : A S131073x3x21) (x2 : A S131072x3x3) (x3 : A S131072x3x1) (f : Fin 131072) (j : Fin 21) :
    depth x0 x2 x3 (ix2 f j) = camc x0 x2 x3 (ix3 f 2 j) :=
  cutRow_apply _ 2 _ _ 2 rfl f j

theorem cam0_apply (x0 : A S131073x3x21) (x2 : A S131072x3x3) (x3 : A S131072x3x1) (f : Fin 131072) (j : Fin 21) :
    cam0 x0 x2 x3 (ix2 f j) = camc x0 x2 x3 (ix3 f 0 j) :=
  cutRow_apply _ 0 _ _ 0 rfl f j

theorem cam1_apply (x0 : A S131073x3x21) (x2 : A S131072x3x3) (x3 : A S131072x3x1) (f : Fin 131072) (j : Fin 21) :
    cam1 x0 x2 x3 (ix2 f j) = camc x0 x2 x3 (ix3 f 1 j) :=
  cutRow_apply _ 1 _ _ 1 rfl f j

theorem prj0_apply (x0 : A S131073x3x21) (x2 : A S131072x3x3) (x3 : A S131072x3x1) (f : Fin 131072) (j : Fin 21) :
    prj0 x0 x2 x3 (ix2 f j)
      = Ideal.div (c512 * camc x0 x2 x3 (ix3 f 0 j)) (camc x0 x2 x3 (ix3 f 2 j)) + c512 := by
  show Ideal.div (c512 * cam0 x0 x2 x3 (ix2 f j)) (depth x0 x2 x3 (ix2 f j)) + c512 = _
  rw [cam0_apply, depth_apply]

theorem prj1_apply (x0 : A S131073x3x21) (x2 : A S131072x3x3) (x3 : A S131072x3x1) (f : Fin 131072) (j : Fin 21) :
    prj1 x0 x2 x3 (ix2 f j)
      = Ideal.div (c512 * camc x0 x2 x3 (ix3 f 1 j)) (camc x0 x2 x3 (ix3 f 2 j)) + c512 := by
  show Ideal.div (c512 * cam1 x0 x2 x3 (ix2 f j)) (depth x0 x2 x3 (ix2 f j)) + c512 = _
  rw [cam1_apply, depth_apply]

theorem midUnit_apply (v : A S131072x21) (h : S131072x21.BroadcastsInDim S131072x1x21 ![0, 2])
    (f : Fin 131072) (j : Fin 21) :
    broadcastInDim S131072x1x21 ![0, 2] h v (ix3 f (0 : Fin 1) j) = v (ix2 f j) := by
  refine broadcastInDim_apply _ h v (ix3 f (0 : Fin 1) j) (ix2 f j) fun a => ?_
  match a with
  | ⟨0, _⟩ => rfl
  | ⟨1, _⟩ => rfl

theorem prj_apply0 (x0 : A S131073x3x21) (x2 : A S131072x3x3) (x3 : A S131072x3x1) (f : Fin 131072) (j : Fin 21) :
    prj x0 x2 x3 (ix3 f 0 j) = prj0 x0 x2 x3 (ix2 f j) := by
  unfold prj
  refine (concatenate_pair_apply_left (s₁ := S131072x1x21) (s₂ := S131072x1x21) (1 : Fin S131072x2x21.rank) _ _ _ (ix3 f (0 : Fin 2) j) rfl
    (ix3 f (0 : Fin 1) j) fun b => ?_).trans (midUnit_apply _ _ f j)
  match b with
  | ⟨0, _⟩ => rfl
  | ⟨1, _⟩ => rfl
  | ⟨2, _⟩ => rfl

theorem prj_apply1 (x0 : A S131073x3x21) (x2 : A S131072x3x3) (x3 : A S131072x3x1) (f : Fin 131072) (j : Fin 21) :
    prj x0 x2 x3 (ix3 f 1 j) = prj1 x0 x2 x3 (ix2 f j) := by
  unfold prj
  refine (concatenate_pair_apply_right (s₁ := S131072x1x21) (s₂ := S131072x1x21) (1 : Fin S131072x2x21.rank) _ _ _ (ix3 f (1 : Fin 2) j) rfl rfl
    (ix3 f (0 : Fin 1) j) (fun b hb => ?_) rfl).trans (midUnit_apply _ _ f j)
  match b with
  | ⟨0, _⟩ => rfl
  | ⟨1, _⟩ => exact absurd rfl hb
  | ⟨2, _⟩ => rfl

theorem perFrame_apply (x0 : A S131073x3x21) (x1 : A S131072x2x21) (x2 : A S131072x3x3) (x3 : A S131072x3x1)
    (f : Fin 131072) :
    perFrame x0 x1 x2 x3 (ix1 f)
      = Ideal.div (∑ c : Fin 2, ∑ j : Fin 21,
          (prj x0 x2 x3 (ix3 f c j) - x1 (ix3 f c j)) * (prj x0 x2 x3 (ix3 f c j) - x1 (ix3 f c j))) c42 * mask f := by
  show Ideal.div (Ideal.hostReduceAdd reducesTo_S131072x2x21_S131072_d1_2 (err2 x0 x1 x2 x3)
      (Ideal.ofBits .f32 0x00000000#32) (ix1 f)) c42 * maskV (ix1 f) = _
  rw [hostReduceAdd_rows, Ideal.ofBits_zero_f32, zero_add, maskV_apply]
  rfl

theorem term_sum (x0 : C S131073x3x21) (x1 : C S131072x2x21) (x2 : C S131072x3x3) (x3 : C S131072x3x1) :
    term x0 x1 x2 x3 = fun _ => ∑ f : Fin 131072, perFrame x0 x1 x2 x3 (ix1 f) := by
  funext i
  show Ideal.hostReduceAdd reducesTo_S131072_S_d0 (perFrame x0 x1 x2 x3) (Ideal.ofBits .f32 0x00000000#32) i = _
  rw [Ideal.hostReduceAdd_total _ (fun b => b.elim0), Ideal.ofBits_zero_f32, zero_add, sum_idx1]

section Spec

variable (x0 : C S131073x3x21) (x1 : C S131072x2x21) (x2 : C S131072x3x3) (x3 : C S131072x3x1)
  (x4 : C S131072x3x20) (x5 : C S20) (x6 x7 : (⟨S20x2, .i32⟩ : BufTy).Contents (Elt Ideal))

theorem camc_eq_pcam (f : Fin 131072) (i : Fin 3) (j : Fin 21) :
    camc x0 x2 x3 (ix3 f i j) = pcam (argsOf x0 x1 x2 x3 x4 x5 x6 x7) f i j := by
  rw [camc_apply]
  unfold pcam pd
  refine Finset.sum_congr rfl fun jj _ => ?_
  rw [rel_apply]
  rfl

theorem term_eq :
    term x0 x1 x2 x3
      = fun _ => ∑ f : Fin 131072, Ideal.div (projF (argsOf x0 x1 x2 x3 x4 x5 x6 x7) f) c42 * mask f := by
  rw [term_sum]
  funext _
  refine Finset.sum_congr rfl fun f _ => ?_
  rw [perFrame_apply, Fin.sum_univ_two]
  unfold projF px py Cert.Spec.sq
  simp only [prj_apply0, prj_apply1, prj0_apply, prj1_apply, camc_eq_pcam x0 x1 x2 x3 x4 x5 x6 x7]
  rfl

end Spec

end Cert.ReferenceIdeal.RefProj

end
-- ==== Proof.RefSmooth.lean ====
import proofs.«408326_j73830487818418_3_alg».proof.ReferenceIdeal
import proofs.«408326_j73830487818418_3_alg».proof.Proof.RefGather
import Idealize.ShloMosaic.Lib.ValueIdx
import Idealize.ShloMosaic.Lib.ValueIdxRank1
import Idealize.ShloMosaic.Lib.IdealHost
import Idealize.ShloMosaic.PureOps.Ideal.Laws
import Idealize.ShloMosaic.Lib.StableHlo.Predicate

noncomputable section

namespace Cert.ReferenceIdeal.RefSmooth

open Idealize.ShloMosaic Idealize.ShloMosaic.ValueIdx Cert.Spec
open Cert.ReferenceIdeal Cert.ReferenceIdeal.Facts₀

def modW (m : BitVec 32) : BitVec 32 := Scalar.select (IntOp.cmpi .eq m 0#32) 1#32 m

def pyRemW (a m : BitVec 32) : BitVec 32 :=
  Scalar.select
    (IntOp.andi
      (IntOp.cmpi .ne (IntOp.cmpi .slt (IntOp.remsi .host a (modW m)) 0#32) (IntOp.cmpi .slt (modW m) 0#32))
      (IntOp.cmpi .ne (IntOp.remsi .host a (modW m)) 0#32))
    (IntOp.addi (IntOp.remsi .host a (modW m)) (modW m))
    (IntOp.remsi .host a (modW m))

def wrapW (r : BitVec 32) : BitVec 32 := Scalar.select (IntOp.cmpi .slt r 0#32) (IntOp.addi r 131073#32) r

theorem modW_eq : modW 131073#32 = 131073#32 := by decide

theorem srem_small (a : BitVec 32) (ha : a.toNat < 131073) : a.srem 131073#32 = a := by
  have hm : a.msb = false := BitVec.msb_eq_false_iff_two_mul_lt.mpr (by omega)
  rw [BitVec.srem_eq, hm, show (131073#32 : BitVec 32).msb = false from by decide]
  apply BitVec.eq_of_toNat_eq
  rw [BitVec.toNat_umod]
  exact Nat.mod_eq_of_lt ha

theorem remsi_small (a : BitVec 32) (ha : a.toNat < 131073) : IntOp.remsi .host a 131073#32 = a := by
  unfold IntOp.remsi
  rw [if_neg, srem_small a ha]
  rintro (h | ⟨_, h⟩) <;> exact absurd h (by decide)

theorem slt_zero_small (a : BitVec 32) (ha : a.toNat < 2 ^ 31) : IntOp.cmpi .slt a 0#32 = 0#1 := by
  have hi : a.toInt = a.toNat := StableHlo.Predicate.toInt_eq_toNat_of_lt ha
  have hs : a.slt 0#32 = false := by
    rw [BitVec.slt_eq_decide, hi, show (0#32 : BitVec 32).toInt = 0 from rfl]
    exact decide_eq_false (by omega)
  show BitVec.ofBool (a.slt 0#32) = 0#1
  rw [hs]; rfl

theorem pyRemW_small (a : BitVec 32) (ha : a.toNat < 131073) : pyRemW a 131073#32 = a := by
  unfold pyRemW
  rw [modW_eq, remsi_small a ha, slt_zero_small a (by omega),
    show IntOp.cmpi .slt 131073#32 0#32 = 0#1 from by decide,
    show IntOp.cmpi .ne 0#1 0#1 = 0#1 from by decide]
  show Scalar.select (0#1 &&& _) _ a = a
  rw [BitVec.zero_and]
  exact select_zero _ _

theorem pyRemW_neg1 : pyRemW (0#32 - 1#32) 131073#32 = 131072#32 := by decide
theorem pyRemW_neg2 : pyRemW (0#32 - 2#32) 131073#32 = 131071#32 := by decide
theorem pyRemW_neg2' : pyRemW (1#32 - 2#32) 131073#32 = 131072#32 := by decide

theorem wrapW_small (a : BitVec 32) (ha : a.toNat < 2 ^ 31) : wrapW a = a := by
  unfold wrapW; rw [slt_zero_small a ha]; exact select_zero _ _

theorem word_prev1 (f : Nat) (hf : f < 131072) :
    wrapW (pyRemW (IntOp.subi (BitVec.ofNat 32 f) 1#32) 131073#32) = BitVec.ofNat 32 ((f + 131072) % 131073) := by
  by_cases h0 : f = 0
  · subst h0
    show wrapW (pyRemW (0#32 - 1#32) 131073#32) = _
    rw [pyRemW_neg1]; decide
  · have e : IntOp.subi (BitVec.ofNat 32 f) 1#32 = BitVec.ofNat 32 (f - 1) :=
      StableHlo.Predicate.sub_one_ofNat f (by omega) (by omega)
    have hn : (BitVec.ofNat 32 (f - 1)).toNat = f - 1 := by
      rw [BitVec.toNat_ofNat]; exact Nat.mod_eq_of_lt (by omega)
    rw [e, pyRemW_small _ (by omega), wrapW_small _ (by omega)]
    exact congrArg (BitVec.ofNat 32) (by omega)

theorem word_prev2 (f : Nat) (hf : f < 131072) :
    wrapW (pyRemW (IntOp.subi (BitVec.ofNat 32 f) 2#32) 131073#32) = BitVec.ofNat 32 ((f + 131071) % 131073) := by
  by_cases h0 : f = 0
  · subst h0
    show wrapW (pyRemW (0#32 - 2#32) 131073#32) = _
    rw [pyRemW_neg2]; decide
  by_cases h1 : f = 1
  · subst h1
    show wrapW (pyRemW (1#32 - 2#32) 131073#32) = _
    rw [pyRemW_neg2']; decide
  · have e : IntOp.subi (BitVec.ofNat 32 f) 2#32 = BitVec.ofNat 32 (f - 2) := by
      apply BitVec.eq_of_toNat_eq
      show (BitVec.ofNat 32 f - 2#32).toNat = _
      simp only [BitVec.toNat_sub, BitVec.toNat_ofNat]; omega
    have hn : (BitVec.ofNat 32 (f - 2)).toNat = f - 2 := by
      rw [BitVec.toNat_ofNat]; exact Nat.mod_eq_of_lt (by omega)
    rw [e, pyRemW_small _ (by omega), wrapW_small _ (by omega)]
    exact congrArg (BitVec.ofNat 32) (by omega)

theorem toNat_toInt_small (n : Nat) (hn : n < 2 ^ 31) : (BitVec.ofNat 32 n).toInt.toNat = n := by
  rw [StableHlo.Predicate.toInt_ofNat_small n hn]; exact Int.toNat_natCast n

variable [Cert.ReferenceIdeal.Facts]

abbrev zeros : IVec S131072 32 := broadcastInDim S131072 ![] bcast_S_S131072 (constantI S_ 32 0#32)

def modulus (m : IVec S_ 32) : IVec S_ 32 :=
  select (cmpi .eq (id m) (constantI S_ 32 0#32)) (constantI S_ 32 1#32) (id m)

def rem0 (a : IVec S131072 32) (m : IVec S_ 32) : IVec S131072 32 :=
  Host.remsi a (broadcastInDim S131072 ![] bcast_S_S131072 (modulus m))

def pyRem (a : IVec S131072 32) (m : IVec S_ 32) : IVec S131072 32 :=
  select
    (andi
      (cmpi .ne (cmpi .slt (rem0 a m) zeros)
        (broadcastInDim S131072 ![] bcast_S_S131072 (cmpi .slt (modulus m) (constantI S_ 32 0#32))))
      (cmpi .ne (rem0 a m) zeros))
    (addi (rem0 a m) (broadcastInDim S131072 ![] bcast_S_S131072 (modulus m)))
    (rem0 a m)

def wrap (r : IVec S131072 32) : IVec S131072x1 32 :=
  broadcastInDim S131072x1 ![0] bcast_S131072_S131072x1_0
    (select (cmpi .slt r zeros)
      (addi r (broadcastInDim S131072 ![] bcast_S_S131072 (constantI S_ 32 131073#32))) r)

def back (k : BitVec 32) : IVec S131072x1 32 :=
  wrap (pyRem (subi (iotaInDim S131072 32 0) (broadcastInDim S131072 ![] bcast_S_S131072 (constantI S_ 32 k)))
    (constantI S_ 32 131073#32))

def rows (x0 : FVec Ideal S131073x3x21 .f32) (k : BitVec 32) : FVec Ideal S131072x3x21 .f32 :=
  Host.gather gather_S131073x3x21_S131072x1_S131072x3x21_12_0_n_n_0_1_1321 x0 (back k)

def diff2 (x0 : FVec Ideal S131073x3x21 .f32) : FVec Ideal S131072x3x21 .f32 :=
  subf
    (subf (RefGather.rows x0) (rows x0 1#32))
    (subf (rows x0 1#32) (rows x0 2#32))

def perFrame (x0 : FVec Ideal S131073x3x21 .f32) : FVec Ideal S131072 .f32 :=
  Host.divf (F := Ideal)
    (Host.reduceAdd (F := Ideal) (mulf (diff2 x0) (diff2 x0)) (constant (F := Ideal) S_ .f32 0x00000000#32)
      reducesTo_S131072x3x21_S131072_d1_2 h_S_)
    (broadcastInDim S131072 ![] bcast_S_S131072 (constant (F := Ideal) S_ .f32 0x427C0000#32))

def term (x0 : (⟨S131073x3x21, .f32⟩ : BufTy).Contents (Elt Ideal)) : (⟨S_, .f32⟩ : BufTy).Contents (Elt Ideal) :=
  Host.reduceAdd (F := Ideal) (perFrame x0) (constant (F := Ideal) S_ .f32 0x00000000#32) reducesTo_S131072_S_d0 h_S_

theorem col_apply {α : Type} (v : S131072.Idx → α) (f : Fin 131072) :
    broadcastInDim S131072x1 ![0] bcast_S131072_S131072x1_0 v (ix2 f 0) = v (ix1 f) := by
  unfold broadcastInDim
  congr 1
  funext a
  obtain rfl : a = 0 := Subsingleton.elim _ _
  refine Fin.ext ?_
  split
  · next h1 => exact absurd h1 (by decide)
  · rfl

theorem back_apply (k : BitVec 32) (f : Fin 131072) :
    back k (ix2 f 0) = wrapW (pyRemW (IntOp.subi (BitVec.ofNat 32 f.val) k) 131073#32) := by
  unfold back wrap
  rw [col_apply]
  rfl

abbrev GD : GatherDims S131073x3x21 S131072x1 S131072x3x21 :=
  gather_S131073x3x21_S131072x1_S131072x3x21_12_0_n_n_0_1_1321

theorem gd_axis0 {w : Nat} (idx : IVec S131072x1 w) (f : Fin 131072) (c : Fin 3) (j : Fin 21) :
    GD.start (ix3 f c j) idx (0 : Fin 3) + GD.batchCoord (ix3 f c j) (0 : Fin 3) + GD.offCoord (ix3 f c j) (0 : Fin 3)
      = min (idx (ix2 f 0)).toInt.toNat 131072 := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 3) ∈ GD.startIndexMap from List.mem_singleton.mpr rfl)]
  have hsi : GD.siIdx (ix3 f c j)
      ⟨List.idxOf (0 : Fin 3) GD.startIndexMap, List.idxOf_lt_length_iff.2 (List.mem_singleton.mpr rfl)⟩ = ix2 f 0 := by
    funext b; refine Fin.ext ?_
    match b with
    | ⟨0, _⟩ => rfl
    | ⟨1, _⟩ => rfl
  rw [hsi]
  rfl

theorem gd_axis1 {w : Nat} (idx : IVec S131072x1 w) (f : Fin 131072) (c : Fin 3) (j : Fin 21) :
    GD.start (ix3 f c j) idx (1 : Fin 3) + GD.batchCoord (ix3 f c j) (1 : Fin 3) + GD.offCoord (ix3 f c j) (1 : Fin 3)
      = c.val := by
  rw [GatherDims.batchCoord_eq_zero _ _ _ List.not_mem_nil, Nat.add_zero]
  unfold GatherDims.start
  rw [dif_neg (show (1 : Fin 3) ∉ GD.startIndexMap from fun h => absurd (List.mem_singleton.mp h) (by decide)),
    Nat.zero_add]
  rfl

theorem gd_axis2 {w : Nat} (idx : IVec S131072x1 w) (f : Fin 131072) (c : Fin 3) (j : Fin 21) :
    GD.start (ix3 f c j) idx (2 : Fin 3) + GD.batchCoord (ix3 f c j) (2 : Fin 3) + GD.offCoord (ix3 f c j) (2 : Fin 3)
      = j.val := by
  rw [GatherDims.batchCoord_eq_zero _ _ _ List.not_mem_nil, Nat.add_zero]
  unfold GatherDims.start
  rw [dif_neg (show (2 : Fin 3) ∉ GD.startIndexMap from fun h => absurd (List.mem_singleton.mp h) (by decide)),
    Nat.zero_add]
  rfl

theorem gather_rows_apply {α : Type} {w : Nat} (x : S131073x3x21.Idx → α) (idx : IVec S131072x1 w)
    (f : Fin 131072) (c : Fin 3) (j : Fin 21) :
    Host.gather gather_S131073x3x21_S131072x1_S131072x3x21_12_0_n_n_0_1_1321 x idx (ix3 f c j)
      = x (ix3 (⟨min (idx (ix2 f 0)).toInt.toNat 131072, by omega⟩ : Fin 131073) c j) := by
  unfold Host.gather
  congr 1
  funext a
  refine Fin.ext ?_
  match a with
  | ⟨0, _⟩ => exact gd_axis0 idx f c j
  | ⟨1, _⟩ => exact gd_axis1 idx f c j
  | ⟨2, _⟩ => exact gd_axis2 idx f c j

theorem rows1_apply (x0 : FVec Ideal S131073x3x21 .f32) (f : Fin 131072) (c : Fin 3) (j : Fin 21) :
    rows x0 1#32 (ix3 f c j) = x0 (ix3 (prev1 f) c j) := by
  unfold rows
  rw [gather_rows_apply]
  refine congrArg (fun r : Fin 131073 => x0 (ix3 r c j)) (Fin.ext ?_)
  show min (back 1#32 (ix2 f 0)).toInt.toNat 131072 = (f.val + 131072) % 131073
  rw [back_apply, word_prev1 f.val f.isLt, toNat_toInt_small _ (by omega)]
  omega

theorem rows2_apply (x0 : FVec Ideal S131073x3x21 .f32) (f : Fin 131072) (c : Fin 3) (j : Fin 21) :
    rows x0 2#32 (ix3 f c j) = x0 (ix3 (prev2 f) c j) := by
  unfold rows
  rw [gather_rows_apply]
  refine congrArg (fun r : Fin 131073 => x0 (ix3 r c j)) (Fin.ext ?_)
  show min (back 2#32 (ix2 f 0)).toInt.toNat 131072 = (f.val + 131071) % 131073
  rw [back_apply, word_prev2 f.val f.isLt, toNat_toInt_small _ (by omega)]
  omega

theorem diff2_apply (x0 : FVec Ideal S131073x3x21 .f32) (f : Fin 131072) (c : Fin 3) (j : Fin 21) :
    diff2 x0 (ix3 f c j)
      = (x0 (ix3 (row f) c j) - x0 (ix3 (prev1 f) c j)) - (x0 (ix3 (prev1 f) c j) - x0 (ix3 (prev2 f) c j)) := by
  unfold diff2
  rw [subf_apply, subf_apply, subf_apply, RefGather.rows_apply, rows1_apply, rows2_apply]

theorem perFrame_apply (x0 : FVec Ideal S131073x3x21 .f32) (f : Fin 131072) :
    perFrame x0 (ix1 f)
      = Ideal.div (∑ c : Fin 3, ∑ j : Fin 21,
          sq ((x0 (ix3 (row f) c j) - x0 (ix3 (prev1 f) c j)) - (x0 (ix3 (prev1 f) c j) - x0 (ix3 (prev2 f) c j)))) c63 := by
  unfold perFrame
  rw [hostDivf_apply, hostReduceAdd_apply, hostReduceAdd_rows, constant_apply, Ideal.ofBits_zero_f32, zero_add]
  refine congrArg (fun s => Ideal.div s c63) ?_
  refine Finset.sum_congr rfl fun c _ => Finset.sum_congr rfl fun j _ => ?_
  rw [mulf_apply, diff2_apply]
  rfl

theorem term_eq (x0 : T0.Idx → EReal) (x1 : T1.Idx → EReal) (x2 : T2.Idx → EReal) (x3 : T3.Idx → EReal)
    (x4 : T4.Idx → EReal) (x5 : T5.Idx → EReal) (x6 x7 : T6.Idx → BitVec 32) :
    term x0 = fun _ => ∑ f : Fin 131072, Ideal.div (smoothF (argsOf x0 x1 x2 x3 x4 x5 x6 x7) f) c63 := by
  funext i
  unfold term
  rw [hostReduceAdd_apply, Ideal.hostReduceAdd_total _ (fun b => b.elim0)]
  show Ideal.ofBits .f32 0x00000000#32 + ∑ k : S131072.Idx, perFrame x0 k = _
  rw [Ideal.ofBits_zero_f32, zero_add, ← Equiv.sum_comp idxEquiv1.symm]
  refine Finset.sum_congr rfl fun f _ => ?_
  show perFrame x0 (ix1 f) = _
  rw [perFrame_apply]
  rfl

end Cert.ReferenceIdeal.RefSmooth

end
-- ==== Proof.RefLift.lean ====
import proofs.«408326_j73830487818418_3_alg».proof.Proof.RefGather

noncomputable section

namespace Cert.ReferenceIdeal.RefLift

open Idealize.ShloMosaic Idealize.ShloMosaic.ValueIdx Cert.Spec Cert.ReferenceIdeal.RefGather
open Cert.ReferenceIdeal.Facts₀ Cert.ReferenceIdeal.Facts

variable [Cert.ReferenceIdeal.Facts]

theorem hostSqrt_apply {s : Shape} {φ : FTy} (a : FVec Ideal s φ) (i : s.Idx) :
    Host.sqrt (F := Ideal) a i = Ideal.sqrt (a i) := rfl

def norm (b : (⟨S131072x3x20, .f32⟩ : BufTy).Contents (Elt Ideal)) : (⟨S131072x1x20, .f32⟩ : BufTy).Contents (Elt Ideal) :=
  Host.sqrt (F := Ideal) (φ := .f32) (broadcastInDim S131072x1x20 ![0, 2] bcast_S131072x20_S131072x1x20_0_2
    (Host.reduceAdd (F := Ideal) (φ := .f32) (mulf (F := Ideal) (φ := .f32) b b) (constant S_ .f32 0x00000000#32)
      reducesTo_S131072x3x20_S131072x20_d1 h_S_))

theorem norm_apply (b : S131072x3x20.Idx → EReal) (f : Fin 131072) (l : Fin 20) :
    norm b (ix3 f 0 l) = Ideal.sqrt (∑ c : Fin 3, b (ix3 f c l) * b (ix3 f c l)) := by
  unfold norm
  rw [hostSqrt_apply, broadcastInDim_apply _ _ _ _ (ix2 f l) (fun a => by
    match a with
    | ⟨0, _⟩ => rfl
    | ⟨1, _⟩ => rfl), reduce_c]
  rfl

def dirs (b : (⟨S131072x3x20, .f32⟩ : BufTy).Contents (Elt Ideal)) : (⟨S131072x3x20, .f32⟩ : BufTy).Contents (Elt Ideal) :=
  Host.divf (F := Ideal) (φ := .f32) b (broadcastInDim S131072x3x20 ![0, 1, 2] bcast_S131072x1x20_S131072x3x20_0_1_2
    (addf (F := Ideal) (φ := .f32) (norm b)
      (broadcastInDim S131072x1x20 ![] bcast_S_S131072x1x20 (constant (F := Ideal) S_ .f32 0x2EDBE6FF#32))))

theorem dirs_apply (b : S131072x3x20.Idx → EReal) (f : Fin 131072) (c : Fin 3) (l : Fin 20) :
    dirs b (ix3 f c l)
      = Ideal.div (b (ix3 f c l)) (Ideal.sqrt (∑ c' : Fin 3, b (ix3 f c' l) * b (ix3 f c' l)) + cEps) := by
  unfold dirs
  rw [hostDivf_apply, broadcastInDim_apply _ _ _ _ (ix3 f 0 l) (fun a => by
    match a with
    | ⟨0, _⟩ => rfl
    | ⟨1, _⟩ => rfl
    | ⟨2, _⟩ => rfl), addf_apply, norm_apply, broadcastInDim_scalar_apply, constant_apply]

def sqerr (x0 : (⟨S131073x3x21, .f32⟩ : BufTy).Contents (Elt Ideal)) (x4 : (⟨S131072x3x20, .f32⟩ : BufTy).Contents (Elt Ideal))
    (x7 : (⟨S20x2, .i32⟩ : BufTy).Contents (Elt Ideal)) : (⟨S131072, .f32⟩ : BufTy).Contents (Elt Ideal) :=
  Host.reduceAdd (F := Ideal) (φ := .f32)
    (mulf (F := Ideal) (φ := .f32) (subf (F := Ideal) (φ := .f32) x4 (dirs (limb x0 x7)))
      (subf (F := Ideal) (φ := .f32) x4 (dirs (limb x0 x7))))
    (constant S_ .f32 0x00000000#32) reducesTo_S131072x3x20_S131072_d1_2 h_S_

def term (x0 : (⟨S131073x3x21, .f32⟩ : BufTy).Contents (Elt Ideal)) (x4 : (⟨S131072x3x20, .f32⟩ : BufTy).Contents (Elt Ideal))
    (x7 : (⟨S20x2, .i32⟩ : BufTy).Contents (Elt Ideal)) : (⟨S_, .f32⟩ : BufTy).Contents (Elt Ideal) :=
  Host.reduceAdd (F := Ideal) (φ := .f32)
    (mulf (F := Ideal) (φ := .f32)
      (Host.divf (F := Ideal) (φ := .f32) (sqerr x0 x4 x7)
        (broadcastInDim S131072 ![] bcast_S_S131072 (constant (F := Ideal) S_ .f32 0x42700000#32)))
      maskV)
    (constant S_ .f32 0x00000000#32) reducesTo_S131072_S_d0 h_S_

theorem sqerr_apply (x0 : T0.Idx → EReal) (x1 : T1.Idx → EReal) (x2 : T2.Idx → EReal) (x3 : T3.Idx → EReal)
    (x4 : T4.Idx → EReal) (x5 : T5.Idx → EReal) (x6 x7 : T6.Idx → BitVec 32) (h7 : InRange x7) (f : Fin 131072) :
    sqerr x0 x4 x7 (ix1 f) = liftF (argsOf x0 x1 x2 x3 x4 x5 x6 x7) f := by
  unfold sqerr
  rw [reduce_cl]
  unfold liftF
  refine Finset.sum_congr rfl fun c _ => Finset.sum_congr rfl fun l _ => ?_
  rw [mulf_apply, subf_apply, dirs_apply]
  simp only [limb_apply x0 x7 h7]
  rfl

theorem term_eq (x0 : T0.Idx → EReal) (x1 : T1.Idx → EReal) (x2 : T2.Idx → EReal) (x3 : T3.Idx → EReal)
    (x4 : T4.Idx → EReal) (x5 : T5.Idx → EReal) (x6 x7 : T6.Idx → BitVec 32) (h7 : InRange x7) :
    term x0 x4 x7 = fun _ => ∑ f : Fin 131072, Ideal.div (liftF (argsOf x0 x1 x2 x3 x4 x5 x6 x7) f) c60 * mask f := by
  unfold term
  rw [reduce_frames]
  funext _
  refine Finset.sum_congr rfl fun f _ => ?_
  rw [mulf_apply, hostDivf_apply, maskV_apply, broadcastInDim_scalar_apply, constant_apply,
    sqerr_apply x0 x1 x2 x3 x4 x5 x6 x7 h7]

end Cert.ReferenceIdeal.RefLift

end
-- ==== Proof.RefBone.lean ====
import proofs.«408326_j73830487818418_3_alg».proof.Proof.RefGather

noncomputable section

namespace Cert.ReferenceIdeal.RefBone

open Idealize.ShloMosaic Idealize.ShloMosaic.ValueIdx Cert.Spec Cert.ReferenceIdeal.RefGather
open Cert.ReferenceIdeal.Facts₀ Cert.ReferenceIdeal.Facts

variable [Cert.ReferenceIdeal.Facts]

def lens (x5 : (⟨S20, .f32⟩ : BufTy).Contents (Elt Ideal)) : (⟨S131072x20, .f32⟩ : BufTy).Contents (Elt Ideal) :=
  broadcastInDim S131072x20 ![0, 1] bcast_S1x20_S131072x20_0_1 (broadcastInDim S1x20 ![1] bcast_S20_S1x20_1 x5)

theorem lens_apply (x5 : S20.Idx → EReal) (f : Fin 131072) (l : Fin 20) : lens x5 (ix2 f l) = x5 (ix1 l) := by
  unfold lens
  rw [broadcastInDim_apply _ _ _ _ (ix2 (0 : Fin 1) l) (fun a => by
    match a with
    | ⟨0, _⟩ => rfl
    | ⟨1, _⟩ => rfl), broadcastInDim_apply _ _ _ _ (ix1 l) (fun a => by
    match a with
    | ⟨0, _⟩ => rfl)]

def len2 (x0 : (⟨S131073x3x21, .f32⟩ : BufTy).Contents (Elt Ideal)) (x6 : (⟨S20x2, .i32⟩ : BufTy).Contents (Elt Ideal)) :
    (⟨S131072x20, .f32⟩ : BufTy).Contents (Elt Ideal) :=
  Host.reduceAdd (F := Ideal) (φ := .f32) (mulf (F := Ideal) (φ := .f32) (limb x0 x6) (limb x0 x6))
    (constant S_ .f32 0x00000000#32) reducesTo_S131072x3x20_S131072x20_d1 h_S_

def sqerr (x0 : (⟨S131073x3x21, .f32⟩ : BufTy).Contents (Elt Ideal)) (x5 : (⟨S20, .f32⟩ : BufTy).Contents (Elt Ideal))
    (x6 : (⟨S20x2, .i32⟩ : BufTy).Contents (Elt Ideal)) : (⟨S131072, .f32⟩ : BufTy).Contents (Elt Ideal) :=
  Host.reduceAdd (F := Ideal) (φ := .f32)
    (mulf (F := Ideal) (φ := .f32) (subf (F := Ideal) (φ := .f32) (lens x5) (len2 x0 x6))
      (subf (F := Ideal) (φ := .f32) (lens x5) (len2 x0 x6)))
    (constant S_ .f32 0x00000000#32) reducesTo_S131072x20_S131072_d1 h_S_

def term (x0 : (⟨S131073x3x21, .f32⟩ : BufTy).Contents (Elt Ideal)) (x5 : (⟨S20, .f32⟩ : BufTy).Contents (Elt Ideal))
    (x6 : (⟨S20x2, .i32⟩ : BufTy).Contents (Elt Ideal)) : (⟨S_, .f32⟩ : BufTy).Contents (Elt Ideal) :=
  Host.reduceAdd (F := Ideal) (φ := .f32)
    (Host.divf (F := Ideal) (φ := .f32) (sqerr x0 x5 x6)
      (broadcastInDim S131072 ![] bcast_S_S131072 (constant (F := Ideal) S_ .f32 0x41A00000#32)))
    (constant S_ .f32 0x00000000#32) reducesTo_S131072_S_d0 h_S_

theorem sqerr_apply (x0 : T0.Idx → EReal) (x1 : T1.Idx → EReal) (x2 : T2.Idx → EReal) (x3 : T3.Idx → EReal)
    (x4 : T4.Idx → EReal) (x5 : T5.Idx → EReal) (x6 x7 : T6.Idx → BitVec 32) (h6 : InRange x6) (f : Fin 131072) :
    sqerr x0 x5 x6 (ix1 f) = boneF (argsOf x0 x1 x2 x3 x4 x5 x6 x7) f := by
  unfold sqerr
  rw [reduce_l]
  unfold boneF
  refine Finset.sum_congr rfl fun l _ => ?_
  unfold len2
  rw [mulf_apply, subf_apply, lens_apply, reduce_c]
  simp only [mulf_apply, limb_apply x0 x6 h6]
  rfl

theorem term_eq (x0 : T0.Idx → EReal) (x1 : T1.Idx → EReal) (x2 : T2.Idx → EReal) (x3 : T3.Idx → EReal)
    (x4 : T4.Idx → EReal) (x5 : T5.Idx → EReal) (x6 x7 : T6.Idx → BitVec 32) (h6 : InRange x6) :
    term x0 x5 x6 = fun _ => ∑ f : Fin 131072, Ideal.div (boneF (argsOf x0 x1 x2 x3 x4 x5 x6 x7) f) c20 := by
  unfold term
  rw [reduce_frames]
  funext _
  refine Finset.sum_congr rfl fun f _ => ?_
  rw [hostDivf_apply, broadcastInDim_scalar_apply, constant_apply, sqerr_apply x0 x1 x2 x3 x4 x5 x6 x7 h6]

end Cert.ReferenceIdeal.RefBone

end
-- ==== Proof.RefOut.lean ====
import proofs.«408326_j73830487818418_3_alg».proof.Proof.RefRun
import proofs.«408326_j73830487818418_3_alg».proof.Proof.RefProj
import proofs.«408326_j73830487818418_3_alg».proof.Proof.RefSmooth
import proofs.«408326_j73830487818418_3_alg».proof.Proof.RefLift
import proofs.«408326_j73830487818418_3_alg».proof.Proof.RefBone

noncomputable section

namespace Cert.ReferenceIdeal.RefOut

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- A buffer a stretch does not write holds after it what it held before. -/
theorem keep {l : List (HloOp τ sig (Elt Ideal))} {WL : List (Ref sig .tc)}
    (hw : l.Forall fun op => op.writes ⊆ (WL.map (Proc.devRef (τ := τ) .tc)).toFinset) (W : Valuation τ sig (Elt Ideal))
    {r : Ref sig .tc} (h : r ∉ WL) {x : (Proc.devRef (τ := τ) .tc r).ty.Contents (Elt Ideal)} (hx : W (Proc.devRef .tc r) = x) :
    after l W (Proc.devRef .tc r) = x :=
  (after_of_writes_sub l W hw h).trans hx

theorem A_v0 (W : Valuation τ sig (Elt Ideal)) : after cA W (Proc.devRef .tc main_v0) = RefGather.rows (W (Proc.devRef .tc main_arg0)) := by
  after_results_simp <;> rfl

theorem A_v4 (W : Valuation τ sig (Elt Ideal)) : after cA W (Proc.devRef .tc main_v4) = RefGather.maskV := by
  after_results_simp <;> rfl

theorem B1_v24 (W : Valuation τ sig (Elt Ideal)) (x0 : (⟨S131073x3x21, .f32⟩ : BufTy).Contents (Elt Ideal)) (x2 : (⟨S131072x3x3, .f32⟩ : BufTy).Contents (Elt Ideal)) (x3 : (⟨S131072x3x1, .f32⟩ : BufTy).Contents (Elt Ideal))
    (h0 : W (Proc.devRef .tc main_v0) = RefGather.rows x0) (h2 : W (Proc.devRef .tc main_arg2) = x2) (h3 : W (Proc.devRef .tc main_arg3) = x3) :
    after cB1 W (Proc.devRef .tc main_v24)
      = broadcastInDim S131072x1x21 ![0, 2] bcast_S131072x21_S131072x1x21_0_2 (RefProj.prj0 x0 x2 x3) := by
  after_results_simp
  rw [h0, h2, h3]
  rfl

theorem B1_v25 (W : Valuation τ sig (Elt Ideal)) (x0 : (⟨S131073x3x21, .f32⟩ : BufTy).Contents (Elt Ideal)) (x2 : (⟨S131072x3x3, .f32⟩ : BufTy).Contents (Elt Ideal)) (x3 : (⟨S131072x3x1, .f32⟩ : BufTy).Contents (Elt Ideal))
    (h0 : W (Proc.devRef .tc main_v0) = RefGather.rows x0) (h2 : W (Proc.devRef .tc main_arg2) = x2) (h3 : W (Proc.devRef .tc main_arg3) = x3) :
    after cB1 W (Proc.devRef .tc main_v25)
      = broadcastInDim S131072x1x21 ![0, 2] bcast_S131072x21_S131072x1x21_0_2 (RefProj.prj1 x0 x2 x3) := by
  after_results_simp
  rw [h0, h2, h3]
  rfl

theorem B2_v33 (W : Valuation τ sig (Elt Ideal)) (x0 : (⟨S131073x3x21, .f32⟩ : BufTy).Contents (Elt Ideal)) (x1 : (⟨S131072x2x21, .f32⟩ : BufTy).Contents (Elt Ideal)) (x2 : (⟨S131072x3x3, .f32⟩ : BufTy).Contents (Elt Ideal))
    (x3 : (⟨S131072x3x1, .f32⟩ : BufTy).Contents (Elt Ideal))
    (h24 : W (Proc.devRef .tc main_v24)
      = broadcastInDim S131072x1x21 ![0, 2] bcast_S131072x21_S131072x1x21_0_2 (RefProj.prj0 x0 x2 x3))
    (h25 : W (Proc.devRef .tc main_v25)
      = broadcastInDim S131072x1x21 ![0, 2] bcast_S131072x21_S131072x1x21_0_2 (RefProj.prj1 x0 x2 x3))
    (h1 : W (Proc.devRef .tc main_arg1) = x1) (h4 : W (Proc.devRef .tc main_v4) = RefGather.maskV) :
    after cB2 W (Proc.devRef .tc main_v33) = RefProj.term x0 x1 x2 x3 := by
  after_results_simp
  rw [h24, h25, h1, h4]
  rfl

attribute [local irreducible] Host.gather in
set_option maxHeartbeats 2000000 in

theorem C_v64 (W : Valuation τ sig (Elt Ideal)) (x0 : (⟨S131073x3x21, .f32⟩ : BufTy).Contents (Elt Ideal)) (x4 : (⟨S131072x3x20, .f32⟩ : BufTy).Contents (Elt Ideal)) (x7 : (⟨S20x2, .i32⟩ : BufTy).Contents (Elt Ideal))
    (h0 : W (Proc.devRef .tc main_v0) = RefGather.rows x0) (h4 : W (Proc.devRef .tc main_v4) = RefGather.maskV)
    (ha4 : W (Proc.devRef .tc main_arg4) = x4) (ha7 : W (Proc.devRef .tc main_arg7) = x7) :
    after cC W (Proc.devRef .tc main_v64) = RefLift.term x0 x4 x7 := by
  after_results_simp
  rw [h0, h4, ha4, ha7]
  rfl

attribute [local irreducible] Host.gather in
set_option maxHeartbeats 2000000 in

theorem D_v93 (W : Valuation τ sig (Elt Ideal)) (x0 : (⟨S131073x3x21, .f32⟩ : BufTy).Contents (Elt Ideal))
    (h0 : W (Proc.devRef .tc main_v0) = RefGather.rows x0) (ha0 : W (Proc.devRef .tc main_arg0) = x0) :
    after cD W (Proc.devRef .tc main_v93) = RefSmooth.term x0 := by
  after_results_simp
  rw [h0, ha0]
  rfl

attribute [local irreducible] Host.gather in
set_option maxHeartbeats 2000000 in

theorem E_v122 (W : Valuation τ sig (Elt Ideal)) (x0 : (⟨S131073x3x21, .f32⟩ : BufTy).Contents (Elt Ideal)) (x5 : (⟨S20, .f32⟩ : BufTy).Contents (Elt Ideal)) (x6 : (⟨S20x2, .i32⟩ : BufTy).Contents (Elt Ideal))
    (h0 : W (Proc.devRef .tc main_v0) = RefGather.rows x0) (ha5 : W (Proc.devRef .tc main_arg5) = x5) (ha6 : W (Proc.devRef .tc main_arg6) = x6) :
    after cE W (Proc.devRef .tc main_v122) = RefBone.term x0 x5 x6 := by
  after_results_simp
  rw [h0, ha5, ha6]
  rfl

theorem G_v129 (W : Valuation τ sig (Elt Ideal)) (p s b l : (⟨S_, .f32⟩ : BufTy).Contents (Elt Ideal))
    (hp : W (Proc.devRef .tc main_v33) = p) (hs : W (Proc.devRef .tc main_v93) = s) (hb : W (Proc.devRef .tc main_v122) = b) (hl : W (Proc.devRef .tc main_v64) = l) :
    after cG W (Proc.devRef .tc main_v129) = RefProj.final p s b l := by
  after_results_simp
  rw [hp, hs, hb, hl]
  rfl

/-- Stretch by stretch: each term is read off its stretch, and what later stretches read is carried past the stretches that do not write it. -/
theorem fold_eq (V : Valuation τ sig (Elt Ideal)) :
    after ops V (Proc.devRef .tc main_v129)
      = RefProj.final
          (RefProj.term (V (Proc.devRef .tc main_arg0)) (V (Proc.devRef .tc main_arg1)) (V (Proc.devRef .tc main_arg2)) (V (Proc.devRef .tc main_arg3)))
          (RefSmooth.term (V (Proc.devRef .tc main_arg0)))
          (RefBone.term (V (Proc.devRef .tc main_arg0)) (V (Proc.devRef .tc main_arg5)) (V (Proc.devRef .tc main_arg6)))
          (RefLift.term (V (Proc.devRef .tc main_arg0)) (V (Proc.devRef .tc main_arg4)) (V (Proc.devRef .tc main_arg7))) := by
  simp only [ops, after_app]

  have p0 := A_v0 V
  have mk := A_v4 V
  have a0 := keep cA_writes V (r := main_arg0) (by decide) rfl
  have a1 := keep cA_writes V (r := main_arg1) (by decide) rfl
  have a2 := keep cA_writes V (r := main_arg2) (by decide) rfl
  have a3 := keep cA_writes V (r := main_arg3) (by decide) rfl
  have a4 := keep cA_writes V (r := main_arg4) (by decide) rfl
  have a5 := keep cA_writes V (r := main_arg5) (by decide) rfl
  have a6 := keep cA_writes V (r := main_arg6) (by decide) rfl
  have a7 := keep cA_writes V (r := main_arg7) (by decide) rfl
  generalize after cA V = V1 at *

  have b24 := B1_v24 V1 _ _ _ p0 a2 a3
  have b25 := B1_v25 V1 _ _ _ p0 a2 a3
  replace p0 := keep cB1_writes V1 (r := main_v0) (by decide) p0
  replace mk := keep cB1_writes V1 (r := main_v4) (by decide) mk
  replace a0 := keep cB1_writes V1 (r := main_arg0) (by decide) a0
  replace a1 := keep cB1_writes V1 (r := main_arg1) (by decide) a1
  replace a4 := keep cB1_writes V1 (r := main_arg4) (by decide) a4
  replace a5 := keep cB1_writes V1 (r := main_arg5) (by decide) a5
  replace a6 := keep cB1_writes V1 (r := main_arg6) (by decide) a6
  replace a7 := keep cB1_writes V1 (r := main_arg7) (by decide) a7
  clear a2 a3
  generalize after cB1 V1 = V2 at *

  have t33 := B2_v33 V2 _ _ _ _ b24 b25 a1 mk
  replace p0 := keep cB2_writes V2 (r := main_v0) (by decide) p0
  replace mk := keep cB2_writes V2 (r := main_v4) (by decide) mk
  replace a0 := keep cB2_writes V2 (r := main_arg0) (by decide) a0
  replace a4 := keep cB2_writes V2 (r := main_arg4) (by decide) a4
  replace a5 := keep cB2_writes V2 (r := main_arg5) (by decide) a5
  replace a6 := keep cB2_writes V2 (r := main_arg6) (by decide) a6
  replace a7 := keep cB2_writes V2 (r := main_arg7) (by decide) a7
  clear b24 b25 a1
  generalize after cB2 V2 = V3 at *

  have t64 := C_v64 V3 _ _ _ p0 mk a4 a7
  replace p0 := keep cC_writes V3 (r := main_v0) (by decide) p0
  replace a0 := keep cC_writes V3 (r := main_arg0) (by decide) a0
  replace a5 := keep cC_writes V3 (r := main_arg5) (by decide) a5
  replace a6 := keep cC_writes V3 (r := main_arg6) (by decide) a6
  replace t33 := keep cC_writes V3 (r := main_v33) (by decide) t33
  clear mk a4 a7
  generalize after cC V3 = V4 at *

  have t93 := D_v93 V4 _ p0 a0
  replace p0 := keep cD_writes V4 (r := main_v0) (by decide) p0
  replace a5 := keep cD_writes V4 (r := main_arg5) (by decide) a5
  replace a6 := keep cD_writes V4 (r := main_arg6) (by decide) a6
  replace t33 := keep cD_writes V4 (r := main_v33) (by decide) t33
  replace t64 := keep cD_writes V4 (r := main_v64) (by decide) t64
  clear a0
  generalize after cD V4 = V5 at *

  have t122 := E_v122 V5 _ _ _ p0 a5 a6
  replace t33 := keep cE_writes V5 (r := main_v33) (by decide) t33
  replace t64 := keep cE_writes V5 (r := main_v64) (by decide) t64
  replace t93 := keep cE_writes V5 (r := main_v93) (by decide) t93
  clear p0 a5 a6
  generalize after cE V5 = V6 at *

  exact G_v129 V6 _ _ _ _ t33 t93 t122 t64

theorem out_eq (m : (ℓ : Loc nD τ sig) → Buf (Elt Ideal) ℓ) (c : Dev nD) :
    out m c
      = RefProj.final
          (RefProj.term (m ((c.tc : Thread nD τ).loc main_arg0)) (m ((c.tc : Thread nD τ).loc main_arg1))
            (m ((c.tc : Thread nD τ).loc main_arg2)) (m ((c.tc : Thread nD τ).loc main_arg3)))
          (RefSmooth.term (m ((c.tc : Thread nD τ).loc main_arg0)))
          (RefBone.term (m ((c.tc : Thread nD τ).loc main_arg0)) (m ((c.tc : Thread nD τ).loc main_arg5))
            (m ((c.tc : Thread nD τ).loc main_arg6)))
          (RefLift.term (m ((c.tc : Thread nD τ).loc main_arg0)) (m ((c.tc : Thread nD τ).loc main_arg4))
            (m ((c.tc : Thread nD τ).loc main_arg7))) :=
  fold_eq (launchContents m c)

end Cert.ReferenceIdeal.RefOut

end
-- ==== Proof.RefValue.lean ====
import proofs.«408326_j73830487818418_3_alg».proof.Proof.RefOut
import proofs.«408326_j73830487818418_3_alg».proof.Proof.RefProj
import proofs.«408326_j73830487818418_3_alg».proof.Proof.RefSmooth
import proofs.«408326_j73830487818418_3_alg».proof.Proof.RefLift
import proofs.«408326_j73830487818418_3_alg».proof.Proof.RefBone

noncomputable section

namespace Cert.ReferenceIdeal.RefValue

open Idealize.ShloMosaic Idealize.ShloMosaic.TcCoe Idealize.SL.Sem
open Cert.ReferenceIdeal Cert.Spec

variable [Cert.ReferenceIdeal.Facts]

theorem out_value (m : (ℓ : Loc nD τ sig) → Buf (Elt Ideal) ℓ) (c : Dev nD)
    (h6 : InRange (m ((c.tc : Thread nD τ).loc main_arg6))) (h7 : InRange (m ((c.tc : Thread nD τ).loc main_arg7))) :
    RefRun.out m c = fun _ => RLoss (argsOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) := by
  rw [RefOut.out_eq,
    RefProj.term_eq _ _ _ _ (m ((c.tc : Thread nD τ).loc main_arg4)) (m ((c.tc : Thread nD τ).loc main_arg5))
      (m ((c.tc : Thread nD τ).loc main_arg6)) (m ((c.tc : Thread nD τ).loc main_arg7)),
    RefSmooth.term_eq _ (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)),
    RefBone.term_eq _ (m ((c.tc : Thread nD τ).loc main_arg1)) (m ((c.tc : Thread nD τ).loc main_arg2))
      (m ((c.tc : Thread nD τ).loc main_arg3)) (m ((c.tc : Thread nD τ).loc main_arg4)) _ _
      (m ((c.tc : Thread nD τ).loc main_arg7)) h6,
    RefLift.term_eq _ (m ((c.tc : Thread nD τ).loc main_arg1)) (m ((c.tc : Thread nD τ).loc main_arg2))
      (m ((c.tc : Thread nD τ).loc main_arg3)) _ (m ((c.tc : Thread nD τ).loc main_arg5))
      (m ((c.tc : Thread nD τ).loc main_arg6)) _ h7,
    RefProj.final_eq]
  rfl

end Cert.ReferenceIdeal.RefValue

end
-- ==== Proof.Algebra.lean ====
import proofs.«408326_j73830487818418_3_alg».proof.Proof.ArgsOf
import proofs.«408326_j73830487818418_3_alg».proof.Proof.Consts
import Mathlib.Data.EReal.Inv
import Mathlib.Algebra.BigOperators.Fin
import Mathlib.Algebra.BigOperators.Group.Finset.Basic

noncomputable section

namespace Cert.Spec

open Idealize.ShloMosaic

theorem div_c42 (x : EReal) : Ideal.div x c42 = x * i42 := by
  rw [c42_eq]; exact Ideal.div_coe (by norm_num) x
theorem div_c60 (x : EReal) : Ideal.div x c60 = x * i60 := by
  rw [c60_eq]; exact Ideal.div_coe (by norm_num) x
theorem div_c63 (x : EReal) : Ideal.div x c63 = x * i63 := by
  rw [c63_eq]; exact Ideal.div_coe (by norm_num) x
theorem div_c20 (x : EReal) : Ideal.div x c20 = x * i20 := by
  rw [c20_eq]; exact Ideal.div_coe (by norm_num) x

def frEquiv : Fin 32 × Fin 16 × Fin 256 ≃ Fin 131072 where
  toFun x := fr x.1 x.2.1 x.2.2
  invFun f := (⟨f.val / 4096, by omega⟩, ⟨f.val / 256 % 16, by omega⟩, ⟨f.val % 256, by omega⟩)
  left_inv := by
    rintro ⟨t, k, r⟩
    simp only [fr]
    refine Prod.ext (Fin.ext ?_) (Prod.ext (Fin.ext ?_) (Fin.ext ?_)) <;> simp only [] <;> omega
  right_inv := by
    intro f
    refine Fin.ext ?_
    simp only [fr]
    omega

theorem sum_frames {M : Type} [AddCommMonoid M] (g : Fin 131072 → M) :
    ∑ f : Fin 131072, g f = ∑ t : Fin 32, ∑ k : Fin 16, ∑ r : Fin 256, g (fr t k r) := by
  rw [← frEquiv.sum_comp g, Fintype.sum_prod_type]
  refine Finset.sum_congr rfl fun t _ => ?_
  rw [Fintype.sum_prod_type]
  rfl

theorem mul_sum_real {ι : Type} (c : EReal) (h : 0 ≤ c ∧ c ≠ ⊤) (s : Finset ι) (g : ι → EReal) :
    c * ∑ i ∈ s, g i = ∑ i ∈ s, c * g i := by
  classical
  induction s using Finset.induction_on with
  | empty => simp
  | insert i s hi ih =>
    rw [Finset.sum_insert hi, Finset.sum_insert hi,
      EReal.left_distrib_of_nonneg_of_ne_top h.1 h.2, ih]

theorem weights {ι : Type} [Fintype ι] (w1 w2 w3 w4 : EReal)
    (h1 : 0 ≤ w1 ∧ w1 ≠ ⊤) (h2 : 0 ≤ w2 ∧ w2 ≠ ⊤) (h3 : 0 ≤ w3 ∧ w3 ≠ ⊤) (h4 : 0 ≤ w4 ∧ w4 ≠ ⊤)
    (A S B L : ι → EReal) :
    ∑ t, (((w1 * A t + w2 * S t) + w3 * B t) + w4 * L t)
      = ((w1 * ∑ t, A t + w2 * ∑ t, S t) + w3 * ∑ t, B t) + w4 * ∑ t, L t := by
  rw [Finset.sum_add_distrib, Finset.sum_add_distrib, Finset.sum_add_distrib,
    mul_sum_real w1 h1, mul_sum_real w2 h2, mul_sum_real w3 h3, mul_sum_real w4 h4]

variable (a : Args)

theorem kpcam_eq (f : Fin 131072) (i : Fin 3) (j : Fin 21) : kpcam a f i j = pcam a f i j := by
  unfold kpcam pcam; rw [Fin.sum_univ_three]

theorem kprojF_eq (f : Fin 131072) : kprojF a f = projF a f := by
  simp only [kprojF, projF, kpx, kpy, px, py, kpcam_eq]

theorem knrm_eq (f : Fin 131072) (l : Fin 20) : knrm a f l = nrm a f l := by
  unfold knrm nrm; rw [Fin.sum_univ_three]

theorem kliftF_eq (f : Fin 131072) : kliftF a f = liftF a f := by
  unfold kliftF liftF
  rw [Finset.sum_comm]
  refine Finset.sum_congr rfl fun l _ => ?_
  rw [Fin.sum_univ_three, zero_add, knrm_eq]

theorem kboneF_eq (f : Fin 131072) : kboneF a f = boneF a f := by
  unfold kboneF boneF
  refine Finset.sum_congr rfl fun l _ => ?_
  rw [Fin.sum_univ_three]

theorem second_diff (p0 p1 p2 : ℝ) :
    ((p0 : EReal) - c2 * (p1 : EReal)) + (p2 : EReal)
      = ((p0 : EReal) - (p1 : EReal)) - ((p1 : EReal) - (p2 : EReal)) := by
  rw [c2_eq]
  exact_mod_cast (by ring : p0 - 2 * p1 + p2 = p0 - p1 - (p1 - p2))

theorem ksmoothF_eq (h : a.Real) (f : Fin 131072) : ksmoothF a f = smoothF a f := by
  unfold ksmoothF smoothF
  refine Finset.sum_congr rfl fun c _ => Finset.sum_congr rfl fun j _ => ?_
  obtain ⟨p0, h0⟩ := h.pose (row f) c j
  obtain ⟨p1, h1⟩ := h.pose (prev1 f) c j
  obtain ⟨p2, h2⟩ := h.pose (prev2 f) c j
  rw [h0, h1, h2, second_diff]

theorem proj_term (f : Fin 131072) :
    Ideal.div (projF a f) c42 * mask f = kprojF a f * (i42 * mask f) := by
  rw [div_c42, kprojF_eq, mul_assoc]

theorem smooth_term (h : a.Real) (f : Fin 131072) :
    Ideal.div (smoothF a f) c63 = ksmoothF a f * i63 := by
  rw [div_c63, ksmoothF_eq a h]

theorem bone_term (f : Fin 131072) : Ideal.div (boneF a f) c20 = kboneF a f * i20 := by
  rw [div_c20, kboneF_eq]

theorem lift_term (f : Fin 131072) :
    Ideal.div (liftF a f) c60 * mask f = kliftF a f * (i60 * mask f) := by
  rw [div_c60, kliftF_eq, mul_assoc]

theorem KLoss_eq_RLoss (h : a.Real) : KLoss a = RLoss a := by
  unfold KLoss RLoss
  simp only [KBlock]
  rw [weights c03 c05 c02 c01 c03_real c05_real c02_real c01_real]
  simp only [proj_term, smooth_term a h, bone_term, lift_term, sum_frames]

end Cert.Spec

end
-- ==== Proof.lean ====
import proofs.«408326_j73830487818418_3_alg».proof.Defs
import proofs.«408326_j73830487818418_3_alg».proof.Proof.Gen.Kernel
import proofs.«408326_j73830487818418_3_alg».proof.Proof.Gen.KernelIdeal
import proofs.«408326_j73830487818418_3_alg».proof.Proof.Gen.ReferenceIdeal
import proofs.«408326_j73830487818418_3_alg».proof.Proof.Gen.Pre_finite_inputs
import proofs.«408326_j73830487818418_3_alg».proof.Proof.KFrameBits
import proofs.«408326_j73830487818418_3_alg».proof.Proof.KValue
import proofs.«408326_j73830487818418_3_alg».proof.Proof.KPre
import proofs.«408326_j73830487818418_3_alg».proof.Proof.RefValue
import proofs.«408326_j73830487818418_3_alg».proof.Proof.Algebra
import Idealize.ShloMosaic.PureOps.IdealRules

noncomputable section

namespace Cert.Proof

open Idealize.ShloMosaic Idealize.SL.Sem

/-- The reference's frame: its run with the result dropped. -/
theorem frame_ref [Cert.ReferenceIdeal.Facts] [Cert.Pre_finite_inputs.Facts] : Cert.frame_ReferenceIdeal :=
  fun m g _ => (θ_run (Cert.ReferenceIdeal.defs (F := Ideal)) _ _).mono (fun _ h c => (h c).2)
    (Cert.ReferenceIdeal.RefRun.run m g)

/-- Each named reciprocal is its rational. -/
theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl⟩

/-- Both idealized programs end with the loss of the shared arguments: the sum over 32 blocks against four sums over all frames. -/
theorem algebraic [Cert.KernelIdeal.Facts] [Cert.ReferenceIdeal.Facts] [Cert.Pre_finite_inputs.Facts] :
    Cert.algebraic_KernelIdeal_ReferenceIdeal := by
  intro m g m' g' hpre hagree
  have hdec := fun c => Cert.KernelIdeal.Hand.pre_decode m hpre c
  refine ⟨fun c _ => Cert.Spec.KLoss (Cert.KernelIdeal.Hand.argsAt m c),
    Cert.KernelIdeal.Hand.run_value m g (fun c => (hdec c).2.2.2.2.2.2.1) (fun c => (hdec c).2.2.2.2.2.2.2), ?_⟩
  refine (θ_run (Cert.ReferenceIdeal.defs (F := Ideal)) _ _).mono (fun r h c => ⟨?_, (h c).2⟩)
    (Cert.ReferenceIdeal.RefRun.run m' g')
  obtain ⟨e0, e1, e2, e3, e4, e5, e6, e7⟩ := hagree c
  have h6 : Cert.Spec.InRange (m' ((c.tc : Thread Cert.ReferenceIdeal.nD Cert.ReferenceIdeal.τ).loc Cert.ReferenceIdeal.main_arg6)) := by rw [e6]; exact (hdec c).2.2.2.2.2.2.1
  have h7 : Cert.Spec.InRange (m' ((c.tc : Thread Cert.ReferenceIdeal.nD Cert.ReferenceIdeal.τ).loc Cert.ReferenceIdeal.main_arg7)) := by rw [e7]; exact (hdec c).2.2.2.2.2.2.2
  rw [(h c).1, Cert.ReferenceIdeal.RefValue.out_value m' c h6 h7, e0, e1, e2, e3, e4, e5, e6, e7]
  exact congrArg (fun (x : EReal) => fun _ => x)
    (Cert.Spec.KLoss_eq_RLoss _ (Cert.KernelIdeal.Hand.args_real m hpre c)).symm

theorem claim : Cert.Claim :=
  ⟨Cert.Kernel.Gen.facts, Cert.KernelIdeal.Gen.facts, Cert.ReferenceIdeal.Gen.facts, Cert.Pre_finite_inputs.Gen.facts,
   fun m ρ _ => Cert.Kernel.Hand.frame m ρ,
   fun m ρ _ => Cert.KernelIdeal.Hand.frame m ρ,
   frame_ref, preserves, algebraic⟩

end Cert.Proof

end
